-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x16 : S_.BroadcastsInDim S10000x16 (![] : Fin 0 → Fin S10000x16.rank)
  reducesTo_S10000x16_S_d0_1 : S10000x16.ReducesTo [0, 1] S_
  bcast_S_S10000x2048 : S_.BroadcastsInDim S10000x2048 (![] : Fin 0 → Fin S10000x2048.rank)
  reducesTo_S10000x2048_S_d0_1 : S10000x2048.ReducesTo [0, 1] S_
  bcast_S_S2048 : S_.BroadcastsInDim S2048 (![] : Fin 0 → Fin S2048.rank)
  reducesTo_S2048_S_d0 : S2048.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x64 : S_.BroadcastsInDim S32x64 (![] : Fin 0 → Fin S32x64.rank)
  reducesTo_S32x64_S_d0_1 : S32x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  main_v88

def fn_part4 {F : FTy → Type} [FloatOps F] (main_arg14 : FVec F S64x64 .f32) (main_arg15 : FVec F S64 .f32) (main_arg16 : FVec F S64x2 .f32) (main_arg17 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg16
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg17
  let main_cst_32 : FVec F S_ .f32 := constant S_ .f32 0x7F800000#32
  fn_part5 (F := F) main_v83 main_v84 main_cst_32

def fn_part3 {F : FTy → Type} [FloatOps F] (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg12
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_v63 main_v67

def fn_part2 {F : FTy → Type} [FloatOps F] (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_arg12 main_arg13 main_arg14 main_arg15 main_arg16 main_arg17 main_v48 main_v49 main_v50

def fn_part1 {F : FTy → Type} [FloatOps F] (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S16x32 .f32 := Host.absf main_arg6
  let main_cst_10 : FVec F S_ .f32 := constant S_ .f32 0x7F800000#32
  let main_v30 : FVec F S16x32 .f32 := broadcastInDim S16x32 ![] bcast_S_S16x32 main_cst_10
  let main_v31 : IVec S16x32 1 := cmpf .olt main_v29 main_v30
  let main_c_11 : IVec S_ 1 := constantI S_ 1 1#1
  let main_v32 : IVec S_ 1 := (fun x v => Host.reduce IntOp.andi x v reducesTo_S16x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S10000x128 .f32) (main_arg1 : FVec F S10000x16 .f32) (main_arg2 : FVec F S10000x2048 .f32) (main_arg3 : FVec F S2048 .f32) (main_arg4 : FVec F S128x32 .f32) (main_arg5 : FVec F S32 .f32) (main_arg6 : FVec F S16x32 .f32) (main_arg7 : FVec F S32 .f32) (main_arg8 : FVec F S64x64 .f32) (main_arg9 : FVec F S64 .f32) (main_arg10 : FVec F S64x32 .f32) (main_arg11 : FVec F S32 .f32) (main_arg12 : FVec F S32x64 .f32) (main_arg13 : FVec F S64 .f32) (main_arg14 : FVec F S64x64 .f32) (main_arg15 : FVec F S64 .f32) (main_arg16 : FVec F S64x2 .f32) (main_arg17 : FVec F S2 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x16 .f32 := Host.absf main_arg1
  let main_cst_0 : FVec F S_ .f32 := constant S_ .f32 0x7F800000#32
  let main_v5 : FVec F S10000x16 .f32 := broadcastInDim S10000x16 ![] bcast_S_S10000x16 main_cst_0
  let main_v6 : IVec S10000x16 1 := cmpf .olt main_v4 main_v5
  let main_c_1 : IVec S_ 1 := constantI S_ 1 1#1
  let main_v7 : IVec S_ 1 := (fun x v => Host.reduce IntOp.andi x v reducesTo_S10000x16_S_d0_1 h_S_) main_v6 main_c_1
  let main_v8 : IVec S_ 1 := andi main_v3 main_v7
  let main_v9 : FVec F S10000x2048 .f32 := Host.absf main_arg2
  let main_cst_2 : FVec F S_ .f32 := constant S_ .f32 0x7F800000#32
  let main_v10 : FVec F S10000x2048 .f32 := broadcastInDim S10000x2048 ![] bcast_S_S10000x2048 main_cst_2
  let main_v11 : IVec S10000x2048 1 := cmpf .olt main_v9 main_v10
  let main_c_3 : IVec S_ 1 := constantI S_ 1 1#1
  let main_v12 : IVec S_ 1 := (fun x v => Host.reduce IntOp.andi x v reducesTo_S10000x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S2048x1 : Shape := ⟨2, ![2048, 1]⟩
abbrev S1x2048 : Shape := ⟨2, ![1, 2048]⟩
abbrev S1x32 : Shape := ⟨2, ![1, 32]⟩
abbrev S1x64 : Shape := ⟨2, ![1, 64]⟩
abbrev S1x2 : Shape := ⟨2, ![1, 2]⟩
abbrev S10000x32 : Shape := ⟨2, ![10000, 32]⟩
abbrev S10000x2 : Shape := ⟨2, ![10000, 2]⟩
abbrev S400x2048 : Shape := ⟨2, ![400, 2048]⟩
abbrev S400x128 : Shape := ⟨2, ![400, 128]⟩
abbrev S400x16 : Shape := ⟨2, ![400, 16]⟩
abbrev S400x32 : Shape := ⟨2, ![400, 32]⟩
abbrev S1000x2 : Shape := ⟨2, ![1000, 2]⟩
abbrev S64x2048 : Shape := ⟨2, ![64, 2048]⟩
abbrev S2048x64 : Shape := ⟨2, ![2048, 64]⟩
abbrev S400x1 : Shape := ⟨2, ![400, 1]⟩
abbrev S1x400 : Shape := ⟨2, ![1, 400]⟩
abbrev S400x64 : Shape := ⟨2, ![400, 64]⟩
abbrev S1000x2048 : Shape := ⟨2, ![1000, 2048]⟩
abbrev S1000x1 : Shape := ⟨2, ![1000, 1]⟩
abbrev S1000x64 : Shape := ⟨2, ![1000, 64]⟩

abbrev nBuf : Space → Nat
  | .hbm => 30
  | .vmem => 31
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S2048x1, .f32⟩
  | .hbm, ⟨19, _⟩ => ⟨S2048x1, .bf16⟩
  | .hbm, ⟨20, _⟩ => ⟨S1x2048, .f32⟩
  | .hbm, ⟨21, _⟩ => ⟨S1x32, .f32⟩
  | .hbm, ⟨22, _⟩ => ⟨S1x32, .f32⟩
  | .hbm, ⟨23, _⟩ => ⟨S1x64, .f32⟩
  | .hbm, ⟨24, _⟩ => ⟨S1x32, .f32⟩
  | .hbm, ⟨25, _⟩ => ⟨S1x64, .f32⟩
  | .hbm, ⟨26, _⟩ => ⟨S1x64, .f32⟩
  | .hbm, ⟨27, _⟩ => ⟨S1x2, .f32⟩
  | .hbm, ⟨28, _⟩ => ⟨S10000x32, .f32⟩
  | .hbm, ⟨29, _⟩ => ⟨S10000x2, .f32⟩
  | .local _ .vmem, ⟨0, _⟩ => ⟨S400x2048, .f32⟩
  | .local _ .vmem, ⟨1, _⟩ => ⟨S400x2048, .f32⟩
  | .local _ .vmem, ⟨2, _⟩ => ⟨S400x128, .f32⟩
  | .local _ .vmem, ⟨3, _⟩ => ⟨S400x128, .f32⟩
  | .local _ .vmem, ⟨4, _⟩ => ⟨S400x16, .f32⟩
  | .local _ .vmem, ⟨5, _⟩ => ⟨S400x16, .f32⟩
  | .local _ .vmem, ⟨6, _⟩ => ⟨S2048x1, .bf16⟩
  | .local _ .vmem, ⟨7, _⟩ => ⟨S1x2048, .f32⟩
  | .local _ .vmem, ⟨8, _⟩ => ⟨S128x32, .f32⟩
  | .local _ .vmem, ⟨9, _⟩ => ⟨S1x32, .f32⟩
  | .local _ .vmem, ⟨10, _⟩ => ⟨S16x32, .f32⟩
  | .local _ .vmem, ⟨11, _⟩ => ⟨S1x32, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S1x32, .f32⟩
  | .local _ .vmem, ⟨16, _⟩ => ⟨S32x64, .f32⟩
  | .local _ .vmem, ⟨17, _⟩ => ⟨S1x64, .f32⟩
  | .local _ .vmem, ⟨18, _⟩ => ⟨S64x64, .f32⟩
  | .local _ .vmem, ⟨19, _⟩ => ⟨S1x64, .f32⟩
  | .local _ .vmem, ⟨20, _⟩ => ⟨S64x2, .f32⟩
  | .local _ .vmem, ⟨21, _⟩ => ⟨S1x2, .f32⟩
  | .local _ .vmem, ⟨22, _⟩ => ⟨S400x32, .f32⟩
  | .local _ .vmem, ⟨23, _⟩ => ⟨S400x32, .f32⟩
  | .local _ .vmem, ⟨24, _⟩ => ⟨S1000x2, .f32⟩
  | .local _ .vmem, ⟨25, _⟩ => ⟨S1000x2, .f32⟩
  | .local _ .vmem, ⟨26, _⟩ => ⟨S10000x2048, .bf16⟩
  | .local _ .vmem, ⟨27, _⟩ => ⟨S1x2048, .f32⟩
  | .local _ .vmem, ⟨28, _⟩ => ⟨S64x2048, .f32⟩
  | .local _ .vmem, ⟨29, _⟩ => ⟨S64x2048, .f32⟩
  | .local _ .vmem, ⟨30, _⟩ => ⟨S2048x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10_0 : Ref sig .tc := ⟨.hbm, 28, rfl⟩
abbrev main_v10_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![45], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v22 : BitVec 32 := Scalar.muli arg0 c400_i32
  let v23 : Index := Scalar.indexCast v22
  let c0_11 : Index := 0#32
  ![v23.toNat, 0]
def k0_cond4 (i : grid0.Coords) : BitVec 1 :=
  let arg0 : BitVec 32 := BitVec.ofNat 32 (i 0).val
  let c25_i32_4 : BitVec 32 := 25#32
  let v9 : BitVec 1 := Scalar.cmpi .sge arg0 c25_i32_4
  let c35_i32 : BitVec 32 := 35#32
  let v10 : BitVec 1 := Scalar.cmpi .slt arg0 c35_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c25_i32_10 : BitVec 32 := 25#32
  let v20 : BitVec 32 := Scalar.subi arg0 c25_i32_10
  let c1000_i32 : BitVec 32 := 1000#32
  let v21 : BitVec 32 := Scalar.muli v20 c1000_i32
  let v22 : Index := Scalar.indexCast v21
  let c0 : Index := 0#32
  ![v22.toNat, 0]
def k0_cond6 (i : grid0.Coords) : BitVec 1 :=
  let arg0 : BitVec 32 := BitVec.ofNat 32 (i 0).val
  let c35_i32_8 : BitVec 32 := 35#32
  let v17 : BitVec 1 := Scalar.cmpi .sge arg0 c35_i32_8
  let v18 : BitVec 32 := Scalar.extui v17
  let c0_i32_9 : BitVec 32 := 0#32
  let v19 : BitVec 1 := Scalar.cmpi .ne v18 c0_i32_9
  v19

def k0_off3 (i : grid0.Coords) : Fin 2 → Nat :=
  let arg0 : BitVec 32 := BitVec.ofNat 32 (i 0).val
  let c35_i32_10 : BitVec 32 := 35#32
  let v20 : BitVec 32 := Scalar.subi arg0 c35_i32_10
  let c1000_i32 : BitVec 32 := 1000#32
  let v21 : BitVec 32 := Scalar.muli v20 c1000_i32
  let v22 : Index := Scalar.indexCast v21
  let c0 : Index := 0#32
  ![v22.toNat, 0]
def cc0_transform_0 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c35_i32 : BitVec 32 := 35#32
  let v0 : BitVec 32 := Scalar.subi arg0 c35_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S400x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S400x32 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1000x2 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  shapeCasts_S2048_S2048x1 : S2048.ShapeCasts S2048x1
  bitsLt_bf16_f32 : FTy.bits .bf16 < FTy.bits .f32
  shapeCasts_S2048_S1x2048 : S2048.ShapeCasts S1x2048
  shapeCasts_S32_S1x32 : S32.ShapeCasts S1x32
  shapeCasts_S64_S1x64 : S64.ShapeCasts S1x64
  shapeCasts_S2_S1x2 : S2.ShapeCasts S1x2
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S400x2048_S400x2048_0_0 : ∀ a, (![0, 0] : Fin 2 → Nat) a + S400x2048.size a ≤ S400x2048.size a
  h_S400x2048 : 0 < S400x2048.numel
  shapeCasts_S400x2048_S400x2048 : S400x2048.ShapeCasts S400x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S400x128_S400x128_0_0 : ∀ a, (![0, 0] : Fin 2 → Nat) a + S400x128.size a ≤ S400x128.size a
  h_S400x128 : 0 < S400x128.numel
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S400x16_S400x16_0_0 : ∀ a, (![0, 0] : Fin 2 → Nat) a + S400x16.size a ≤ S400x16.size a
  h_S400x16 : 0 < S400x16.numel
  inb_S16x32_S16x32_0_0 : ∀ a, (![0, 0] : Fin 2 → Nat) a + S16x32.size a ≤ S16x32.size a
  h_S16x32 : 0 < S16x32.numel
  concatenates_S400x32_S400x32_S400x64_d1 : Shape.Concatenates [S400x32, S400x32] S400x64 1
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x32_S64x32_0_0 : ∀ a, (![0, 0] : Fin 2 → Nat) a + S64x32.size a ≤ S64x32.size a
  h_S64x32 : 0 < S64x32.numel
  inb_S400x32_S400x32_0_0 : ∀ a, (![0, 0] : Fin 2 → Nat) a + S400x32.size a ≤ S400x32.size a
  h_S400x32 : 0 < S400x32.numel
  inb_S32x64_S32x64_0_0 : ∀ a, (![0, 0] : Fin 2 → Nat) a + S32x64.size a ≤ S32x64.size a
  h_S32x64 : 0 < S32x64.numel
  broadcasts_S400x1_S400x64 : S400x1.Broadcasts S400x64
  broadcasts_S1x2048_S64x2048 : S1x2048.Broadcasts S64x2048
  transposes_S64x2048_p1_0_S2048x64 : S64x2048.Transposes [1, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  h_S1000x2048 : 0 < S1000x2048.numel
  broadcasts_S1000x1_S1000x64 : S1000x1.Broadcasts S1000x64
  broadcasts_S1x64_S1000x64 : S1x64.Broadcasts S1000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1000x2 : S1x2.Broadcasts S1000x2
  inb_S1000x2_S1000x2_0_0 : ∀ a, (![0, 0] : Fin 2 → Nat) a + S1000x2.size a ≤ S1000x2.size a
  h_S1000x2 : 0 < S1000x2.numel
  dot_S400x2048_S2048x1_S400x1_1_0_0_1_n_n_wf : DotDims.WF S400x2048 S2048x1 S400x1 [1] [0] [0] [1] [] []
  dot_S1x400_S400x2048_S1x2048_1_0_0_1_n_n_wf : DotDims.WF S1x400 S400x2048 S1x2048 [1] [0] [0] [1] [] []
  dot_S400x128_S128x32_S400x32_1_0_0_1_n_n_wf : DotDims.WF S400x128 S128x32 S400x32 [1] [0] [0] [1] [] []
  dot_S400x16_S16x32_S400x32_1_0_0_1_n_n_wf : DotDims.WF S400x16 S16x32 S400x32 [1] [0] [0] [1] [] []
  dot_S400x64_S64x64_S400x64_1_0_0_1_n_n_wf : DotDims.WF S400x64 S64x64 S400x64 [1] [0] [0] [1] [] []
  dot_S400x64_S64x32_S400x32_1_0_0_1_n_n_wf : DotDims.WF S400x64 S64x32 S400x32 [1] [0] [0] [1] [] []
  dot_S400x32_S32x64_S400x64_1_0_0_1_n_n_wf : DotDims.WF S400x32 S32x64 S400x64 [1] [0] [0] [1] [] []
  dot_S400x64_S400x2048_S64x2048_0_0_1_1_n_n_wf : DotDims.WF S400x64 S400x2048 S64x2048 [0] [0] [1] [1] [] []
  dot_S1000x2048_S2048x1_S1000x1_1_0_0_1_n_n_wf : DotDims.WF S1000x2048 S2048x1 S1000x1 [1] [0] [0] [1] [] []
  dot_S1000x2048_S2048x64_S1000x64_1_0_0_1_n_n_wf : DotDims.WF S1000x2048 S2048x64 S1000x64 [1] [0] [0] [1] [] []
  dot_S1000x64_S64x64_S1000x64_1_0_0_1_n_n_wf : DotDims.WF S1000x64 S64x64 S1000x64 [1] [0] [0] [1] [] []
  dot_S1000x64_S1000x2048_S64x2048_0_0_1_1_n_n_wf : DotDims.WF S1000x64 S1000x2048 S64x2048 [0] [0] [1] [1] [] []
  dot_S1000x64_S64x2_S1000x2_1_0_0_1_n_n_wf : DotDims.WF S1000x64 S64x2 S1000x2 [1] [0] [0] [1] [] []
  hrank0 : 0 < grid0.rank
  k0_off1_inb : ∀ i : grid0.Coords, ∀ (k0_h2 : k0_cond2 i = 1#1), ∀ a, (k0_off1 i) a + S400x2048.size a ≤ S10000x2048.size a
  k0_off1_packedbf16 : ∀ i : grid0.Coords, ∀ (k0_h2 : k0_cond2 i = 1#1), (Rect.unit (s := S10000x2048) (k0_off1 i) S400x2048.size (k0_off1_inb i k0_h2)).PackedRows (EltTy.packing .bf16)
  k0_off2_inb : ∀ i : grid0.Coords, ∀ (k0_h4 : k0_cond4 i = 1#1), ∀ a, (k0_off2 i) a + S1000x2048.size a ≤ S10000x2048.size a
  k0_off3_inb : ∀ i : grid0.Coords, ∀ (k0_h6 : k0_cond6 i = 1#1), ∀ a, (k0_off3 i) a + S1000x2048.size a ≤ S10000x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x2048.size a ≤ S10000x2048.size a
  hwx0_0 : ∀ i : grid0.Coords, EltTy.bits .f32 = 32 ∨ (Rect.block (s := S10000x2048) S400x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x128.size a ≤ S10000x128.size a
  hwx0_1 : ∀ i : grid0.Coords, EltTy.bits .f32 = 32 ∨ (Rect.block (s := S10000x128) S400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x16.size a ≤ S10000x16.size a
  hwx0_2 : ∀ i : grid0.Coords, EltTy.bits .f32 = 32 ∨ (Rect.block (s := S10000x16) S400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2048x1.size a
  hwx0_3 : ∀ i : grid0.Coords, EltTy.bits .bf16 = 32 ∨ (Rect.block (s := S2048x1) S2048x1.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x32.size a ≤ S16x32.size a
  hwx0_7 : ∀ i : grid0.Coords, EltTy.bits .f32 = 32 ∨ (Rect.block (s := S16x32) S16x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x32.size a ≤ S64x32.size a
  hwx0_11 : ∀ i : grid0.Coords, EltTy.bits .f32 = 32 ∨ (Rect.block (s := S64x32) S64x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x64.size a ≤ S32x64.size a
  hwx0_13 : ∀ i : grid0.Coords, EltTy.bits .f32 = 32 ∨ (Rect.block (s := S32x64) S32x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2.size a ≤ S64x2.size a
  hwx0_17 : ∀ i : grid0.Coords, EltTy.bits .f32 = 32 ∨ (Rect.block (s := S64x2) S64x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x2.size a ≤ S1x2.size a
  hwx0_18 : ∀ i : grid0.Coords, EltTy.bits .f32 = 32 ∨ (Rect.block (s := S1x2) S1x2.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S400x32.size a ≤ S10000x32.size a
  hwx0_19 : ∀ i : grid0.Coords, EltTy.bits .f32 = 32 ∨ (Rect.block (s := S10000x32) S400x32.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1000x2.size a ≤ S10000x2.size a
  hwx0_20 : ∀ i : grid0.Coords, EltTy.bits .f32 = 32 ∨ (Rect.block (s := S10000x2) S1000x2.size (cc0_transform_20 i) (hinb0_20 i)).WholeWords (EltTy.packing .f32)

variable [Facts₀]

def dot_S400x2048_S2048x1_S400x1_1_0_0_1_n_n : DotDims S400x2048 S2048x1 S400x1 where
  lhsContracting := [1]
  rhsContracting := [0]
  lhsNonContracting := [0]
  rhsNonContracting := [1]
  lhsBatch := []
  rhsBatch := []
  wf := dot_S400x2048_S2048x1_S400x1_1_0_0_1_n_n_wf
def dot_S1x400_S400x2048_S1x2048_1_0_0_1_n_n : DotDims S1x400 S400x2048 S1x2048 where
  lhsContracting := [1]
  rhsContracting := [0]
  lhsNonContracting := [0]
  rhsNonContracting := [1]
  lhsBatch := []
  rhsBatch := []
  wf := dot_S1x400_S400x2048_S1x2048_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x16_S16x32_S400x32_1_0_0_1_n_n : DotDims S400x16 S16x32 S400x32 where
  lhsContracting := [1]
  rhsContracting := [0]
  lhsNonContracting := [0]
  rhsNonContracting := [1]
  lhsBatch := []
  rhsBatch := []
  wf := dot_S400x16_S16x32_S400x32_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x64_S64x32_S400x32_1_0_0_1_n_n : DotDims S400x64 S64x32 S400x32 where
  lhsContracting := [1]
  rhsContracting := [0]
  lhsNonContracting := [0]
  rhsNonContracting := [1]
  lhsBatch := []
  rhsBatch := []
  wf := dot_S400x64_S64x32_S400x32_1_0_0_1_n_n_wf
def dot_S400x32_S32x64_S400x64_1_0_0_1_n_n : DotDims S400x32 S32x64 S400x64 where
  lhsContracting := [1]
  rhsContracting := [0]
  lhsNonContracting := [0]
  rhsNonContracting := [1]
  lhsBatch := []
  rhsBatch := []
  wf := dot_S400x32_S32x64_S400x64_1_0_0_1_n_n_wf
def dot_S400x64_S400x2048_S64x2048_0_0_1_1_n_n : DotDims S400x64 S400x2048 S64x2048 where
  lhsContracting := [0]
  rhsContracting := [0]
  lhsNonContracting := [1]
  rhsNonContracting := [1]
  lhsBatch := []
  rhsBatch := []
  wf := dot_S400x64_S400x2048_S64x2048_0_0_1_1_n_n_wf
def dot_S1000x2048_S2048x1_S1000x1_1_0_0_1_n_n : DotDims S1000x2048 S2048x1 S1000x1 where
  lhsContracting := [1]
  rhsContracting := [0]
  lhsNonContracting := [0]
  rhsNonContracting := [1]
  lhsBatch := []
  rhsBatch := []
  wf := dot_S1000x2048_S2048x1_S1000x1_1_0_0_1_n_n_wf
def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S1000x2048_S64x2048_0_0_1_1_n_n : DotDims S1000x64 S1000x2048 S64x2048 where
  lhsContracting := [0]
  rhsContracting := [0]
  lhsNonContracting := [1]
  rhsNonContracting := [1]
  lhsBatch := []
  rhsBatch := []
  wf := dot_S1000x64_S1000x2048_S64x2048_0_0_1_1_n_n_wf
def dot_S1000x64_S64x2_S1000x2_1_0_0_1_n_n : DotDims S1000x64 S64x2 S1000x2 where
  lhsContracting := [1]
  rhsContracting := [0]
  lhsNonContracting := [0]
  rhsNonContracting := [1]
  lhsBatch := []
  rhsBatch := []
  wf := dot_S1000x64_S64x2_S1000x2_1_0_0_1_n_n_wf

abbrev win0_0 : Pipeline.Window sig grid0 :=
  Pipeline.Window.ofSpec (Memref.whole main_arg2) S400x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S32x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg16) S64x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v9) S1x2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v10_0) S400x32.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v10_1) S1000x2.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev idle0 : Fin 21 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond2 i == 1#1) | 20 => fun i => !(k0_cond6 i == 1#1) | ⟨_ + 21, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x16 : Shape := ⟨2, ![10000, 16]⟩
abbrev S10000x2048 : Shape := ⟨2, ![10000, 2048]⟩
abbrev S2048 : Shape := ⟨1, ![2048]⟩
abbrev S128x32 : Shape := ⟨2, ![128, 32]⟩
abbrev S32 : Shape := ⟨1, ![32]⟩
abbrev S16x32 : Shape := ⟨2, ![16, 32]⟩
abbrev S64x64 : Shape := ⟨2, ![64, 64]⟩
abbrev S64 : Shape := ⟨1, ![64]⟩
abbrev S64x32 : Shape := ⟨2, ![64, 32]⟩
abbrev S32x64 : Shape := ⟨2, ![32, 64]⟩
abbrev S64x2 : Shape := ⟨2, ![64, 2]⟩
abbrev S2 : Shape := ⟨1, ![2]⟩
abbrev S10000x32 : Shape := ⟨2, ![10000, 32]⟩
abbrev S1x32 : Shape := ⟨2, ![1, 32]⟩
abbrev S10000x64 : Shape := ⟨2, ![10000, 64]⟩
abbrev S1x64 : Shape := ⟨2, ![1, 64]⟩
abbrev S_ : Shape := ⟨0, ![]⟩
abbrev S1x2048 : Shape := ⟨2, ![1, 2048]⟩
abbrev S10000 : Shape := ⟨1, ![10000]⟩
abbrev S10000x1 : Shape := ⟨2, ![10000, 1]⟩
abbrev S2048x10000 : Shape := ⟨2, ![2048, 10000]⟩
abbrev S2048x64 : Shape := ⟨2, ![2048, 64]⟩
abbrev S2048x1 : Shape := ⟨2, ![2048, 1]⟩
abbrev S10000x2 : Shape := ⟨2, ![10000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x16, .f32⟩
  | .hbm, ⟨2, _⟩ => ⟨S10000x2048, .f32⟩
  | .hbm, ⟨3, _⟩ => ⟨S2048, .f32⟩
  | .hbm, ⟨4, _⟩ => ⟨S128x32, .f32⟩
  | .hbm, ⟨5, _⟩ => ⟨S32, .f32⟩
  | .hbm, ⟨6, _⟩ => ⟨S16x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S32x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x2, .f32⟩
  | .hbm, ⟨17, _⟩ => ⟨S2, .f32⟩
  | .hbm, ⟨18, _⟩ => ⟨S10000x32, .f32⟩
  | .hbm, ⟨19, _⟩ => ⟨S1x32, .f32⟩
  | .hbm, ⟨20, _⟩ => ⟨S10000x32, .f32⟩
  | .hbm, ⟨21, _⟩ => ⟨S10000x32, .f32⟩
  | .hbm, ⟨22, _⟩ => ⟨S10000x32, .f32⟩
  | .hbm, ⟨23, _⟩ => ⟨S1x32, .f32⟩
  | .hbm, ⟨24, _⟩ => ⟨S10000x32, .f32⟩
  | .hbm, ⟨25, _⟩ => ⟨S10000x32, .f32⟩
  | .hbm, ⟨26, _⟩ => ⟨S10000x64, .f32⟩
  | .hbm, ⟨27, _⟩ => ⟨S10000x64, .f32⟩
  | .hbm, ⟨28, _⟩ => ⟨S1x64, .f32⟩
  | .hbm, ⟨29, _⟩ => ⟨S10000x64, .f32⟩
  | .hbm, ⟨30, _⟩ => ⟨S10000x64, .f32⟩
  | .hbm, ⟨31, _⟩ => ⟨S_, .f32⟩
  | .hbm, ⟨32, _⟩ => ⟨S10000x64, .f32⟩
  | .hbm, ⟨33, _⟩ => ⟨S10000x64, .f32⟩
  | .hbm, ⟨34, _⟩ => ⟨S10000x32, .f32⟩
  | .hbm, ⟨35, _⟩ => ⟨S1x32, .f32⟩
  | .hbm, ⟨36, _⟩ => ⟨S10000x32, .f32⟩
  | .hbm, ⟨37, _⟩ => ⟨S10000x32, .f32⟩
  | .hbm, ⟨38, _⟩ => ⟨S10000x32, .f32⟩
  | .hbm, ⟨39, _⟩ => ⟨S10000x32, .f32⟩
  | .hbm, ⟨40, _⟩ => ⟨S_, .f32⟩
  | .hbm, ⟨41, _⟩ => ⟨S10000x32, .f32⟩
  | .hbm, ⟨42, _⟩ => ⟨S10000x32, .f32⟩
  | .hbm, ⟨43, _⟩ => ⟨S_, .f32⟩
  | .hbm, ⟨44, _⟩ => ⟨S10000x32, .f32⟩
  | .hbm, ⟨45, _⟩ => ⟨S10000x32, .f32⟩
  | .hbm, ⟨46, _⟩ => ⟨S10000x32, .f32⟩
  | .hbm, ⟨47, _⟩ => ⟨S_, .f32⟩
  | .hbm, ⟨48, _⟩ => ⟨S10000x32, .f32⟩
  | .hbm, ⟨49, _⟩ => ⟨S10000x32, .f32⟩
  | .hbm, ⟨50, _⟩ => ⟨S10000x32, .f32⟩
  | .hbm, ⟨51, _⟩ => ⟨S10000x32, .f32⟩
  | .hbm, ⟨52, _⟩ => ⟨S10000x64, .f32⟩
  | .hbm, ⟨53, _⟩ => ⟨S1x64, .f32⟩
  | .hbm, ⟨54, _⟩ => ⟨S10000x64, .f32⟩
  | .hbm, ⟨55, _⟩ => ⟨S10000x64, .f32⟩
  | .hbm, ⟨56, _⟩ => ⟨S1x2048, .f32⟩
  | .hbm, ⟨57, _⟩ => ⟨S10000x2048, .f32⟩
  | .hbm, ⟨58, _⟩ => ⟨S10000x2048, .f32⟩
  | .hbm, ⟨59, _⟩ => ⟨S_, .f32⟩
  | .hbm, ⟨60, _⟩ => ⟨S10000, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S10000, .f32⟩
  | .hbm, ⟨65, _⟩ => ⟨S10000, .f32⟩
  | .hbm, ⟨66, _⟩ => ⟨S10000, .f32⟩
  | .hbm, ⟨67, _⟩ => ⟨S10000x1, .f32⟩
  | .hbm, ⟨68, _⟩ => ⟨S10000x64, .f32⟩
  | .hbm, ⟨69, _⟩ => ⟨S10000x64, .f32⟩
  | .hbm, ⟨70, _⟩ => ⟨S2048x10000, .f32⟩
  | .hbm, ⟨71, _⟩ => ⟨S2048x64, .f32⟩
  | .hbm, ⟨72, _⟩ => ⟨S_, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048x1, .f32⟩
  | .hbm, ⟨77, _⟩ => ⟨S2048x64, .f32⟩
  | .hbm, ⟨78, _⟩ => ⟨S2048x64, .f32⟩
  | .hbm, ⟨79, _⟩ => ⟨S10000x64, .f32⟩
  | .hbm, ⟨80, _⟩ => ⟨S10000x1, .f32⟩
  | .hbm, ⟨81, _⟩ => ⟨S10000x64, .f32⟩
  | .hbm, ⟨82, _⟩ => ⟨S10000x64, .f32⟩
  | .hbm, ⟨83, _⟩ => ⟨S_, .f32⟩
  | .hbm, ⟨84, _⟩ => ⟨S10000x64, .f32⟩
  | .hbm, ⟨85, _⟩ => ⟨S10000x64, .f32⟩
  | .hbm, ⟨86, _⟩ => ⟨S10000x64, .f32⟩
  | .hbm, ⟨87, _⟩ => ⟨S1x64, .f32⟩
  | .hbm, ⟨88, _⟩ => ⟨S10000x64, .f32⟩
  | .hbm, ⟨89, _⟩ => ⟨S10000x64, .f32⟩
  | .hbm, ⟨90, _⟩ => ⟨S1x2048, .f32⟩
  | .hbm, ⟨91, _⟩ => ⟨S10000x2048, .f32⟩
  | .hbm, ⟨92, _⟩ => ⟨S10000x2048, .f32⟩
  | .hbm, ⟨93, _⟩ => ⟨S_, .f32⟩
  | .hbm, ⟨94, _⟩ => ⟨S10000, .f32⟩
  | .hbm, ⟨95, _⟩ => ⟨S_, .f32⟩
  | .hbm, ⟨96, _⟩ => ⟨S2048, .f32⟩
  | .hbm, ⟨97, _⟩ => ⟨S_, .f32⟩
  | .hbm, ⟨98, _⟩ => ⟨S10000, .f32⟩
  | .hbm, ⟨99, _⟩ => ⟨S10000, .f32⟩
  | .hbm, ⟨100, _⟩ => ⟨S10000, .f32⟩
  | .hbm, ⟨101, _⟩ => ⟨S10000x1, .f32⟩
  | .hbm, ⟨102, _⟩ => ⟨S10000x64, .f32⟩
  | .hbm, ⟨103, _⟩ => ⟨S10000x64, .f32⟩
  | .hbm, ⟨104, _⟩ => ⟨S2048x10000, .f32⟩
  | .hbm, ⟨105, _⟩ => ⟨S2048x64, .f32⟩
  | .hbm, ⟨106, _⟩ => ⟨S_, .f32⟩
  | .hbm, ⟨107, _⟩ => ⟨S2048, .f32⟩
  | .hbm, ⟨108, _⟩ => ⟨S2048, .f32⟩
  | .hbm, ⟨109, _⟩ => ⟨S2048, .f32⟩
  | .hbm, ⟨110, _⟩ => ⟨S2048x1, .f32⟩
  | .hbm, ⟨111, _⟩ => ⟨S2048x64, .f32⟩
  | .hbm, ⟨112, _⟩ => ⟨S2048x64, .f32⟩
  | .hbm, ⟨113, _⟩ => ⟨S10000x64, .f32⟩
  | .hbm, ⟨114, _⟩ => ⟨S10000x1, .f32⟩
  | .hbm, ⟨115, _⟩ => ⟨S10000x64, .f32⟩
  | .hbm, ⟨116, _⟩ => ⟨S10000x64, .f32⟩
  | .hbm, ⟨117, _⟩ => ⟨S_, .f32⟩
  | .hbm, ⟨118, _⟩ => ⟨S10000x64, .f32⟩
  | .hbm, ⟨119, _⟩ => ⟨S10000x64, .f32⟩
  | .hbm, ⟨120, _⟩ => ⟨S10000x2, .f32⟩
  | .hbm, ⟨121, _⟩ => ⟨S1x2, .f32⟩
  | .hbm, ⟨122, _⟩ => ⟨S10000x2, .f32⟩
  | .hbm, ⟨123, _⟩ => ⟨S10000x2, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_cst : Ref sig .tc := ⟨.hbm, 31, rfl⟩
abbrev main_call0_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_2 : Ref sig .tc := ⟨.hbm, 59, rfl⟩
abbrev main_v36 : Ref sig .tc := ⟨.hbm, 60, rfl⟩
abbrev main_cst_3 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_5 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_call1_cst : Ref sig .tc := ⟨.hbm, 83, rfl⟩
abbrev main_call1_v0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_cst_7 : Ref sig .tc := ⟨.hbm, 95, rfl⟩
abbrev main_v65 : Ref sig .tc := ⟨.hbm, 96, rfl⟩
abbrev main_cst_8 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_9 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_call2_cst : Ref sig .tc := ⟨.hbm, 117, rfl⟩
abbrev main_call2_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  concatenates_S10000x32_S10000x32_S10000x64_d1 : Shape.Concatenates [S10000x32, S10000x32] S10000x64 1
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x32 : S_.BroadcastsInDim S10000x32 (![] : Fin 0 → Fin S10000x32.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  reducesTo_S10000x2048_S10000_d1 : S10000x2048.ReducesTo [1] S10000
  h_S_ : 0 < S_.numel
  reducesTo_S10000x2048_S2048_d0 : S10000x2048.ReducesTo [0] S2048
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  transposes_S10000x2048_S2048x10000_1_0 : S10000x2048.Transposes [1, 0] S2048x10000
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S2_S1x2_1 : S2.BroadcastsInDim S1x2 (![1] : Fin 1 → Fin S1x2.rank)
  bcast_S1x2_S10000x2_0_1 : S1x2.BroadcastsInDim S10000x2 (![0, 1] : Fin 2 → Fin S10000x2.rank)
  dot_S10000x128_S128x32_S10000x32_1_0_0_1_n_n_wf : DotDims.WF S10000x128 S128x32 S10000x32 [1] [0] [0] [1] [] []
  dot_S10000x16_S16x32_S10000x32_1_0_0_1_n_n_wf : DotDims.WF S10000x16 S16x32 S10000x32 [1] [0] [0] [1] [] []
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  dot_S10000x32_S32x64_S10000x64_1_0_0_1_n_n_wf : DotDims.WF S10000x32 S32x64 S10000x64 [1] [0] [0] [1] [] []
  dot_S2048x10000_S10000x64_S2048x64_1_0_0_1_n_n_wf : DotDims.WF S2048x10000 S10000x64 S2048x64 [1] [0] [0] [1] [] []
  dot_S10000x2048_S2048x64_S10000x64_1_0_0_1_n_n_wf : DotDims.WF S10000x2048 S2048x64 S10000x64 [1] [0] [0] [1] [] []
  dot_S10000x64_S64x2_S10000x2_1_0_0_1_n_n_wf : DotDims.WF S10000x64 S64x2 S10000x2 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S2048x10000_S10000x64_S2048x64_1_0_0_1_n_n : DotDims S2048x10000 S10000x64 S2048x64 where
  lhsContracting := [1]
  rhsContracting := [0]
  lhsNonContracting := [0]
  rhsNonContracting := [1]
  lhsBatch := []
  rhsBatch := []
  wf := dot_S2048x10000_S10000x64_S2048x64_1_0_0_1_n_n_wf
def dot_S10000x2048_S2048x64_S10000x64_1_0_0_1_n_n : DotDims S10000x2048 S2048x64 S10000x64 where
  lhsContracting := [1]
  rhsContracting := [0]
  lhsNonContracting := [0]
  rhsNonContracting := [1]
  lhsBatch := []
  rhsBatch := []
  wf := dot_S10000x2048_S2048x64_S10000x64_1_0_0_1_n_n_wf
def dot_S10000x64_S64x2_S10000x2_1_0_0_1_n_n : DotDims S10000x64 S64x2 S10000x2 where
  lhsContracting := [1]
  rhsContracting := [0]
  lhsNonContracting := [0]
  rhsNonContracting := [1]
  lhsBatch := []
  rhsBatch := []
  wf := dot_S10000x64_S64x2_S10000x2_1_0_0_1_n_n_wf

class Facts : Prop extends Facts₀ where

variable [Facts]
-- ==== Proof.LibOwns.lean ====
import Idealize.ShloMosaic.Lib.Memref
import Idealize.ShloMosaic.Lib.Pipeline.Frame

noncomputable section

namespace Cert.Lib

open Idealize.ShloMosaic Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- A whole memref owned at contents `X` is the points-to of its buffer at the one raw contents that read `X`. -/
theorem owns_unread (c : Thread nD τ) {sp : Space} {sh : Shape} {e : EltTy} {m : Memref sig c.2.kind sp sh e}
    (hm : m.IsWhole) (q : PosShare TreeShare) (X : sh.Idx → Val e) :
    (owns c m q X : sProp 𝕄) = (m.view.loc c ↦[m.view.set]{q} hm.unread X) := by
  unfold owns
  have h₁ : iprop(∃ f, ⌜m.view.read Val f = X⌝ ∗ (m.view.loc c ↦[m.view.set]{q} f)) ⊢ (m.view.loc c ↦[m.view.set]{q} hm.unread X : sProp 𝕄) := by
    iintro ⟨%f, %hf, H⟩; obtain rfl := hm.eq_unread hf; iexact H
  have h₂ : (m.view.loc c ↦[m.view.set]{q} hm.unread X : sProp 𝕄) ⊢ iprop(∃ f, ⌜m.view.read Val f = X⌝ ∗ (m.view.loc c ↦[m.view.set]{q} f)) := by
    iintro H; iexists _; isplitr; · ipureintro; exact hm.read_unread X
    iexact H
  exact BI.equiv_iff.mp ⟨h₁, h₂⟩

end Cert.Lib

end
-- ==== Proof.K.Cases.lean ====
import proofs.«181959_g40587440947829_cont_sun_m_1101_20_alg».proof.Proof.Gen.Kernel.Frame
import proofs.«181959_g40587440947829_cont_sun_m_1101_20_alg».proof.Proof.LibOwns
import proofs.«181959_g40587440947829_cont_sun_m_1101_20_alg».proof.Proof.Gen.Kernel.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev g1 (i : grid0.Coords) : Prop := (Scalar.cmpi .ne (Scalar.extui (Scalar.cmpi .eq (BitVec.ofNat 32 (i 0).val) 0#32)) 0#32) = 1#1

abbrev g2 (i : grid0.Coords) : Prop := k0_cond2 i = 1#1

abbrev g3 (i : grid0.Coords) : Prop := (Scalar.cmpi .ne (Scalar.extui (Scalar.cmpi .eq (BitVec.ofNat 32 (i 0).val) 25#32)) 0#32) = 1#1

abbrev g4 (i : grid0.Coords) : Prop := k0_cond4 i = 1#1

abbrev g5 (i : grid0.Coords) : Prop := (Scalar.cmpi .ne (Scalar.extui (Scalar.cmpi .eq (BitVec.ofNat 32 (i 0).val) 35#32)) 0#32) = 1#1

abbrev g6 (i : grid0.Coords) : Prop := k0_cond6 i = 1#1

theorem hg1 : ∀ t : Fin cfg0.N, g1 (grid0.coords t) ↔ t.val = 0 :=
  (by decide +kernel : ∀ t : Fin grid0.N, g1 (grid0.coords t) ↔ t.val = 0)
theorem hg2 : ∀ t : Fin cfg0.N, g2 (grid0.coords t) ↔ t.val < 25 :=
  (by decide +kernel : ∀ t : Fin grid0.N, g2 (grid0.coords t) ↔ t.val < 25)
theorem hg3 : ∀ t : Fin cfg0.N, g3 (grid0.coords t) ↔ t.val = 25 :=
  (by decide +kernel : ∀ t : Fin grid0.N, g3 (grid0.coords t) ↔ t.val = 25)
theorem hg4 : ∀ t : Fin cfg0.N, g4 (grid0.coords t) ↔ (25 ≤ t.val ∧ t.val < 35) :=
  (by decide +kernel : ∀ t : Fin grid0.N, g4 (grid0.coords t) ↔ (25 ≤ t.val ∧ t.val < 35))
theorem hg5 : ∀ t : Fin cfg0.N, g5 (grid0.coords t) ↔ t.val = 35 :=
  (by decide +kernel : ∀ t : Fin grid0.N, g5 (grid0.coords t) ↔ t.val = 35)
theorem hg6 : ∀ t : Fin cfg0.N, g6 (grid0.coords t) ↔ 35 ≤ t.val :=
  (by decide +kernel : ∀ t : Fin grid0.N, g6 (grid0.coords t) ↔ 35 ≤ t.val)

theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

theorem off2_eq : ∀ t : Fin cfg0.N, 25 ≤ t.val → t.val < 35 → k0_off2 (grid0.coords t) = ![1000 * (t.val - 25), 0] :=
  (by decide +kernel : ∀ t : Fin grid0.N, 25 ≤ t.val → t.val < 35 → k0_off2 (grid0.coords t) = ![1000 * (t.val - 25), 0])

theorem off3_eq : ∀ t : Fin cfg0.N, 35 ≤ t.val → k0_off3 (grid0.coords t) = ![1000 * (t.val - 35), 0] :=
  (by decide +kernel : ∀ t : Fin grid0.N, 35 ≤ t.val → k0_off3 (grid0.coords t) = ![1000 * (t.val - 35), 0])

theorem live19 : ∀ t : Fin cfg0.N, t.val < 25 → cfg0.idle 19 (grid0.coords t) = false :=
  (by decide +kernel : ∀ t : Fin grid0.N, t.val < 25 → idle0 19 (grid0.coords t) = false)
theorem idle19 : ∀ t : Fin cfg0.N, 25 ≤ t.val → cfg0.idle 19 (grid0.coords t) = true :=
  (by decide +kernel : ∀ t : Fin grid0.N, 25 ≤ t.val → idle0 19 (grid0.coords t) = true)
theorem live20 : ∀ t : Fin cfg0.N, 35 ≤ t.val → cfg0.idle 20 (grid0.coords t) = false :=
  (by decide +kernel : ∀ t : Fin grid0.N, 35 ≤ t.val → idle0 20 (grid0.coords t) = false)
theorem idle20 : ∀ t : Fin cfg0.N, t.val < 35 → cfg0.idle 20 (grid0.coords t) = true :=
  (by decide +kernel : ∀ t : Fin grid0.N, t.val < 35 → idle0 20 (grid0.coords t) = true)

theorem flush19 : ∀ t : Fin cfg0.N, (cfg0.win 19).flush t = true ↔ (t.val < 24 ∨ t.val = 44) :=
  (by decide +kernel : ∀ t : Fin grid0.N, win0_19.flush t = true ↔ (t.val < 24 ∨ t.val = 44))

theorem flush20 : ∀ t : Fin cfg0.N, (cfg0.win 20).flush t = true ↔ 35 ≤ t.val :=
  (by decide +kernel : ∀ t : Fin grid0.N, win0_20.flush t = true ↔ 35 ≤ t.val)

abbrev ms0 (t : Fin cfg0.N) : Memref sig .tc .vmem S400x2048 .f32 := win0_0.stage (cfg0.slots t 0)
abbrev ms1 (t : Fin cfg0.N) : Memref sig .tc .vmem S400x128 .f32 := win0_1.stage (cfg0.slots t 1)
abbrev ms2 (t : Fin cfg0.N) : Memref sig .tc .vmem S400x16 .f32 := win0_2.stage (cfg0.slots t 2)
abbrev ms3 (t : Fin cfg0.N) : Memref sig .tc .vmem S2048x1 .bf16 := win0_3.stage (cfg0.slots t 3)
abbrev ms4 (t : Fin cfg0.N) : Memref sig .tc .vmem S1x2048 .f32 := win0_4.stage (cfg0.slots t 4)
abbrev ms5 (t : Fin cfg0.N) : Memref sig .tc .vmem S128x32 .f32 := win0_5.stage (cfg0.slots t 5)
abbrev ms6 (t : Fin cfg0.N) : Memref sig .tc .vmem S1x32 .f32 := win0_6.stage (cfg0.slots t 6)
abbrev ms7 (t : Fin cfg0.N) : Memref sig .tc .vmem S16x32 .f32 := win0_7.stage (cfg0.slots t 7)
abbrev ms8 (t : Fin cfg0.N) : Memref sig .tc .vmem S1x32 .f32 := win0_8.stage (cfg0.slots t 8)
abbrev ms9 (t : Fin cfg0.N) : Memref sig .tc .vmem S64x64 .f32 := win0_9.stage (cfg0.slots t 9)
abbrev ms10 (t : Fin cfg0.N) : Memref sig .tc .vmem S1x64 .f32 := win0_10.stage (cfg0.slots t 10)
abbrev ms11 (t : Fin cfg0.N) : Memref sig .tc .vmem S64x32 .f32 := win0_11.stage (cfg0.slots t 11)
abbrev ms12 (t : Fin cfg0.N) : Memref sig .tc .vmem S1x32 .f32 := win0_12.stage (cfg0.slots t 12)
abbrev ms13 (t : Fin cfg0.N) : Memref sig .tc .vmem S32x64 .f32 := win0_13.stage (cfg0.slots t 13)
abbrev ms14 (t : Fin cfg0.N) : Memref sig .tc .vmem S1x64 .f32 := win0_14.stage (cfg0.slots t 14)
abbrev ms15 (t : Fin cfg0.N) : Memref sig .tc .vmem S64x64 .f32 := win0_15.stage (cfg0.slots t 15)
abbrev ms16 (t : Fin cfg0.N) : Memref sig .tc .vmem S1x64 .f32 := win0_16.stage (cfg0.slots t 16)
abbrev ms17 (t : Fin cfg0.N) : Memref sig .tc .vmem S64x2 .f32 := win0_17.stage (cfg0.slots t 17)
abbrev ms18 (t : Fin cfg0.N) : Memref sig .tc .vmem S1x2 .f32 := win0_18.stage (cfg0.slots t 18)
abbrev ms19 (t : Fin cfg0.N) : Memref sig .tc .vmem S400x32 .f32 := win0_19.stage (cfg0.slots t 19)
abbrev ms20 (t : Fin cfg0.N) : Memref sig .tc .vmem S1000x2 .f32 := win0_20.stage (cfg0.slots t 20)

abbrev scM0 : Memref sig .tc .vmem S10000x2048 .bf16 := Memref.whole cc0_scratch0
abbrev VS0 : View sig .tc .vmem S10000x2048 .bf16 := (scM0 : Memref sig .tc .vmem S10000x2048 .bf16).view

abbrev scM1 : Memref sig .tc .vmem S1x2048 .f32 := Memref.whole cc0_scratch1
abbrev VS1 : View sig .tc .vmem S1x2048 .f32 := (scM1 : Memref sig .tc .vmem S1x2048 .f32).view

abbrev scM2 : Memref sig .tc .vmem S64x2048 .f32 := Memref.whole cc0_scratch2
abbrev VS2 : View sig .tc .vmem S64x2048 .f32 := (scM2 : Memref sig .tc .vmem S64x2048 .f32).view

abbrev scM3 : Memref sig .tc .vmem S64x2048 .f32 := Memref.whole cc0_scratch3
abbrev VS3 : View sig .tc .vmem S64x2048 .f32 := (scM3 : Memref sig .tc .vmem S64x2048 .f32).view

abbrev scM4 : Memref sig .tc .vmem S2048x64 .bf16 := Memref.whole cc0_scratch4
abbrev VS4 : View sig .tc .vmem S2048x64 .bf16 := (scM4 : Memref sig .tc .vmem S2048x64 .bf16).view

abbrev VO19 : View sig .tc .vmem S400x32 .f32 := (Memref.whole cc0_stg19_0 : Memref sig .tc .vmem S400x32 .f32).view
abbrev VO20 : View sig .tc .vmem S1000x2 .f32 := (Memref.whole cc0_stg20_0 : Memref sig .tc .vmem S1000x2 .f32).view

/-- The buffers the body is handed: one for each window and the five scratch buffers, each whole. -/
structure Bufs where
  a1 : Memref sig .tc .vmem S400x2048 .f32
  h1 : a1.IsWhole
  a2 : Memref sig .tc .vmem S400x128 .f32
  h2 : a2.IsWhole
  a3 : Memref sig .tc .vmem S400x16 .f32
  h3 : a3.IsWhole
  a4 : Memref sig .tc .vmem S2048x1 .bf16
  h4 : a4.IsWhole
  a5 : Memref sig .tc .vmem S1x2048 .f32
  h5 : a5.IsWhole
  a6 : Memref sig .tc .vmem S128x32 .f32
  h6 : a6.IsWhole
  a7 : Memref sig .tc .vmem S1x32 .f32
  h7 : a7.IsWhole
  a8 : Memref sig .tc .vmem S16x32 .f32
  h8 : a8.IsWhole
  a9 : Memref sig .tc .vmem S1x32 .f32
  h9 : a9.IsWhole
  a10 : Memref sig .tc .vmem S64x64 .f32
  h10 : a10.IsWhole
  a11 : Memref sig .tc .vmem S1x64 .f32
  h11 : a11.IsWhole
  a12 : Memref sig .tc .vmem S64x32 .f32
  h12 : a12.IsWhole
  a13 : Memref sig .tc .vmem S1x32 .f32
  h13 : a13.IsWhole
  a14 : Memref sig .tc .vmem S32x64 .f32
  h14 : a14.IsWhole
  a15 : Memref sig .tc .vmem S1x64 .f32
  h15 : a15.IsWhole
  a16 : Memref sig .tc .vmem S64x64 .f32
  h16 : a16.IsWhole
  a17 : Memref sig .tc .vmem S1x64 .f32
  h17 : a17.IsWhole
  a18 : Memref sig .tc .vmem S64x2 .f32
  h18 : a18.IsWhole
  a19 : Memref sig .tc .vmem S1x2 .f32
  h19 : a19.IsWhole
  a20 : Memref sig .tc .vmem S400x32 .f32
  h20 : a20.IsWhole
  a21 : Memref sig .tc .vmem S1000x2 .f32
  h21 : a21.IsWhole
  a22 : Memref sig .tc .vmem S10000x2048 .bf16
  h22 : a22.IsWhole
  a23 : Memref sig .tc .vmem S1x2048 .f32
  h23 : a23.IsWhole
  a24 : Memref sig .tc .vmem S64x2048 .f32
  h24 : a24.IsWhole
  a25 : Memref sig .tc .vmem S64x2048 .f32
  h25 : a25.IsWhole
  a26 : Memref sig .tc .vmem S2048x64 .bf16
  h26 : a26.IsWhole

/-- The body's buffers at a grid point. -/
abbrev bufs (t : Fin cfg0.N) : Bufs :=
  ⟨ms0 t, hstage0_0 ((cfg0.slots t 0).cast nbuf0_0), ms1 t, hstage0_1 ((cfg0.slots t 1).cast nbuf0_1), ms2 t, hstage0_2 ((cfg0.slots t 2).cast nbuf0_2), ms3 t, hstage0_3 ((cfg0.slots t 3).cast nbuf0_3), ms4 t, hstage0_4 ((cfg0.slots t 4).cast nbuf0_4), ms5 t, hstage0_5 ((cfg0.slots t 5).cast nbuf0_5), ms6 t, hstage0_6 ((cfg0.slots t 6).cast nbuf0_6), ms7 t, hstage0_7 ((cfg0.slots t 7).cast nbuf0_7), ms8 t, hstage0_8 ((cfg0.slots t 8).cast nbuf0_8), ms9 t, hstage0_9 ((cfg0.slots t 9).cast nbuf0_9), ms10 t, hstage0_10 ((cfg0.slots t 10).cast nbuf0_10), ms11 t, hstage0_11 ((cfg0.slots t 11).cast nbuf0_11), ms12 t, hstage0_12 ((cfg0.slots t 12).cast nbuf0_12), ms13 t, hstage0_13 ((cfg0.slots t 13).cast nbuf0_13), ms14 t, hstage0_14 ((cfg0.slots t 14).cast nbuf0_14), ms15 t, hstage0_15 ((cfg0.slots t 15).cast nbuf0_15), ms16 t, hstage0_16 ((cfg0.slots t 16).cast nbuf0_16), ms17 t, hstage0_17 ((cfg0.slots t 17).cast nbuf0_17), ms18 t, hstage0_18 ((cfg0.slots t 18).cast nbuf0_18), ms19 t, hstage0_19 ((cfg0.slots t 19).cast nbuf0_19), ms20 t, hstage0_20 ((cfg0.slots t 20).cast nbuf0_20), scM0, Memref.isWhole_whole _, scM1, Memref.isWhole_whole _, scM2, Memref.isWhole_whole _, scM3, Memref.isWhole_whole _, scM4, Memref.isWhole_whole _⟩

/-- The contents of the nineteen operand blocks. -/
structure Blks (F : FTy → Type) [FloatOps F] where
  x0 : Vec F S400x2048 .f32
  x1 : Vec F S400x128 .f32
  x2 : Vec F S400x16 .f32
  x3 : Vec F S2048x1 .bf16
  x4 : Vec F S1x2048 .f32
  x5 : Vec F S128x32 .f32
  x6 : Vec F S1x32 .f32
  x7 : Vec F S16x32 .f32
  x8 : Vec F S1x32 .f32
  x9 : Vec F S64x64 .f32
  x10 : Vec F S1x64 .f32
  x11 : Vec F S64x32 .f32
  x12 : Vec F S1x32 .f32
  x13 : Vec F S32x64 .f32
  x14 : Vec F S1x64 .f32
  x15 : Vec F S64x64 .f32
  x16 : Vec F S1x64 .f32
  x17 : Vec F S64x2 .f32
  x18 : Vec F S1x2 .f32

/-- The nineteen operand blocks, each owned whole at its contents: the part of every case's resources the body only reads. -/
abbrev ins (c : Dev nD) (B : Bufs) (X : Blks F) : sProp 𝕄 :=
  iprop(owns (c : Thread nD τ) B.a1 fullShare X.x0 ∗ owns (c : Thread nD τ) B.a2 fullShare X.x1 ∗ owns (c : Thread nD τ) B.a3 fullShare X.x2 ∗ owns (c : Thread nD τ) B.a4 fullShare X.x3 ∗ owns (c : Thread nD τ) B.a5 fullShare X.x4 ∗ owns (c : Thread nD τ) B.a6 fullShare X.x5 ∗ owns (c : Thread nD τ) B.a7 fullShare X.x6 ∗ owns (c : Thread nD τ) B.a8 fullShare X.x7 ∗ owns (c : Thread nD τ) B.a9 fullShare X.x8 ∗ owns (c : Thread nD τ) B.a10 fullShare X.x9 ∗ owns (c : Thread nD τ) B.a11 fullShare X.x10 ∗ owns (c : Thread nD τ) B.a12 fullShare X.x11 ∗ owns (c : Thread nD τ) B.a13 fullShare X.x12 ∗ owns (c : Thread nD τ) B.a14 fullShare X.x13 ∗ owns (c : Thread nD τ) B.a15 fullShare X.x14 ∗ owns (c : Thread nD τ) B.a16 fullShare X.x15 ∗ owns (c : Thread nD τ) B.a17 fullShare X.x16 ∗ owns (c : Thread nD τ) B.a18 fullShare X.x17 ∗ owns (c : Thread nD τ) B.a19 fullShare X.x18)

/-- Between points the region holds its five scratch buffers at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

end Cert.Kernel.Body

end
-- ==== Proof.K.RunA.lean ====
import proofs.«181959_g40587440947829_cont_sun_m_1101_20_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunA (c : Dev nD) (i : grid0.Coords) (B : Bufs)
    (h1 : g1 i) (h2 : g2 i) (h3 : ¬g3 i) (h4 : ¬g4 i) (h5 : ¬g5 i) (h6 : ¬g6 i)
    (X : Blks F)  :
    Σ' (L19 : List (View.Piece (Elt F) S400x32 .f32)) (LS0 : List (View.Piece (Elt F) S10000x2048 .bf16)) (LS1 : List (View.Piece (Elt F) S1x2048 .f32)) (LS2 : List (View.Piece (Elt F) S64x2048 .f32)), { LS3 : List (View.Piece (Elt F) S64x2048 .f32) //
      ∀ (xi20 : Vec F S1000x2 .f32) (xs0 : Vec F S10000x2048 .bf16) (E : Set ℕ) (K : PUnit → sProp 𝕄),
        iprop(ins c B X ∗ (∃ d, owns (c : Thread nD τ) B.a20 fullShare d) ∗ owns (c : Thread nD τ) B.a21 fullShare xi20 ∗ owns (c : Thread nD τ) B.a22 fullShare xs0 ∗ (∃ d, owns (c : Thread nD τ) B.a23 fullShare d) ∗ (∃ d, owns (c : Thread nD τ) B.a24 fullShare d) ∗ (∃ d, owns (c : Thread nD τ) B.a25 fullShare d) ∗ (∃ d, owns (c : Thread nD τ) B.a26 fullShare d)
            ∗ (iprop(ins c B X ∗ (∃ f, B.a20.view.loc (c : Thread nD τ) ↦[B.a20.view.set]{fullShare} B.a20.view.writes (Elt F) f L19) ∗ owns (c : Thread nD τ) B.a21 fullShare xi20 ∗ (B.a22.view.loc (c : Thread nD τ) ↦[B.a22.view.set]{fullShare} B.a22.view.writes (Elt F) (B.h22.unread xs0) LS0) ∗ (∃ f, B.a23.view.loc (c : Thread nD τ) ↦[B.a23.view.set]{fullShare} B.a23.view.writes (Elt F) f LS1) ∗ (∃ f, B.a24.view.loc (c : Thread nD τ) ↦[B.a24.view.set]{fullShare} B.a24.view.writes (Elt F) f LS2) ∗ (∃ f, B.a25.view.loc (c : Thread nD τ) ↦[B.a25.view.set]{fullShare} B.a25.view.writes (Elt F) f LS3) ∗ (∃ d, owns (c : Thread nD τ) B.a26 fullShare d)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, ?_, ?_, ?_, fun xi20 xs0 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, ⟨%d19, H19⟩, H20, H21, ⟨%d22, H22⟩, ⟨%d23, H23⟩, ⟨%d24, H24⟩, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H20 H21
    isplitl [H19]; · iexists _; iexact H19
    isplitl [H22]; · iexists _; iexact H22
    isplitl [H23]; · iexists _; iexact H23
    isplitl [H24]; · iexists _; iexact H24
    iexists _; iexact H25

end Cert.Kernel.Body

end
-- ==== Proof.K.RunB.lean ====
import proofs.«181959_g40587440947829_cont_sun_m_1101_20_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunB (c : Dev nD) (i : grid0.Coords) (B : Bufs)
    (h1 : ¬g1 i) (h2 : g2 i) (h3 : ¬g3 i) (h4 : ¬g4 i) (h5 : ¬g5 i) (h6 : ¬g6 i)
    (X : Blks F) (xs1 : Vec F S1x2048 .f32) (xs2 : Vec F S64x2048 .f32) :
    Σ' (L19 : List (View.Piece (Elt F) S400x32 .f32)) (LS0 : List (View.Piece (Elt F) S10000x2048 .bf16)) (LS1 : List (View.Piece (Elt F) S1x2048 .f32)), { LS2 : List (View.Piece (Elt F) S64x2048 .f32) //
      ∀ (xi20 : Vec F S1000x2 .f32) (xs0 : Vec F S10000x2048 .bf16) (xs3 : Vec F S64x2048 .f32) (E : Set ℕ) (K : PUnit → sProp 𝕄),
        iprop(ins c B X ∗ (∃ d, owns (c : Thread nD τ) B.a20 fullShare d) ∗ owns (c : Thread nD τ) B.a21 fullShare xi20 ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ d, owns (c : Thread nD τ) B.a26 fullShare d)
            ∗ (iprop(ins c B X ∗ (∃ f, B.a20.view.loc (c : Thread nD τ) ↦[B.a20.view.set]{fullShare} B.a20.view.writes (Elt F) f L19) ∗ owns (c : Thread nD τ) B.a21 fullShare xi20 ∗ (B.a22.view.loc (c : Thread nD τ) ↦[B.a22.view.set]{fullShare} B.a22.view.writes (Elt F) (B.h22.unread xs0) LS0) ∗ (∃ f, B.a23.view.loc (c : Thread nD τ) ↦[B.a23.view.set]{fullShare} B.a23.view.writes (Elt F) f LS1) ∗ (∃ f, B.a24.view.loc (c : Thread nD τ) ↦[B.a24.view.set]{fullShare} B.a24.view.writes (Elt F) f LS2) ∗ owns (c : Thread nD τ) B.a25 fullShare xs3 ∗ (∃ d, owns (c : Thread nD τ) B.a26 fullShare d)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, ?_, ?_, fun xi20 xs0 xs3 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, ⟨%d19, H19⟩, H20, H21, H22, H23, H24, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H20 H21 H24
    isplitl [H19]; · iexists _; iexact H19
    isplitl [H22]; · iexists _; iexact H22
    isplitl [H23]; · iexists _; iexact H23
    iexists _; iexact H25

end Cert.Kernel.Body

end
-- ==== Proof.K.RunC.lean ====
import proofs.«181959_g40587440947829_cont_sun_m_1101_20_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunC (c : Dev nD) (i : grid0.Coords) (B : Bufs)
    (h1 : ¬g1 i) (h2 : ¬g2 i) (h3 : g3 i) (h4 : g4 i) (h5 : ¬g5 i) (h6 : ¬g6 i)
    (X : Blks F) (xs0 : Vec F S10000x2048 .bf16) (xs1 : Vec F S1x2048 .f32) (xs2 : Vec F S64x2048 .f32) (xs3 : Vec F S64x2048 .f32) :
    Σ' (LS3 : List (View.Piece (Elt F) S64x2048 .f32)), { LS4 : List (View.Piece (Elt F) S2048x64 .bf16) //
      ∀ (xi19 : Vec F S400x32 .f32) (xi20 : Vec F S1000x2 .f32) (E : Set ℕ) (K : PUnit → sProp 𝕄),
        iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ d, owns (c : Thread nD τ) B.a26 fullShare d)
            ∗ (iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ (∃ f, B.a25.view.loc (c : Thread nD τ) ↦[B.a25.view.set]{fullShare} B.a25.view.writes (Elt F) f LS3) ∗ (∃ f, B.a26.view.loc (c : Thread nD τ) ↦[B.a26.view.set]{fullShare} B.a26.view.writes (Elt F) f LS4)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, fun xi19 xi20 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, H20, H21, H22, H23, H24, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H20 H21 H22 H23
    isplitl [H24]; · iexists _; iexact H24
    iexists _; iexact H25

end Cert.Kernel.Body

end
-- ==== Proof.K.RunD.lean ====
import proofs.«181959_g40587440947829_cont_sun_m_1101_20_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunD (c : Dev nD) (i : grid0.Coords) (B : Bufs)
    (h1 : ¬g1 i) (h2 : ¬g2 i) (h3 : ¬g3 i) (h4 : g4 i) (h5 : ¬g5 i) (h6 : ¬g6 i)
    (X : Blks F) (xs0 : Vec F S10000x2048 .bf16) (xs3 : Vec F S64x2048 .f32) (xs4 : Vec F S2048x64 .bf16) :
    { LS3 : List (View.Piece (Elt F) S64x2048 .f32) //
      ∀ (xi19 : Vec F S400x32 .f32) (xi20 : Vec F S1000x2 .f32) (xs1 : Vec F S1x2048 .f32) (xs2 : Vec F S64x2048 .f32) (E : Set ℕ) (K : PUnit → sProp 𝕄),
        iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ owns (c : Thread nD τ) B.a25 fullShare xs3 ∗ owns (c : Thread nD τ) B.a26 fullShare xs4
            ∗ (iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ (∃ f, B.a25.view.loc (c : Thread nD τ) ↦[B.a25.view.set]{fullShare} B.a25.view.writes (Elt F) f LS3) ∗ owns (c : Thread nD τ) B.a26 fullShare xs4) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, fun xi19 xi20 xs1 xs2 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, H20, H21, H22, H23, H24, H25, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H20 H21 H22 H23
    isplitl [H24]; · iexists _; iexact H24
    iexact H25

end Cert.Kernel.Body

end
-- ==== Proof.K.RunE.lean ====
import proofs.«181959_g40587440947829_cont_sun_m_1101_20_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunE (c : Dev nD) (i : grid0.Coords) (B : Bufs)
    (h1 : ¬g1 i) (h2 : ¬g2 i) (h3 : ¬g3 i) (h4 : ¬g4 i) (h5 : g5 i) (h6 : g6 i)
    (X : Blks F) (xs0 : Vec F S10000x2048 .bf16) (xs1 : Vec F S1x2048 .f32) (xs3 : Vec F S64x2048 .f32) :
    Σ' (L20 : List (View.Piece (Elt F) S1000x2 .f32)), { LS4 : List (View.Piece (Elt F) S2048x64 .bf16) //
      ∀ (xi19 : Vec F S400x32 .f32) (xs2 : Vec F S64x2048 .f32) (E : Set ℕ) (K : PUnit → sProp 𝕄),
        iprop(ins c B X ∗ owns (c : Thread nD τ) B.a20 fullShare xi19 ∗ (∃ d, owns (c : Thread nD τ) B.a21 fullShare d) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ d, owns (c : Thread nD τ) B.a26 fullShare d)
            ∗ (iprop(ins c B X ∗ owns (c : Thread nD τ) B.a20 fullShare xi19 ∗ (∃ f, B.a21.view.loc (c : Thread nD τ) ↦[B.a21.view.set]{fullShare} B.a21.view.writes (Elt F) f L20) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ f, B.a26.view.loc (c : Thread nD τ) ↦[B.a26.view.set]{fullShare} B.a26.view.writes (Elt F) f LS4)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, fun xi19 xs2 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, ⟨%d20, H20⟩, H21, H22, H23, H24, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H21 H22 H23 H24
    isplitl [H20]; · iexists _; iexact H20
    iexists _; iexact H25

end Cert.Kernel.Body

end
-- ==== Proof.K.RunF.lean ====
import proofs.«181959_g40587440947829_cont_sun_m_1101_20_alg».proof.Proof.K.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunF (c : Dev nD) (i : grid0.Coords) (B : Bufs)
    (h1 : ¬g1 i) (h2 : ¬g2 i) (h3 : ¬g3 i) (h4 : ¬g4 i) (h5 : ¬g5 i) (h6 : g6 i)
    (X : Blks F) (xs0 : Vec F S10000x2048 .bf16) (xs4 : Vec F S2048x64 .bf16) :
    { L20 : List (View.Piece (Elt F) S1000x2 .f32) //
      ∀ (xi19 : Vec F S400x32 .f32) (xs1 : Vec F S1x2048 .f32) (xs2 : Vec F S64x2048 .f32) (xs3 : Vec F S64x2048 .f32) (E : Set ℕ) (K : PUnit → sProp 𝕄),
        iprop(ins c B X ∗ owns (c : Thread nD τ) B.a20 fullShare xi19 ∗ (∃ d, owns (c : Thread nD τ) B.a21 fullShare d) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ owns (c : Thread nD τ) B.a26 fullShare xs4
            ∗ (iprop(ins c B X ∗ owns (c : Thread nD τ) B.a20 fullShare xi19 ∗ (∃ f, B.a21.view.loc (c : Thread nD τ) ↦[B.a21.view.set]{fullShare} B.a21.view.writes (Elt F) f L20) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ owns (c : Thread nD τ) B.a26 fullShare xs4) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, fun xi19 xs1 xs2 xs3 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, ⟨%d20, H20⟩, H21, H22, H23, H24, H25, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H21 H22 H23 H24
    isplitl [H20]; · iexists _; iexact H20
    iexact H25

end Cert.Kernel.Body

end
-- ==== Proof.K.Steps.lean ====
import proofs.«181959_g40587440947829_cont_sun_m_1101_20_alg».proof.Proof.K.RunA
import proofs.«181959_g40587440947829_cont_sun_m_1101_20_alg».proof.Proof.K.RunB
import proofs.«181959_g40587440947829_cont_sun_m_1101_20_alg».proof.Proof.K.RunC
import proofs.«181959_g40587440947829_cont_sun_m_1101_20_alg».proof.Proof.K.RunD
import proofs.«181959_g40587440947829_cont_sun_m_1101_20_alg».proof.Proof.K.RunE
import proofs.«181959_g40587440947829_cont_sun_m_1101_20_alg».proof.Proof.K.RunF
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six quantities carried across grid points. -/
structure St (F : FTy → Type) [FloatOps F] where
  g : Vec F S400x32 .f32
  lg : Vec F S1000x2 .f32
  de : Vec F S1x2048 .f32
  m1t : Vec F S64x2048 .f32
  m2t : Vec F S64x2048 .f32
  mn : Vec F S2048x64 .bf16

/-- The whole copy of H as the streaming points write it, tile by tile. -/
def HqFull (c : Dev nD) : Vec F S10000x2048 .bf16 := fun y =>
  k0_pay10 (F := F) (iblk m c 0 ⟨(y 0).val / 400, by have := ValueIdx.idx2_lt0 y; have : cfg0.N = 45 := N_0; omega⟩)
    (ValueIdx.ix2 (⟨(y 0).val % 400, Nat.mod_lt _ (by norm_num)⟩ : Fin 400) (⟨(y 1).val, ValueIdx.idx2_lt1 y⟩ : Fin 2048))

/-- The copy is correct on its first 400·n rows. -/
def HQ (c : Dev nD) (n : ℕ) (hq : Vec F S10000x2048 .bf16) : Prop :=
  ∀ y : S10000x2048.Idx, (y 0).val < 400 * n → hq y = HqFull m c y

/-- The operand blocks at a grid point. -/
abbrev blks (c : Dev nD) (t : Fin cfg0.N) : Blks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

abbrev runA (c : Dev nD) (t : Fin cfg0.N) (hz : t.val = 0) :=
  kernelRunA (F := F) c (grid0.coords t) (bufs t) ((hg1 t).mpr hz) ((hg2 t).mpr (by omega)) (fun h => by have := (hg3 t).mp h; omega) (fun h => by have := (hg4 t).mp h; omega) (fun h => by have := (hg5 t).mp h; omega) (fun h => by have := (hg6 t).mp h; omega) (blks m c t)

def stepA (c : Dev nD) (t : Fin cfg0.N) (hz : t.val = 0) : St F where
  g := VO19.read (Elt F) (VO19.writes (Elt F) VO19.junk (runA m c t hz).1)
  lg := VO20.read (Elt F) (VO20.writes (Elt F) VO20.junk [])
  de := VS1.read (Elt F) (VS1.writes (Elt F) VS1.junk (runA m c t hz).2.2.1)
  m1t := VS2.read (Elt F) (VS2.writes (Elt F) VS2.junk (runA m c t hz).2.2.2.1)
  m2t := VS3.read (Elt F) (VS3.writes (Elt F) VS3.junk (runA m c t hz).2.2.2.2.1)
  mn := VS4.read (Elt F) (VS4.writes (Elt F) VS4.junk [])

abbrev runB (c : Dev nD) (t : Fin cfg0.N) (h0 : t.val ≠ 0) (h25 : t.val < 25) (p : St F) :=
  kernelRunB (F := F) c (grid0.coords t) (bufs t) (fun h => by have := (hg1 t).mp h; omega) ((hg2 t).mpr h25) (fun h => by have := (hg3 t).mp h; omega) (fun h => by have := (hg4 t).mp h; omega) (fun h => by have := (hg5 t).mp h; omega) (fun h => by have := (hg6 t).mp h; omega) (blks m c t) p.de p.m1t

def stepB (c : Dev nD) (t : Fin cfg0.N) (h0 : t.val ≠ 0) (h25 : t.val < 25) (p : St F) : St F where
  g := VO19.read (Elt F) (VO19.writes (Elt F) VO19.junk (runB m c t h0 h25 p).1)
  lg := p.lg
  de := VS1.read (Elt F) (VS1.writes (Elt F) VS1.junk (runB m c t h0 h25 p).2.2.1)
  m1t := VS2.read (Elt F) (VS2.writes (Elt F) VS2.junk (runB m c t h0 h25 p).2.2.2.1)
  m2t := p.m2t
  mn := p.mn

abbrev runC (c : Dev nD) (t : Fin cfg0.N) (e25 : t.val = 25) (p : St F) :=
  kernelRunC (F := F) c (grid0.coords t) (bufs t) (fun h => by have := (hg1 t).mp h; omega) (fun h => by have := (hg2 t).mp h; omega) ((hg3 t).mpr e25) ((hg4 t).mpr (by omega)) (fun h => by have := (hg5 t).mp h; omega) (fun h => by have := (hg6 t).mp h; omega) (blks m c t) (HqFull m c) p.de p.m1t p.m2t

def stepC (c : Dev nD) (t : Fin cfg0.N) (e25 : t.val = 25) (p : St F) : St F where
  g := p.g
  lg := p.lg
  de := p.de
  m1t := p.m1t
  m2t := VS3.read (Elt F) (VS3.writes (Elt F) VS3.junk (runC m c t e25 p).1)
  mn := VS4.read (Elt F) (VS4.writes (Elt F) VS4.junk (runC m c t e25 p).2.1)

abbrev runD (c : Dev nD) (t : Fin cfg0.N) (l25 : 25 < t.val) (h35 : t.val < 35) (p : St F) :=
  kernelRunD (F := F) c (grid0.coords t) (bufs t) (fun h => by have := (hg1 t).mp h; omega) (fun h => by have := (hg2 t).mp h; omega) (fun h => by have := (hg3 t).mp h; omega) ((hg4 t).mpr (by omega)) (fun h => by have := (hg5 t).mp h; omega) (fun h => by have := (hg6 t).mp h; omega) (blks m c t) (HqFull m c) p.m2t p.mn

def stepD (c : Dev nD) (t : Fin cfg0.N) (l25 : 25 < t.val) (h35 : t.val < 35) (p : St F) : St F where
  g := p.g
  lg := p.lg
  de := p.de
  m1t := p.m1t
  m2t := VS3.read (Elt F) (VS3.writes (Elt F) VS3.junk (runD m c t l25 h35 p).1)
  mn := p.mn

abbrev runE (c : Dev nD) (t : Fin cfg0.N) (e35 : t.val = 35) (p : St F) :=
  kernelRunE (F := F) c (grid0.coords t) (bufs t) (fun h => by have := (hg1 t).mp h; omega) (fun h => by have := (hg2 t).mp h; omega) (fun h => by have := (hg3 t).mp h; omega) (fun h => by have := (hg4 t).mp h; omega) ((hg5 t).mpr e35) ((hg6 t).mpr (by omega)) (blks m c t) (HqFull m c) p.de p.m2t

def stepE (c : Dev nD) (t : Fin cfg0.N) (e35 : t.val = 35) (p : St F) : St F where
  g := p.g
  lg := VO20.read (Elt F) (VO20.writes (Elt F) VO20.junk (runE m c t e35 p).1)
  de := p.de
  m1t := p.m1t
  m2t := p.m2t
  mn := VS4.read (Elt F) (VS4.writes (Elt F) VS4.junk (runE m c t e35 p).2.1)

abbrev runF (c : Dev nD) (t : Fin cfg0.N) (l35 : 35 < t.val) (p : St F) :=
  kernelRunF (F := F) c (grid0.coords t) (bufs t) (fun h => by have := (hg1 t).mp h; omega) (fun h => by have := (hg2 t).mp h; omega) (fun h => by have := (hg3 t).mp h; omega) (fun h => by have := (hg4 t).mp h; omega) (fun h => by have := (hg5 t).mp h; omega) ((hg6 t).mpr (by omega)) (blks m c t) (HqFull m c) p.mn

def stepF (c : Dev nD) (t : Fin cfg0.N) (l35 : 35 < t.val) (p : St F) : St F where
  g := p.g
  lg := VO20.read (Elt F) (VO20.writes (Elt F) VO20.junk (runF m c t l35 p).1)
  de := p.de
  m1t := p.m1t
  m2t := p.m2t
  mn := p.mn

abbrev lsA (c : Dev nD) (t : Fin cfg0.N) (hz : t.val = 0) := (runA m c t hz).2.1
abbrev lsB (c : Dev nD) (t : Fin cfg0.N) (h0 : t.val ≠ 0) (h25 : t.val < 25) (p : St F) := (runB m c t h0 h25 p).2.1

/-- The carried quantities after point n, by recursion over the points and the control case of each. -/
def st (c : Dev nD) : (n : ℕ) → n < cfg0.N → St F
  | 0, hn => stepA m c ⟨0, hn⟩ rfl
  | n + 1, hn =>
    if h25 : n + 1 < 25 then stepB m c ⟨n + 1, hn⟩ (Nat.succ_ne_zero n) h25 (st c n (Nat.lt_of_succ_lt hn))
    else if e25 : n + 1 = 25 then stepC m c ⟨n + 1, hn⟩ e25 (st c n (Nat.lt_of_succ_lt hn))
    else if h35 : n + 1 < 35 then stepD m c ⟨n + 1, hn⟩ (show 25 < n + 1 by omega) h35 (st c n (Nat.lt_of_succ_lt hn))
    else if e35 : n + 1 = 35 then stepE m c ⟨n + 1, hn⟩ e35 (st c n (Nat.lt_of_succ_lt hn))
    else stepF m c ⟨n + 1, hn⟩ (show 35 < n + 1 by omega) (st c n (Nat.lt_of_succ_lt hn))

abbrev prev (c : Dev nD) (t : Fin cfg0.N) : St F := st m c (t.val - 1) (Nat.lt_of_le_of_lt (Nat.sub_le _ _) t.isLt)

theorem st_A (c : Dev nD) (t : Fin cfg0.N) (hz : t.val = 0) : st m c t.val t.isLt = stepA m c t hz := by
  obtain ⟨n, hn⟩ := t
  cases n with
  | zero => rfl
  | succ n => exact absurd hz (Nat.succ_ne_zero n)
theorem st_B (c : Dev nD) (t : Fin cfg0.N) (h0 : t.val ≠ 0) (h25 : t.val < 25) : st m c t.val t.isLt = stepB m c t h0 h25 (prev m c t) := by
  obtain ⟨n, hn⟩ := t
  cases n with
  | zero => exact absurd rfl h0
  | succ n => exact (dif_pos h25)
theorem st_C (c : Dev nD) (t : Fin cfg0.N) (e25 : t.val = 25) : st m c t.val t.isLt = stepC m c t e25 (prev m c t) := by
  obtain ⟨n, hn⟩ := t
  cases n with
  | zero => exact absurd e25 (by show ¬ (0 : ℕ) = 25; decide)
  | succ n => exact (dif_neg (by dsimp only at e25; omega)).trans (dif_pos e25)
theorem st_D (c : Dev nD) (t : Fin cfg0.N) (l25 : 25 < t.val) (h35 : t.val < 35) : st m c t.val t.isLt = stepD m c t l25 h35 (prev m c t) := by
  obtain ⟨n, hn⟩ := t
  cases n with
  | zero => exact absurd l25 (Nat.not_lt_zero _)
  | succ n => exact (dif_neg (by dsimp only at l25; omega)).trans ((dif_neg (by dsimp only at l25; omega)).trans (dif_pos h35))
theorem st_E (c : Dev nD) (t : Fin cfg0.N) (e35 : t.val = 35) : st m c t.val t.isLt = stepE m c t e35 (prev m c t) := by
  obtain ⟨n, hn⟩ := t
  cases n with
  | zero => exact absurd e35 (by show ¬ (0 : ℕ) = 35; decide)
  | succ n => exact (dif_neg (by dsimp only at e35; omega)).trans ((dif_neg (by dsimp only at e35; omega)).trans ((dif_neg (by dsimp only at e35; omega)).trans (dif_pos e35)))
theorem st_F (c : Dev nD) (t : Fin cfg0.N) (l35 : 35 < t.val) : st m c t.val t.isLt = stepF m c t l35 (prev m c t) := by
  obtain ⟨n, hn⟩ := t
  cases n with
  | zero => exact absurd l35 (Nat.not_lt_zero _)
  | succ n => exact (dif_neg (by dsimp only at l35; omega)).trans ((dif_neg (by dsimp only at l35; omega)).trans ((dif_neg (by dsimp only at l35; omega)).trans ((dif_neg (by dsimp only at l35; omega)).trans rfl)))

end Cert.Kernel.Body

end
-- ==== Proof.K.HqStep.lean ====
import proofs.«181959_g40587440947829_cont_sun_m_1101_20_alg».proof.Proof.K.Steps
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by
  funext a; fin_cases a <;> rfl

theorem lsA_eq (c : Dev nD) (t : Fin cfg0.N) (hz : t.val = 0) :
    lsA m c t hz = [⟨Rect.unit (s := S10000x2048) (k0_off1 (grid0.coords t)) S400x2048.size
      (k0_off1_inb (grid0.coords t) ((hg2 t).mpr (by omega))), k0_pay10 (iblk m c 0 t)⟩] := by
  unfold lsA runA kernelRunA bufs blks
  dsimp only
  simp only [View.readAt_eq_ld, Memref.IsWhole.read_unread, View.ld_unit_zero (S := S400x2048) hz2]

theorem lsB_eq (c : Dev nD) (t : Fin cfg0.N) (h0 : t.val ≠ 0) (h25 : t.val < 25) (p : St F) :
    lsB m c t h0 h25 p = [⟨Rect.unit (s := S10000x2048) (k0_off1 (grid0.coords t)) S400x2048.size
      (k0_off1_inb (grid0.coords t) ((hg2 t).mpr h25)), k0_pay10 (iblk m c 0 t)⟩] := by
  unfold lsB runB kernelRunB bufs blks
  dsimp only
  simp only [View.readAt_eq_ld, Memref.IsWhole.read_unread, View.ld_unit_zero (S := S400x2048) hz2]

theorem pay10_eq_HqFull (c : Dev nD) (t : Fin cfg0.N) (y : S10000x2048.Idx)
    (hlo : 400 * t.val ≤ (y 0).val) (hhi : (y 0).val < 400 * (t.val + 1))
    (hlt : (y 0).val - 400 * t.val < 400) :
    k0_pay10 (F := F) (iblk m c 0 t)
        (ValueIdx.ix2 (⟨(y 0).val - 400 * t.val, hlt⟩ : Fin 400) (⟨(y 1).val, ValueIdx.idx2_lt1 y⟩ : Fin 2048))
      = HqFull m c y := by
  unfold HqFull
  have key : ∀ (t' : Fin cfg0.N) (_ : t' = t) (x x' : S400x2048.Idx) (_ : x = x'),
      k0_pay10 (F := F) (iblk m c 0 t) x = k0_pay10 (F := F) (iblk m c 0 t') x' := by
    intro t' ht x x' hx; subst ht; subst hx; rfl
  refine key _ (Fin.ext ?_) _ _ ?_
  · show (y 0).val / 400 = t.val
    omega
  · have e : (⟨(y 0).val - 400 * t.val, hlt⟩ : Fin 400) = ⟨(y 0).val % 400, Nat.mod_lt _ (by norm_num)⟩ :=
      Fin.ext (by show (y 0).val - 400 * t.val = (y 0).val % 400; omega)
    rw [e]

theorem HQ_stepA (c : Dev nD) (t : Fin cfg0.N) (hz : t.val = 0) (hq : Vec F S10000x2048 .bf16) :
    HQ m c (t.val + 1) (VS0.read (Elt F) (VS0.writes (Elt F) ((Memref.isWhole_whole cc0_scratch0 : (scM0 : Memref sig .tc .vmem S10000x2048 .bf16).IsWhole).unread hq) (lsA m c t hz))) := by
  intro y hy
  rw [lsA_eq]
  have hlt : (y 0).val - 400 * t.val < 400 := by omega
  refine (View.read_writes_cons_rows_of_mem (Val := Elt F) VS0 _ (k0_off1_inb (grid0.coords t) ((hg2 t).mpr (by omega))) (k0_pay10 (iblk m c 0 t)) [] y
    (ValueIdx.ix2 (⟨(y 0).val - 400 * t.val, hlt⟩ : Fin 400) (⟨(y 1).val, ValueIdx.idx2_lt1 y⟩ : Fin 2048))
    (off1_eq t (by omega)) (by show (y 0).val = 400 * t.val + ((y 0).val - 400 * t.val); omega) rfl).trans ?_
  exact pay10_eq_HqFull m c t y (by omega) hy hlt

theorem HQ_stepB (c : Dev nD) (t : Fin cfg0.N) (h0 : t.val ≠ 0) (h25 : t.val < 25) (hq : Vec F S10000x2048 .bf16) (h : HQ m c t.val hq) :
    HQ m c (t.val + 1) (VS0.read (Elt F) (VS0.writes (Elt F) ((Memref.isWhole_whole cc0_scratch0 : (scM0 : Memref sig .tc .vmem S10000x2048 .bf16).IsWhole).unread hq) (lsB m c t h0 h25 (prev m c t)))) := by
  intro y hy
  rw [lsB_eq]
  by_cases hrow : 400 * t.val ≤ (y 0).val
  ·
    have hlt : (y 0).val - 400 * t.val < 400 := by omega
    refine (View.read_writes_cons_rows_of_mem (Val := Elt F) VS0 _ (k0_off1_inb (grid0.coords t) ((hg2 t).mpr h25)) (k0_pay10 (iblk m c 0 t)) [] y
      (ValueIdx.ix2 (⟨(y 0).val - 400 * t.val, hlt⟩ : Fin 400) (⟨(y 1).val, ValueIdx.idx2_lt1 y⟩ : Fin 2048))
      (off1_eq t h25) (by show (y 0).val = 400 * t.val + ((y 0).val - 400 * t.val); omega) rfl).trans ?_
    exact pay10_eq_HqFull m c t y hrow hy hlt
  ·
    refine (View.read_writes_cons_rows_of_not_mem (Val := Elt F) VS0 _ (k0_off1_inb (grid0.coords t) ((hg2 t).mpr h25)) (k0_pay10 (iblk m c 0 t)) [] y
      (off1_eq t h25) (W := 400) rfl (Or.inl (by omega))).trans ?_
    rw [View.writes_nil, Memref.IsWhole.read_unread]
    exact h y (by omega)

theorem HQ_full (c : Dev nD) (n : ℕ) (hn : 25 ≤ n) (hq : Vec F S10000x2048 .bf16) (h : HQ m c n hq) : hq = HqFull m c := by
  funext y
  exact h y (by have := ValueIdx.idx2_lt0 y; omega)

theorem HQ_HqFull (c : Dev nD) (n : ℕ) : HQ m c n (HqFull m c) := fun _ _ => rfl

end Cert.Kernel.Body

end
-- ==== Proof.K.FrameDefs.lean ====
import proofs.«181959_g40587440947829_cont_sun_m_1101_20_alg».proof.Proof.K.HqStep

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold between points: the copied prefix of H and the accumulators as the recursion over the points gives them. -/
def PhiS (c : Dev nD) : (n : ℕ) → n ≤ cfg0.N → sProp 𝕄
  | 0, _ => Pipeline.ΦA spec0 c
  | n + 1, hn => iprop(iprop((∃ hq, ⌜HQ m c (n + 1) hq⌝ ∗ owns (c : Thread nD τ) scM0 fullShare hq) ∗ owns (c : Thread nD τ) scM1 fullShare (st m c n hn).de ∗ owns (c : Thread nD τ) scM2 fullShare (st m c n hn).m1t ∗ owns (c : Thread nD τ) scM3 fullShare (st m c n hn).m2t ∗ (∃ mn, ⌜25 ≤ n → mn = (st m c n hn).mn⌝ ∗ owns (c : Thread nD τ) scM4 fullShare mn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ hq, ⌜HQ m c (n + 1) hq⌝ ∗ owns (c : Thread nD τ) scM0 fullShare hq) ∗ owns (c : Thread nD τ) scM1 fullShare (st m c n hn).de ∗ owns (c : Thread nD τ) scM2 fullShare (st m c n hn).m1t ∗ owns (c : Thread nD τ) scM3 fullShare (st m c n hn).m2t ∗ (∃ mn, ⌜25 ≤ n → mn = (st m c n hn).mn⌝ ∗ owns (c : Thread nD τ) scM4 fullShare mn)) ∗ (∃ r, prngReg c r)) := rfl

theorem PhiS_pos (c : Dev nD) (t : Fin cfg0.N) (hz : t.val ≠ 0) :
    PhiS m c t.val (Nat.le_of_lt t.isLt) = iprop(iprop((∃ hq, ⌜HQ m c t.val hq⌝ ∗ owns (c : Thread nD τ) scM0 fullShare hq) ∗ owns (c : Thread nD τ) scM1 fullShare (prev m c t).de ∗ owns (c : Thread nD τ) scM2 fullShare (prev m c t).m1t ∗ owns (c : Thread nD τ) scM3 fullShare (prev m c t).m2t ∗ (∃ mn, ⌜25 ≤ t.val - 1 → mn = (prev m c t).mn⌝ ∗ owns (c : Thread nD τ) scM4 fullShare mn)) ∗ (∃ r, prngReg c r)) := by
  obtain ⟨n, hn⟩ := t
  cases n with
  | zero => exact absurd rfl hz
  | succ n => rfl

/-- The proof data: operand windows keep their blocks; the two result windows hold what the recursion over the points says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (st m c t.val t.isLt).g
    | ⟨20, _⟩ => (st m c t.val t.isLt).lg
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = (st m c t.val t.isLt).g := by dsimp only [dats]
theorem after20 (c : Dev nD) (t : Fin cfg0.N) : (dats m 0 c).after 20 t = (st m c t.val t.isLt).lg := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after14]
theorem leaves15 (c : Dev nD) (t : Fin cfg0.N) : (dats m 0 c).leavesExact 15 t = owns (c : Thread nD τ) (ms15 t) fullShare (iblk m c 15 t) := by
  unfold Dat.leavesExact; rw [show cfg0.idle 15 (cfg0.grid.coords t) = false from rfl, after15]
theorem leaves16 (c : Dev nD) (t : Fin cfg0.N) : (dats m 0 c).leavesExact 16 t = owns (c : Thread nD τ) (ms16 t) fullShare (iblk m c 16 t) := by
  unfold Dat.leavesExact; rw [show cfg0.idle 16 (cfg0.grid.coords t) = false from rfl, after16]
theorem leaves17 (c : Dev nD) (t : Fin cfg0.N) : (dats m 0 c).leavesExact 17 t = owns (c : Thread nD τ) (ms17 t) fullShare (iblk m c 17 t) := by
  unfold Dat.leavesExact; rw [show cfg0.idle 17 (cfg0.grid.coords t) = false from rfl, after17]
theorem leaves18 (c : Dev nD) (t : Fin cfg0.N) : (dats m 0 c).leavesExact 18 t = owns (c : Thread nD τ) (ms18 t) fullShare (iblk m c 18 t) := by
  unfold Dat.leavesExact; rw [show cfg0.idle 18 (cfg0.grid.coords t) = false from rfl, after18]

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

end Cert.Kernel.Body

end
-- ==== Proof.K.Late19.lean ====
import proofs.«181959_g40587440947829_cont_sun_m_1101_20_alg».proof.Proof.K.FrameDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem st_g_keep (c : Dev nD) (t : Fin cfg0.N) (h : 25 ≤ t.val) : (st m c t.val t.isLt).g = (prev m c t).g := by
  by_cases e25 : t.val = 25
  · rw [st_C m c t e25]; dsimp only [stepC]
  · by_cases h35 : t.val < 35
    · rw [st_D m c t (by omega) h35]; dsimp only [stepD]
    · by_cases e35 : t.val = 35
      · rw [st_E m c t e35]; dsimp only [stepE]
      · rw [st_F m c t (by omega)]; dsimp only [stepF]

abbrev pred19 (t : Fin cfg0.N) : Fin cfg0.N := ⟨t.val - 1, Nat.lt_of_le_of_lt (Nat.sub_le _ _) t.isLt⟩

theorem noflush19 (t : Fin cfg0.N) (h : 25 ≤ t.val) : (cfg0.win 19).flush (pred19 t) = false := by
  cases hb : (cfg0.win 19).flush (pred19 t) with
  | false => rfl
  | true =>
    have h1 := (flush19 (pred19 t)).mp hb
    have h2 : (pred19 t).val = t.val - 1 := rfl
    have h3 := t.isLt
    have h4 : cfg0.N = 45 := N_0
    omega

theorem before19_aux (c : Dev nD) (d) : ∀ (k : ℕ) (t : Fin cfg0.N), t.val = 25 + k →
    (dats m 0 c).before 19 t d = (st m c t.val t.isLt).g := by
  intro k
  induction k with
  | zero =>
    intro t ht
    have h : 25 ≤ t.val := by omega
    rw [(dats m 0 c).before_of_pos 19 t (by omega) ((cfg0.win 19).fetch_out rfl t)]
    rw [show (cfg0.win 19).flush ⟨t.val - 1, Nat.lt_of_le_of_lt (Nat.sub_le _ _) t.isLt⟩ = false from noflush19 t h,
      if_neg Bool.false_ne_true]
    unfold Dat.left

    have hl : cfg0.idle 19 (cfg0.grid.coords (pred19 t)) = false := live19 (pred19 t) (by show t.val - 1 < 25; omega)
    rw [hl]
    unfold Dat.kept
    rw [Pipeline.fill_of_clip_none 19 _ (fun _ => rfl) d ((dats m 0 c).after 19 (pred19 t)), (cfg0.win 19).fill_cut, after19]
    exact (st_g_keep m c t h).symm
  | succ k ih =>
    intro t ht
    have h : 25 ≤ t.val := by omega
    rw [(dats m 0 c).before_of_pos 19 t (by omega) ((cfg0.win 19).fetch_out rfl t)]
    rw [show (cfg0.win 19).flush ⟨t.val - 1, Nat.lt_of_le_of_lt (Nat.sub_le _ _) t.isLt⟩ = false from noflush19 t h,
      if_neg Bool.false_ne_true]
    unfold Dat.left

    have hi : cfg0.idle 19 (cfg0.grid.coords (pred19 t)) = true := idle19 (pred19 t) (by show 25 ≤ t.val - 1; omega)
    rw [hi]
    show (dats m 0 c).before 19 (pred19 t) d = _
    rw [ih (pred19 t) (by show t.val - 1 = 25 + k; omega)]
    exact (st_g_keep m c t h).symm

theorem before19_late (c : Dev nD) (t : Fin cfg0.N) (h : 25 ≤ t.val) (d) :
    (dats m 0 c).before 19 t d = (st m c t.val t.isLt).g :=
  before19_aux m c d (t.val - 25) t (by omega)

theorem leaves19_late_intro (c : Dev nD) (t : Fin cfg0.N) (h : 25 ≤ t.val) (d) :
    owns (c : Thread nD τ) (ms19 t) fullShare ((dats m 0 c).before 19 t d) ⊢ (dats m 0 c).leavesExact 19 t := by
  have hi : cfg0.idle 19 (cfg0.grid.coords t) = true := idle19 t h
  by_cases e : t.val = 44
  ·
    have hf : (cfg0.win 19).flush t = true := (flush19 t).mpr (Or.inr e)
    have hle : (dats m 0 c).leavesExact 19 t
        = owns (c : Thread nD τ) ((cfg0.win 19).stage (cfg0.slots t 19)) fullShare ((dats m 0 c).after 19 t) := by
      unfold Dat.leavesExact; rw [hi, hf]
    rw [hle, before19_late m c t h d, after19]
  ·
    have hf : (cfg0.win 19).flush t = false := by
      cases hb : (cfg0.win 19).flush t with
      | false => rfl
      | true => have := (flush19 t).mp hb; omega
    rw [(dats m 0 c).leavesExact_idle 19 t hi hf]
    iintro H; iexists d; iexact H

end Cert.Kernel.Body

end
-- ==== Proof.K.Covers.lean ====
import proofs.«181959_g40587440947829_cont_sun_m_1101_20_alg».proof.Proof.K.Steps

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coverA_L19 (c : Dev nD) (t : Fin cfg0.N) (hz : t.val = 0) (y : S400x32.Idx) :
    ∃ pc ∈ (runA m c t hz).1, y ∈ pc.1.set :=
  View.cover_of_tiledL (runA m c t hz).1 S400x32.size (by sl_kernel_rfl) y
theorem coverA_LS1 (c : Dev nD) (t : Fin cfg0.N) (hz : t.val = 0) (y : S1x2048.Idx) :
    ∃ pc ∈ (runA m c t hz).2.2.1, y ∈ pc.1.set :=
  View.cover_of_tiledL (runA m c t hz).2.2.1 S1x2048.size (by sl_kernel_rfl) y
theorem coverA_LS2 (c : Dev nD) (t : Fin cfg0.N) (hz : t.val = 0) (y : S64x2048.Idx) :
    ∃ pc ∈ (runA m c t hz).2.2.2.1, y ∈ pc.1.set :=
  View.cover_of_tiledL (runA m c t hz).2.2.2.1 S64x2048.size (by sl_kernel_rfl) y
theorem coverA_LS3 (c : Dev nD) (t : Fin cfg0.N) (hz : t.val = 0) (y : S64x2048.Idx) :
    ∃ pc ∈ (runA m c t hz).2.2.2.2.1, y ∈ pc.1.set :=
  View.cover_of_tiledL (runA m c t hz).2.2.2.2.1 S64x2048.size (by sl_kernel_rfl) y
theorem coverB_L19 (c : Dev nD) (t : Fin cfg0.N) (h0 : t.val ≠ 0) (h25 : t.val < 25) (p : St F) (y : S400x32.Idx) :
    ∃ pc ∈ (runB m c t h0 h25 p).1, y ∈ pc.1.set :=
  View.cover_of_tiledL (runB m c t h0 h25 p).1 S400x32.size (by sl_kernel_rfl) y
theorem coverB_LS1 (c : Dev nD) (t : Fin cfg0.N) (h0 : t.val ≠ 0) (h25 : t.val < 25) (p : St F) (y : S1x2048.Idx) :
    ∃ pc ∈ (runB m c t h0 h25 p).2.2.1, y ∈ pc.1.set :=
  View.cover_of_tiledL (runB m c t h0 h25 p).2.2.1 S1x2048.size (by sl_kernel_rfl) y
theorem coverB_LS2 (c : Dev nD) (t : Fin cfg0.N) (h0 : t.val ≠ 0) (h25 : t.val < 25) (p : St F) (y : S64x2048.Idx) :
    ∃ pc ∈ (runB m c t h0 h25 p).2.2.2.1, y ∈ pc.1.set :=
  View.cover_of_tiledL (runB m c t h0 h25 p).2.2.2.1 S64x2048.size (by sl_kernel_rfl) y
theorem coverC_LS3 (c : Dev nD) (t : Fin cfg0.N) (e25 : t.val = 25) (p : St F) (y : S64x2048.Idx) :
    ∃ pc ∈ (runC m c t e25 p).1, y ∈ pc.1.set :=
  View.cover_of_tiledL (runC m c t e25 p).1 S64x2048.size (by sl_kernel_rfl) y
theorem coverC_LS4 (c : Dev nD) (t : Fin cfg0.N) (e25 : t.val = 25) (p : St F) (y : S2048x64.Idx) :
    ∃ pc ∈ (runC m c t e25 p).2.1, y ∈ pc.1.set :=
  View.cover_of_tiledL (runC m c t e25 p).2.1 S2048x64.size (by sl_kernel_rfl) y
theorem coverD_LS3 (c : Dev nD) (t : Fin cfg0.N) (l25 : 25 < t.val) (h35 : t.val < 35) (p : St F) (y : S64x2048.Idx) :
    ∃ pc ∈ (runD m c t l25 h35 p).1, y ∈ pc.1.set :=
  View.cover_of_tiledL (runD m c t l25 h35 p).1 S64x2048.size (by sl_kernel_rfl) y
theorem coverE_L20 (c : Dev nD) (t : Fin cfg0.N) (e35 : t.val = 35) (p : St F) (y : S1000x2.Idx) :
    ∃ pc ∈ (runE m c t e35 p).1, y ∈ pc.1.set :=
  View.cover_of_tiledL (runE m c t e35 p).1 S1000x2.size (by sl_kernel_rfl) y
theorem coverE_LS4 (c : Dev nD) (t : Fin cfg0.N) (e35 : t.val = 35) (p : St F) (y : S2048x64.Idx) :
    ∃ pc ∈ (runE m c t e35 p).2.1, y ∈ pc.1.set :=
  View.cover_of_tiledL (runE m c t e35 p).2.1 S2048x64.size (by sl_kernel_rfl) y
theorem coverF_L20 (c : Dev nD) (t : Fin cfg0.N) (l35 : 35 < t.val) (p : St F) (y : S1000x2.Idx) :
    ∃ pc ∈ (runF m c t l35 p).1, y ∈ pc.1.set :=
  View.cover_of_tiledL (runF m c t l35 p).1 S1000x2.size (by sl_kernel_rfl) y

end Cert.Kernel.Body

end
-- ==== Proof.K.SoundA.lean ====
import proofs.«181959_g40587440947829_cont_sun_m_1101_20_alg».proof.Proof.K.Late19
import proofs.«181959_g40587440947829_cont_sun_m_1101_20_alg».proof.Proof.K.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundA (c : Dev nD) (t : Fin cfg0.N) (hz : t.val = 0) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [show (dats m 0 c).leavesExact 19 t = owns (c : Thread nD τ) (ms19 t) fullShare ((dats m 0 c).after 19 t) from by
    unfold Dat.leavesExact; rw [live19 t (by omega)], after19]
  rw [Dat.leavesExact_idle (dats m 0 c) 20 t (idle20 t (by omega)) (by have := flush20 t; cases hf : (cfg0.win 20).flush t with | false => rfl | true => exact absurd (this.mp hf) (by omega))]
  rw [st_A m c t hz]
  dsimp only [stepA]
  rw [PhiS_castSucc m c t, PhiS_zero m c _ _ hz, PhiA0_eq]
  iintro ⟨⟨⟨⟨%hq, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runA m c t hz).2.2.2.2.2 ((dats m 0 c).before 20 t d20) hq Set.univ _)
  simp only [ins, bufs, blks]
  iframe H0 H1 H2 H3 H4 H5 H6 H7 H8 H9 H10 H11 H12 H13 H14 H15 H16 H17 H18 H20 HS0 HS1 HS2 HS3 HS4
  isplitl [H19]; · iexists _; iexact H19
  iintro ⟨⟨H0, H1, H2, H3, H4, H5, H6, H7, H8, H9, H10, H11, H12, H13, H14, H15, H16, H17, H18⟩, ⟨%e0, H19⟩, H20, HS0, ⟨%e3, HS1⟩, ⟨%e4, HS2⟩, ⟨%e5, HS3⟩, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists _; isplitr; · ipureintro; exact HQ_stepA m c t hz hq
        iapply owns_intro; iexact HS0
      isplitl [HS1]
      · unfold owns; iexists _; isplitr; swap; · iexact HS1
        ipureintro; exact View.read_writes_of_cover _ _ _ _ _ (coverA_LS1 m c t hz)
      isplitl [HS2]
      · unfold owns; iexists _; isplitr; swap; · iexact HS2
        ipureintro; exact View.read_writes_of_cover _ _ _ _ _ (coverA_LS2 m c t hz)
      isplitl [HS3]
      · unfold owns; iexists _; isplitr; swap; · iexact HS3
        ipureintro; exact View.read_writes_of_cover _ _ _ _ _ (coverA_LS3 m c t hz)
      icases HS4 with ⟨%mn', HS4⟩
      iexists mn'; isplitr; · ipureintro; intro h; omega
      iexact HS4
    iexact Hg
  isplitl [H19]
  · unfold owns; iexists _; isplitr; swap; · iexact H19
    ipureintro; exact View.read_writes_of_cover _ _ _ _ _ (coverA_L19 m c t hz)
  iexists d20; iexact H20

end Cert.Kernel.Body

end
-- ==== Proof.K.SoundB.lean ====
import proofs.«181959_g40587440947829_cont_sun_m_1101_20_alg».proof.Proof.K.Late19
import proofs.«181959_g40587440947829_cont_sun_m_1101_20_alg».proof.Proof.K.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundB (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [show (dats m 0 c).leavesExact 19 t = owns (c : Thread nD τ) (ms19 t) fullShare ((dats m 0 c).after 19 t) from by
    unfold Dat.leavesExact; rw [live19 t h25], after19]
  rw [Dat.leavesExact_idle (dats m 0 c) 20 t (idle20 t (by omega)) (by have := flush20 t; cases hf : (cfg0.win 20).flush t with | false => rfl | true => exact absurd (this.mp hf) (by omega))]
  rw [st_B m c t h0 h25]
  dsimp only [stepB]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runB m c t h0 h25 (prev m c t)).2.2.2.2 ((dats m 0 c).before 20 t d20) hq (prev m c t).m2t Set.univ _)
  simp only [ins, bufs, blks]
  iframe H0 H1 H2 H3 H4 H5 H6 H7 H8 H9 H10 H11 H12 H13 H14 H15 H16 H17 H18 H20 HS0 HS1 HS2 HS3
  isplitl [H19]; · iexists _; iexact H19
  isplitl [HS4]; · iexists _; iexact HS4
  iintro ⟨⟨H0, H1, H2, H3, H4, H5, H6, H7, H8, H9, H10, H11, H12, H13, H14, H15, H16, H17, H18⟩, ⟨%e0, H19⟩, H20, HS0, ⟨%e3, HS1⟩, ⟨%e4, HS2⟩, HS3, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists _; isplitr; · ipureintro; exact HQ_stepB m c t h0 h25 hq hHQ
        iapply owns_intro; iexact HS0
      isplitl [HS1]
      · unfold owns; iexists _; isplitr; swap; · iexact HS1
        ipureintro; exact View.read_writes_of_cover _ _ _ _ _ (coverB_LS1 m c t h0 h25 (prev m c t))
      isplitl [HS2]
      · unfold owns; iexists _; isplitr; swap; · iexact HS2
        ipureintro; exact View.read_writes_of_cover _ _ _ _ _ (coverB_LS2 m c t h0 h25 (prev m c t))
      isplitl [HS3]
      · iexact HS3
      icases HS4 with ⟨%mn', HS4⟩
      iexists mn'; isplitr; · ipureintro; intro h; omega
      iexact HS4
    iexact Hg
  isplitl [H19]
  · unfold owns; iexists _; isplitr; swap; · iexact H19
    ipureintro; exact View.read_writes_of_cover _ _ _ _ _ (coverB_L19 m c t h0 h25 (prev m c t))
  iexists d20; iexact H20

end Cert.Kernel.Body

end
-- ==== Proof.K.SoundC.lean ====
import proofs.«181959_g40587440947829_cont_sun_m_1101_20_alg».proof.Proof.K.Late19
import proofs.«181959_g40587440947829_cont_sun_m_1101_20_alg».proof.Proof.K.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundC (c : Dev nD) (t : Fin cfg0.N) (e25 : t.val = 25) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t (by omega)) (by have := flush19 t; cases hf : (cfg0.win 19).flush t with | false => rfl | true => exact absurd (this.mp hf) (by omega))]
  rw [Dat.leavesExact_idle (dats m 0 c) 20 t (idle20 t (by omega)) (by have := flush20 t; cases hf : (cfg0.win 20).flush t with | false => rfl | true => exact absurd (this.mp hf) (by omega))]
  rw [st_C m c t e25]
  dsimp only [stepC]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  iapply ((runC m c t e25 (prev m c t)).2.2 ((dats m 0 c).before 19 t d19) ((dats m 0 c).before 20 t d20) Set.univ _)
  simp only [ins, bufs, blks]
  iframe H0 H1 H2 H3 H4 H5 H6 H7 H8 H9 H10 H11 H12 H13 H14 H15 H16 H17 H18 H19 H20 HS0 HS1 HS2 HS3
  isplitl [HS4]; · iexists _; iexact HS4
  iintro ⟨⟨H0, H1, H2, H3, H4, H5, H6, H7, H8, H9, H10, H11, H12, H13, H14, H15, H16, H17, H18⟩, H19, H20, HS0, HS1, HS2, ⟨%e5, HS3⟩, ⟨%e6, HS4⟩⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · unfold owns; iexists _; isplitr; swap; · iexact HS3
        ipureintro; exact View.read_writes_of_cover _ _ _ _ _ (coverC_LS3 m c t e25 (prev m c t))
      iexists (VS4.read (Elt F) (VS4.writes (Elt F) VS4.junk (runC m c t e25 (prev m c t)).2.1)); isplitr; · ipureintro; intro _; rfl
      unfold owns; iexists _; isplitr; swap; · iexact HS4
      ipureintro; exact View.read_writes_of_cover _ _ _ _ _ (coverC_LS4 m c t e25 (prev m c t))
    iexact Hg
  isplitl [H19]
  · iexists d19; iexact H19
  iexists d20; iexact H20

end Cert.Kernel.Body

end
-- ==== Proof.K.SoundD.lean ====
import proofs.«181959_g40587440947829_cont_sun_m_1101_20_alg».proof.Proof.K.Late19
import proofs.«181959_g40587440947829_cont_sun_m_1101_20_alg».proof.Proof.K.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundD (c : Dev nD) (t : Fin cfg0.N) (l25 : 25 < t.val) (h35 : t.val < 35) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t (by omega)) (by have := flush19 t; cases hf : (cfg0.win 19).flush t with | false => rfl | true => exact absurd (this.mp hf) (by omega))]
  rw [Dat.leavesExact_idle (dats m 0 c) 20 t (idle20 t (by omega)) (by have := flush20 t; cases hf : (cfg0.win 20).flush t with | false => rfl | true => exact absurd (this.mp hf) (by omega))]
  rw [st_D m c t l25 h35]
  dsimp only [stepD]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  obtain rfl := hmn (by omega)
  iapply ((runD m c t l25 h35 (prev m c t)).2 ((dats m 0 c).before 19 t d19) ((dats m 0 c).before 20 t d20) (prev m c t).de (prev m c t).m1t Set.univ _)
  simp only [ins, bufs, blks]
  iframe H0 H1 H2 H3 H4 H5 H6 H7 H8 H9 H10 H11 H12 H13 H14 H15 H16 H17 H18 H19 H20 HS0 HS1 HS2 HS3 HS4
  iintro ⟨⟨H0, H1, H2, H3, H4, H5, H6, H7, H8, H9, H10, H11, H12, H13, H14, H15, H16, H17, H18⟩, H19, H20, HS0, HS1, HS2, ⟨%e5, HS3⟩, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · unfold owns; iexists _; isplitr; swap; · iexact HS3
        ipureintro; exact View.read_writes_of_cover _ _ _ _ _ (coverD_LS3 m c t l25 h35 (prev m c t))
      iexists _; isplitr; · ipureintro; intro _; rfl
      iexact HS4
    iexact Hg
  isplitl [H19]
  · iexists d19; iexact H19
  iexists d20; iexact H20

end Cert.Kernel.Body

end
-- ==== Proof.K.SoundE.lean ====
import proofs.«181959_g40587440947829_cont_sun_m_1101_20_alg».proof.Proof.K.Late19
import proofs.«181959_g40587440947829_cont_sun_m_1101_20_alg».proof.Proof.K.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundE (c : Dev nD) (t : Fin cfg0.N) (e35 : t.val = 35) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t (by omega)) (by have := flush19 t; cases hf : (cfg0.win 19).flush t with | false => rfl | true => exact absurd (this.mp hf) (by omega))]
  rw [show (dats m 0 c).leavesExact 20 t = owns (c : Thread nD τ) (ms20 t) fullShare ((dats m 0 c).after 20 t) from by
    unfold Dat.leavesExact; rw [live20 t (by omega)], after20]
  rw [st_E m c t e35]
  dsimp only [stepE]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  iapply ((runE m c t e35 (prev m c t)).2.2 ((dats m 0 c).before 19 t d19) (prev m c t).m1t Set.univ _)
  simp only [ins, bufs, blks]
  iframe H0 H1 H2 H3 H4 H5 H6 H7 H8 H9 H10 H11 H12 H13 H14 H15 H16 H17 H18 H19 HS0 HS1 HS2 HS3
  isplitl [H20]; · iexists _; iexact H20
  isplitl [HS4]; · iexists _; iexact HS4
  iintro ⟨⟨H0, H1, H2, H3, H4, H5, H6, H7, H8, H9, H10, H11, H12, H13, H14, H15, H16, H17, H18⟩, H19, ⟨%e1, H20⟩, HS0, HS1, HS2, HS3, ⟨%e6, HS4⟩⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · iexact HS3
      iexists (VS4.read (Elt F) (VS4.writes (Elt F) VS4.junk (runE m c t e35 (prev m c t)).2.1)); isplitr; · ipureintro; intro _; rfl
      unfold owns; iexists _; isplitr; swap; · iexact HS4
      ipureintro; exact View.read_writes_of_cover _ _ _ _ _ (coverE_LS4 m c t e35 (prev m c t))
    iexact Hg
  isplitl [H19]
  · iexists d19; iexact H19
  unfold owns; iexists _; isplitr; swap; · iexact H20
  ipureintro; exact View.read_writes_of_cover _ _ _ _ _ (coverE_L20 m c t e35 (prev m c t))

end Cert.Kernel.Body

end
-- ==== Proof.K.SoundF.lean ====
import proofs.«181959_g40587440947829_cont_sun_m_1101_20_alg».proof.Proof.K.Late19
import proofs.«181959_g40587440947829_cont_sun_m_1101_20_alg».proof.Proof.K.Covers

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundF (c : Dev nD) (t : Fin cfg0.N) (l35 : 35 < t.val) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [show (dats m 0 c).leavesExact 20 t = owns (c : Thread nD τ) (ms20 t) fullShare ((dats m 0 c).after 20 t) from by
    unfold Dat.leavesExact; rw [live20 t (by omega)], after20]
  rw [st_F m c t l35]
  dsimp only [stepF]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  obtain rfl := hmn (by omega)
  iapply ((runF m c t l35 (prev m c t)).2 ((dats m 0 c).before 19 t d19) (prev m c t).de (prev m c t).m1t (prev m c t).m2t Set.univ _)
  simp only [ins, bufs, blks]
  iframe H0 H1 H2 H3 H4 H5 H6 H7 H8 H9 H10 H11 H12 H13 H14 H15 H16 H17 H18 H19 HS0 HS1 HS2 HS3 HS4
  isplitl [H20]; · iexists _; iexact H20
  iintro ⟨⟨H0, H1, H2, H3, H4, H5, H6, H7, H8, H9, H10, H11, H12, H13, H14, H15, H16, H17, H18⟩, H19, ⟨%e1, H20⟩, HS0, HS1, HS2, HS3, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · iexact HS3
      iexists _; isplitr; · ipureintro; intro _; rfl
      iexact HS4
    iexact Hg
  isplitl [H19]
  · iapply leaves19_late_intro m c t (by omega) d19; iexact H19
  unfold owns; iexists _; isplitr; swap; · iexact H20
  ipureintro; exact View.read_writes_of_cover _ _ _ _ _ (coverF_L20 m c t l35 (prev m c t))

end Cert.Kernel.Body

end
-- ==== Proof.K.Frame.lean ====
import proofs.«181959_g40587440947829_cont_sun_m_1101_20_alg».proof.Proof.K.SoundA
import proofs.«181959_g40587440947829_cont_sun_m_1101_20_alg».proof.Proof.K.SoundB
import proofs.«181959_g40587440947829_cont_sun_m_1101_20_alg».proof.Proof.K.SoundC
import proofs.«181959_g40587440947829_cont_sun_m_1101_20_alg».proof.Proof.K.SoundD
import proofs.«181959_g40587440947829_cont_sun_m_1101_20_alg».proof.Proof.K.SoundE
import proofs.«181959_g40587440947829_cont_sun_m_1101_20_alg».proof.Proof.K.SoundF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every grid point falls in one of the six control cases. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  by_cases h25 : t.val < 25
  · exact soundB m c t hz h25
  by_cases e25 : t.val = 25
  · exact soundC m c t e25
  by_cases h35 : t.val < 35
  · exact soundD m c t (by omega) h35
  by_cases e35 : t.val = 35
  · exact soundE m c t e35
  · exact soundF m c t (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem PhiS_out (c : Dev nD) (n : ℕ) (h : n ≤ cfg0.N) (hz : n ≠ 0) : PhiS m c n h ⊢ Pipeline.ΦA spec0 c := by
  cases n with
  | zero => exact absurd rfl hz
  | succ n =>
    rw [PhiS_succ m c n h, PhiA0_eq]
    iintro ⟨⟨⟨%hq, -, HS0⟩, HS1, HS2, HS3, ⟨%mn, -, HS4⟩⟩, Hg⟩
    isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _ (by rw [Fin.val_last]; have : cfg0.N = 45 := N_0; omega)

set_option backward.isDefEq.respectTransparency.types false in

/-- The whole program runs to the post in which every window's array holds what the proof data's write-backs leave. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Body

end
-- ==== Proof.KI.Cases.lean ====
import proofs.«181959_g40587440947829_cont_sun_m_1101_20_alg».proof.Proof.Gen.KernelIdeal.Frame
import proofs.«181959_g40587440947829_cont_sun_m_1101_20_alg».proof.Proof.LibOwns
import proofs.«181959_g40587440947829_cont_sun_m_1101_20_alg».proof.Proof.Gen.KernelIdeal.Skeleton
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev g1 (i : grid0.Coords) : Prop := (Scalar.cmpi .ne (Scalar.extui (Scalar.cmpi .eq (BitVec.ofNat 32 (i 0).val) 0#32)) 0#32) = 1#1

abbrev g2 (i : grid0.Coords) : Prop := k0_cond2 i = 1#1

abbrev g3 (i : grid0.Coords) : Prop := (Scalar.cmpi .ne (Scalar.extui (Scalar.cmpi .eq (BitVec.ofNat 32 (i 0).val) 25#32)) 0#32) = 1#1

abbrev g4 (i : grid0.Coords) : Prop := k0_cond4 i = 1#1

abbrev g5 (i : grid0.Coords) : Prop := (Scalar.cmpi .ne (Scalar.extui (Scalar.cmpi .eq (BitVec.ofNat 32 (i 0).val) 35#32)) 0#32) = 1#1

abbrev g6 (i : grid0.Coords) : Prop := k0_cond6 i = 1#1

theorem hg1 : ∀ t : Fin cfg0.N, g1 (grid0.coords t) ↔ t.val = 0 :=
  (by decide +kernel : ∀ t : Fin grid0.N, g1 (grid0.coords t) ↔ t.val = 0)
theorem hg2 : ∀ t : Fin cfg0.N, g2 (grid0.coords t) ↔ t.val < 25 :=
  (by decide +kernel : ∀ t : Fin grid0.N, g2 (grid0.coords t) ↔ t.val < 25)
theorem hg3 : ∀ t : Fin cfg0.N, g3 (grid0.coords t) ↔ t.val = 25 :=
  (by decide +kernel : ∀ t : Fin grid0.N, g3 (grid0.coords t) ↔ t.val = 25)
theorem hg4 : ∀ t : Fin cfg0.N, g4 (grid0.coords t) ↔ (25 ≤ t.val ∧ t.val < 35) :=
  (by decide +kernel : ∀ t : Fin grid0.N, g4 (grid0.coords t) ↔ (25 ≤ t.val ∧ t.val < 35))
theorem hg5 : ∀ t : Fin cfg0.N, g5 (grid0.coords t) ↔ t.val = 35 :=
  (by decide +kernel : ∀ t : Fin grid0.N, g5 (grid0.coords t) ↔ t.val = 35)
theorem hg6 : ∀ t : Fin cfg0.N, g6 (grid0.coords t) ↔ 35 ≤ t.val :=
  (by decide +kernel : ∀ t : Fin grid0.N, g6 (grid0.coords t) ↔ 35 ≤ t.val)

theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])

theorem off2_eq : ∀ t : Fin cfg0.N, 25 ≤ t.val → t.val < 35 → k0_off2 (grid0.coords t) = ![1000 * (t.val - 25), 0] :=
  (by decide +kernel : ∀ t : Fin grid0.N, 25 ≤ t.val → t.val < 35 → k0_off2 (grid0.coords t) = ![1000 * (t.val - 25), 0])

theorem off3_eq : ∀ t : Fin cfg0.N, 35 ≤ t.val → k0_off3 (grid0.coords t) = ![1000 * (t.val - 35), 0] :=
  (by decide +kernel : ∀ t : Fin grid0.N, 35 ≤ t.val → k0_off3 (grid0.coords t) = ![1000 * (t.val - 35), 0])

theorem live19 : ∀ t : Fin cfg0.N, t.val < 25 → cfg0.idle 19 (grid0.coords t) = false :=
  (by decide +kernel : ∀ t : Fin grid0.N, t.val < 25 → idle0 19 (grid0.coords t) = false)
theorem idle19 : ∀ t : Fin cfg0.N, 25 ≤ t.val → cfg0.idle 19 (grid0.coords t) = true :=
  (by decide +kernel : ∀ t : Fin grid0.N, 25 ≤ t.val → idle0 19 (grid0.coords t) = true)
theorem live20 : ∀ t : Fin cfg0.N, 35 ≤ t.val → cfg0.idle 20 (grid0.coords t) = false :=
  (by decide +kernel : ∀ t : Fin grid0.N, 35 ≤ t.val → idle0 20 (grid0.coords t) = false)
theorem idle20 : ∀ t : Fin cfg0.N, t.val < 35 → cfg0.idle 20 (grid0.coords t) = true :=
  (by decide +kernel : ∀ t : Fin grid0.N, t.val < 35 → idle0 20 (grid0.coords t) = true)

theorem flush19 : ∀ t : Fin cfg0.N, (cfg0.win 19).flush t = true ↔ (t.val < 24 ∨ t.val = 44) :=
  (by decide +kernel : ∀ t : Fin grid0.N, win0_19.flush t = true ↔ (t.val < 24 ∨ t.val = 44))

theorem flush20 : ∀ t : Fin cfg0.N, (cfg0.win 20).flush t = true ↔ 35 ≤ t.val :=
  (by decide +kernel : ∀ t : Fin grid0.N, win0_20.flush t = true ↔ 35 ≤ t.val)

abbrev ms0 (t : Fin cfg0.N) : Memref sig .tc .vmem S400x2048 .f32 := win0_0.stage (cfg0.slots t 0)
abbrev ms1 (t : Fin cfg0.N) : Memref sig .tc .vmem S400x128 .f32 := win0_1.stage (cfg0.slots t 1)
abbrev ms2 (t : Fin cfg0.N) : Memref sig .tc .vmem S400x16 .f32 := win0_2.stage (cfg0.slots t 2)
abbrev ms3 (t : Fin cfg0.N) : Memref sig .tc .vmem S2048x1 .bf16 := win0_3.stage (cfg0.slots t 3)
abbrev ms4 (t : Fin cfg0.N) : Memref sig .tc .vmem S1x2048 .f32 := win0_4.stage (cfg0.slots t 4)
abbrev ms5 (t : Fin cfg0.N) : Memref sig .tc .vmem S128x32 .f32 := win0_5.stage (cfg0.slots t 5)
abbrev ms6 (t : Fin cfg0.N) : Memref sig .tc .vmem S1x32 .f32 := win0_6.stage (cfg0.slots t 6)
abbrev ms7 (t : Fin cfg0.N) : Memref sig .tc .vmem S16x32 .f32 := win0_7.stage (cfg0.slots t 7)
abbrev ms8 (t : Fin cfg0.N) : Memref sig .tc .vmem S1x32 .f32 := win0_8.stage (cfg0.slots t 8)
abbrev ms9 (t : Fin cfg0.N) : Memref sig .tc .vmem S64x64 .f32 := win0_9.stage (cfg0.slots t 9)
abbrev ms10 (t : Fin cfg0.N) : Memref sig .tc .vmem S1x64 .f32 := win0_10.stage (cfg0.slots t 10)
abbrev ms11 (t : Fin cfg0.N) : Memref sig .tc .vmem S64x32 .f32 := win0_11.stage (cfg0.slots t 11)
abbrev ms12 (t : Fin cfg0.N) : Memref sig .tc .vmem S1x32 .f32 := win0_12.stage (cfg0.slots t 12)
abbrev ms13 (t : Fin cfg0.N) : Memref sig .tc .vmem S32x64 .f32 := win0_13.stage (cfg0.slots t 13)
abbrev ms14 (t : Fin cfg0.N) : Memref sig .tc .vmem S1x64 .f32 := win0_14.stage (cfg0.slots t 14)
abbrev ms15 (t : Fin cfg0.N) : Memref sig .tc .vmem S64x64 .f32 := win0_15.stage (cfg0.slots t 15)
abbrev ms16 (t : Fin cfg0.N) : Memref sig .tc .vmem S1x64 .f32 := win0_16.stage (cfg0.slots t 16)
abbrev ms17 (t : Fin cfg0.N) : Memref sig .tc .vmem S64x2 .f32 := win0_17.stage (cfg0.slots t 17)
abbrev ms18 (t : Fin cfg0.N) : Memref sig .tc .vmem S1x2 .f32 := win0_18.stage (cfg0.slots t 18)
abbrev ms19 (t : Fin cfg0.N) : Memref sig .tc .vmem S400x32 .f32 := win0_19.stage (cfg0.slots t 19)
abbrev ms20 (t : Fin cfg0.N) : Memref sig .tc .vmem S1000x2 .f32 := win0_20.stage (cfg0.slots t 20)

abbrev scM0 : Memref sig .tc .vmem S10000x2048 .bf16 := Memref.whole cc0_scratch0
abbrev VS0 : View sig .tc .vmem S10000x2048 .bf16 := (scM0 : Memref sig .tc .vmem S10000x2048 .bf16).view

abbrev scM1 : Memref sig .tc .vmem S1x2048 .f32 := Memref.whole cc0_scratch1
abbrev VS1 : View sig .tc .vmem S1x2048 .f32 := (scM1 : Memref sig .tc .vmem S1x2048 .f32).view

abbrev scM2 : Memref sig .tc .vmem S64x2048 .f32 := Memref.whole cc0_scratch2
abbrev VS2 : View sig .tc .vmem S64x2048 .f32 := (scM2 : Memref sig .tc .vmem S64x2048 .f32).view

abbrev scM3 : Memref sig .tc .vmem S64x2048 .f32 := Memref.whole cc0_scratch3
abbrev VS3 : View sig .tc .vmem S64x2048 .f32 := (scM3 : Memref sig .tc .vmem S64x2048 .f32).view

abbrev scM4 : Memref sig .tc .vmem S2048x64 .bf16 := Memref.whole cc0_scratch4
abbrev VS4 : View sig .tc .vmem S2048x64 .bf16 := (scM4 : Memref sig .tc .vmem S2048x64 .bf16).view

abbrev VO19 : View sig .tc .vmem S400x32 .f32 := (Memref.whole cc0_stg19_0 : Memref sig .tc .vmem S400x32 .f32).view
abbrev VO20 : View sig .tc .vmem S1000x2 .f32 := (Memref.whole cc0_stg20_0 : Memref sig .tc .vmem S1000x2 .f32).view

/-- The buffers the body is handed: one for each window and the five scratch buffers, each whole. -/
structure Bufs where
  a1 : Memref sig .tc .vmem S400x2048 .f32
  h1 : a1.IsWhole
  a2 : Memref sig .tc .vmem S400x128 .f32
  h2 : a2.IsWhole
  a3 : Memref sig .tc .vmem S400x16 .f32
  h3 : a3.IsWhole
  a4 : Memref sig .tc .vmem S2048x1 .bf16
  h4 : a4.IsWhole
  a5 : Memref sig .tc .vmem S1x2048 .f32
  h5 : a5.IsWhole
  a6 : Memref sig .tc .vmem S128x32 .f32
  h6 : a6.IsWhole
  a7 : Memref sig .tc .vmem S1x32 .f32
  h7 : a7.IsWhole
  a8 : Memref sig .tc .vmem S16x32 .f32
  h8 : a8.IsWhole
  a9 : Memref sig .tc .vmem S1x32 .f32
  h9 : a9.IsWhole
  a10 : Memref sig .tc .vmem S64x64 .f32
  h10 : a10.IsWhole
  a11 : Memref sig .tc .vmem S1x64 .f32
  h11 : a11.IsWhole
  a12 : Memref sig .tc .vmem S64x32 .f32
  h12 : a12.IsWhole
  a13 : Memref sig .tc .vmem S1x32 .f32
  h13 : a13.IsWhole
  a14 : Memref sig .tc .vmem S32x64 .f32
  h14 : a14.IsWhole
  a15 : Memref sig .tc .vmem S1x64 .f32
  h15 : a15.IsWhole
  a16 : Memref sig .tc .vmem S64x64 .f32
  h16 : a16.IsWhole
  a17 : Memref sig .tc .vmem S1x64 .f32
  h17 : a17.IsWhole
  a18 : Memref sig .tc .vmem S64x2 .f32
  h18 : a18.IsWhole
  a19 : Memref sig .tc .vmem S1x2 .f32
  h19 : a19.IsWhole
  a20 : Memref sig .tc .vmem S400x32 .f32
  h20 : a20.IsWhole
  a21 : Memref sig .tc .vmem S1000x2 .f32
  h21 : a21.IsWhole
  a22 : Memref sig .tc .vmem S10000x2048 .bf16
  h22 : a22.IsWhole
  a23 : Memref sig .tc .vmem S1x2048 .f32
  h23 : a23.IsWhole
  a24 : Memref sig .tc .vmem S64x2048 .f32
  h24 : a24.IsWhole
  a25 : Memref sig .tc .vmem S64x2048 .f32
  h25 : a25.IsWhole
  a26 : Memref sig .tc .vmem S2048x64 .bf16
  h26 : a26.IsWhole

/-- The body's buffers at a grid point. -/
abbrev bufs (t : Fin cfg0.N) : Bufs :=
  ⟨ms0 t, hstage0_0 ((cfg0.slots t 0).cast nbuf0_0), ms1 t, hstage0_1 ((cfg0.slots t 1).cast nbuf0_1), ms2 t, hstage0_2 ((cfg0.slots t 2).cast nbuf0_2), ms3 t, hstage0_3 ((cfg0.slots t 3).cast nbuf0_3), ms4 t, hstage0_4 ((cfg0.slots t 4).cast nbuf0_4), ms5 t, hstage0_5 ((cfg0.slots t 5).cast nbuf0_5), ms6 t, hstage0_6 ((cfg0.slots t 6).cast nbuf0_6), ms7 t, hstage0_7 ((cfg0.slots t 7).cast nbuf0_7), ms8 t, hstage0_8 ((cfg0.slots t 8).cast nbuf0_8), ms9 t, hstage0_9 ((cfg0.slots t 9).cast nbuf0_9), ms10 t, hstage0_10 ((cfg0.slots t 10).cast nbuf0_10), ms11 t, hstage0_11 ((cfg0.slots t 11).cast nbuf0_11), ms12 t, hstage0_12 ((cfg0.slots t 12).cast nbuf0_12), ms13 t, hstage0_13 ((cfg0.slots t 13).cast nbuf0_13), ms14 t, hstage0_14 ((cfg0.slots t 14).cast nbuf0_14), ms15 t, hstage0_15 ((cfg0.slots t 15).cast nbuf0_15), ms16 t, hstage0_16 ((cfg0.slots t 16).cast nbuf0_16), ms17 t, hstage0_17 ((cfg0.slots t 17).cast nbuf0_17), ms18 t, hstage0_18 ((cfg0.slots t 18).cast nbuf0_18), ms19 t, hstage0_19 ((cfg0.slots t 19).cast nbuf0_19), ms20 t, hstage0_20 ((cfg0.slots t 20).cast nbuf0_20), scM0, Memref.isWhole_whole _, scM1, Memref.isWhole_whole _, scM2, Memref.isWhole_whole _, scM3, Memref.isWhole_whole _, scM4, Memref.isWhole_whole _⟩

/-- The contents of the nineteen operand blocks. -/
structure Blks (F : FTy → Type) [FloatOps F] where
  x0 : Vec F S400x2048 .f32
  x1 : Vec F S400x128 .f32
  x2 : Vec F S400x16 .f32
  x3 : Vec F S2048x1 .bf16
  x4 : Vec F S1x2048 .f32
  x5 : Vec F S128x32 .f32
  x6 : Vec F S1x32 .f32
  x7 : Vec F S16x32 .f32
  x8 : Vec F S1x32 .f32
  x9 : Vec F S64x64 .f32
  x10 : Vec F S1x64 .f32
  x11 : Vec F S64x32 .f32
  x12 : Vec F S1x32 .f32
  x13 : Vec F S32x64 .f32
  x14 : Vec F S1x64 .f32
  x15 : Vec F S64x64 .f32
  x16 : Vec F S1x64 .f32
  x17 : Vec F S64x2 .f32
  x18 : Vec F S1x2 .f32

/-- The nineteen operand blocks, each owned whole at its contents: the part of every case's resources the body only reads. -/
abbrev ins (c : Dev nD) (B : Bufs) (X : Blks F) : sProp 𝕄 :=
  iprop(owns (c : Thread nD τ) B.a1 fullShare X.x0 ∗ owns (c : Thread nD τ) B.a2 fullShare X.x1 ∗ owns (c : Thread nD τ) B.a3 fullShare X.x2 ∗ owns (c : Thread nD τ) B.a4 fullShare X.x3 ∗ owns (c : Thread nD τ) B.a5 fullShare X.x4 ∗ owns (c : Thread nD τ) B.a6 fullShare X.x5 ∗ owns (c : Thread nD τ) B.a7 fullShare X.x6 ∗ owns (c : Thread nD τ) B.a8 fullShare X.x7 ∗ owns (c : Thread nD τ) B.a9 fullShare X.x8 ∗ owns (c : Thread nD τ) B.a10 fullShare X.x9 ∗ owns (c : Thread nD τ) B.a11 fullShare X.x10 ∗ owns (c : Thread nD τ) B.a12 fullShare X.x11 ∗ owns (c : Thread nD τ) B.a13 fullShare X.x12 ∗ owns (c : Thread nD τ) B.a14 fullShare X.x13 ∗ owns (c : Thread nD τ) B.a15 fullShare X.x14 ∗ owns (c : Thread nD τ) B.a16 fullShare X.x15 ∗ owns (c : Thread nD τ) B.a17 fullShare X.x16 ∗ owns (c : Thread nD τ) B.a18 fullShare X.x17 ∗ owns (c : Thread nD τ) B.a19 fullShare X.x18)

/-- Between points the region holds its five scratch buffers at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

end Cert.KernelIdeal.Body

end
-- ==== Proof.KI.RunA.lean ====
import proofs.«181959_g40587440947829_cont_sun_m_1101_20_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunA (c : Dev nD) (i : grid0.Coords) (B : Bufs)
    (h1 : g1 i) (h2 : g2 i) (h3 : ¬g3 i) (h4 : ¬g4 i) (h5 : ¬g5 i) (h6 : ¬g6 i)
    (X : Blks F)  :
    Σ' (L19 : List (View.Piece (Elt F) S400x32 .f32)) (LS0 : List (View.Piece (Elt F) S10000x2048 .bf16)) (LS1 : List (View.Piece (Elt F) S1x2048 .f32)) (LS2 : List (View.Piece (Elt F) S64x2048 .f32)), { LS3 : List (View.Piece (Elt F) S64x2048 .f32) //
      ∀ (xi20 : Vec F S1000x2 .f32) (xs0 : Vec F S10000x2048 .bf16) (E : Set ℕ) (K : PUnit → sProp 𝕄),
        iprop(ins c B X ∗ (∃ d, owns (c : Thread nD τ) B.a20 fullShare d) ∗ owns (c : Thread nD τ) B.a21 fullShare xi20 ∗ owns (c : Thread nD τ) B.a22 fullShare xs0 ∗ (∃ d, owns (c : Thread nD τ) B.a23 fullShare d) ∗ (∃ d, owns (c : Thread nD τ) B.a24 fullShare d) ∗ (∃ d, owns (c : Thread nD τ) B.a25 fullShare d) ∗ (∃ d, owns (c : Thread nD τ) B.a26 fullShare d)
            ∗ (iprop(ins c B X ∗ (∃ f, B.a20.view.loc (c : Thread nD τ) ↦[B.a20.view.set]{fullShare} B.a20.view.writes (Elt F) f L19) ∗ owns (c : Thread nD τ) B.a21 fullShare xi20 ∗ (B.a22.view.loc (c : Thread nD τ) ↦[B.a22.view.set]{fullShare} B.a22.view.writes (Elt F) (B.h22.unread xs0) LS0) ∗ (∃ f, B.a23.view.loc (c : Thread nD τ) ↦[B.a23.view.set]{fullShare} B.a23.view.writes (Elt F) f LS1) ∗ (∃ f, B.a24.view.loc (c : Thread nD τ) ↦[B.a24.view.set]{fullShare} B.a24.view.writes (Elt F) f LS2) ∗ (∃ f, B.a25.view.loc (c : Thread nD τ) ↦[B.a25.view.set]{fullShare} B.a25.view.writes (Elt F) f LS3) ∗ (∃ d, owns (c : Thread nD τ) B.a26 fullShare d)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, ?_, ?_, ?_, fun xi20 xs0 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, ⟨%d19, H19⟩, H20, H21, ⟨%d22, H22⟩, ⟨%d23, H23⟩, ⟨%d24, H24⟩, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H20 H21
    isplitl [H19]; · iexists _; iexact H19
    isplitl [H22]; · iexists _; iexact H22
    isplitl [H23]; · iexists _; iexact H23
    isplitl [H24]; · iexists _; iexact H24
    iexists _; iexact H25

end Cert.KernelIdeal.Body

end
-- ==== Proof.KI.RunB.lean ====
import proofs.«181959_g40587440947829_cont_sun_m_1101_20_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunB (c : Dev nD) (i : grid0.Coords) (B : Bufs)
    (h1 : ¬g1 i) (h2 : g2 i) (h3 : ¬g3 i) (h4 : ¬g4 i) (h5 : ¬g5 i) (h6 : ¬g6 i)
    (X : Blks F) (xs1 : Vec F S1x2048 .f32) (xs2 : Vec F S64x2048 .f32) :
    Σ' (L19 : List (View.Piece (Elt F) S400x32 .f32)) (LS0 : List (View.Piece (Elt F) S10000x2048 .bf16)) (LS1 : List (View.Piece (Elt F) S1x2048 .f32)), { LS2 : List (View.Piece (Elt F) S64x2048 .f32) //
      ∀ (xi20 : Vec F S1000x2 .f32) (xs0 : Vec F S10000x2048 .bf16) (xs3 : Vec F S64x2048 .f32) (E : Set ℕ) (K : PUnit → sProp 𝕄),
        iprop(ins c B X ∗ (∃ d, owns (c : Thread nD τ) B.a20 fullShare d) ∗ owns (c : Thread nD τ) B.a21 fullShare xi20 ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ d, owns (c : Thread nD τ) B.a26 fullShare d)
            ∗ (iprop(ins c B X ∗ (∃ f, B.a20.view.loc (c : Thread nD τ) ↦[B.a20.view.set]{fullShare} B.a20.view.writes (Elt F) f L19) ∗ owns (c : Thread nD τ) B.a21 fullShare xi20 ∗ (B.a22.view.loc (c : Thread nD τ) ↦[B.a22.view.set]{fullShare} B.a22.view.writes (Elt F) (B.h22.unread xs0) LS0) ∗ (∃ f, B.a23.view.loc (c : Thread nD τ) ↦[B.a23.view.set]{fullShare} B.a23.view.writes (Elt F) f LS1) ∗ (∃ f, B.a24.view.loc (c : Thread nD τ) ↦[B.a24.view.set]{fullShare} B.a24.view.writes (Elt F) f LS2) ∗ owns (c : Thread nD τ) B.a25 fullShare xs3 ∗ (∃ d, owns (c : Thread nD τ) B.a26 fullShare d)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, ?_, ?_, fun xi20 xs0 xs3 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, ⟨%d19, H19⟩, H20, H21, H22, H23, H24, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H20 H21 H24
    isplitl [H19]; · iexists _; iexact H19
    isplitl [H22]; · iexists _; iexact H22
    isplitl [H23]; · iexists _; iexact H23
    iexists _; iexact H25

end Cert.KernelIdeal.Body

end
-- ==== Proof.KI.RunC.lean ====
import proofs.«181959_g40587440947829_cont_sun_m_1101_20_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunC (c : Dev nD) (i : grid0.Coords) (B : Bufs)
    (h1 : ¬g1 i) (h2 : ¬g2 i) (h3 : g3 i) (h4 : g4 i) (h5 : ¬g5 i) (h6 : ¬g6 i)
    (X : Blks F) (xs0 : Vec F S10000x2048 .bf16) (xs1 : Vec F S1x2048 .f32) (xs2 : Vec F S64x2048 .f32) (xs3 : Vec F S64x2048 .f32) :
    Σ' (LS3 : List (View.Piece (Elt F) S64x2048 .f32)), { LS4 : List (View.Piece (Elt F) S2048x64 .bf16) //
      ∀ (xi19 : Vec F S400x32 .f32) (xi20 : Vec F S1000x2 .f32) (E : Set ℕ) (K : PUnit → sProp 𝕄),
        iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ d, owns (c : Thread nD τ) B.a26 fullShare d)
            ∗ (iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ (∃ f, B.a25.view.loc (c : Thread nD τ) ↦[B.a25.view.set]{fullShare} B.a25.view.writes (Elt F) f LS3) ∗ (∃ f, B.a26.view.loc (c : Thread nD τ) ↦[B.a26.view.set]{fullShare} B.a26.view.writes (Elt F) f LS4)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, fun xi19 xi20 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, H20, H21, H22, H23, H24, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H20 H21 H22 H23
    isplitl [H24]; · iexists _; iexact H24
    iexists _; iexact H25

end Cert.KernelIdeal.Body

end
-- ==== Proof.KI.RunD.lean ====
import proofs.«181959_g40587440947829_cont_sun_m_1101_20_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunD (c : Dev nD) (i : grid0.Coords) (B : Bufs)
    (h1 : ¬g1 i) (h2 : ¬g2 i) (h3 : ¬g3 i) (h4 : g4 i) (h5 : ¬g5 i) (h6 : ¬g6 i)
    (X : Blks F) (xs0 : Vec F S10000x2048 .bf16) (xs3 : Vec F S64x2048 .f32) (xs4 : Vec F S2048x64 .bf16) :
    { LS3 : List (View.Piece (Elt F) S64x2048 .f32) //
      ∀ (xi19 : Vec F S400x32 .f32) (xi20 : Vec F S1000x2 .f32) (xs1 : Vec F S1x2048 .f32) (xs2 : Vec F S64x2048 .f32) (E : Set ℕ) (K : PUnit → sProp 𝕄),
        iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ owns (c : Thread nD τ) B.a25 fullShare xs3 ∗ owns (c : Thread nD τ) B.a26 fullShare xs4
            ∗ (iprop(ins c B X ∗ owns (c : Thread nD τ) B.a20 fullShare xi19 ∗ owns (c : Thread nD τ) B.a21 fullShare xi20 ∗ owns (c : Thread nD τ) B.a22 fullShare xs0 ∗ owns (c : Thread nD τ) B.a23 fullShare xs1 ∗ owns (c : Thread nD τ) B.a24 fullShare xs2 ∗ (∃ f, B.a25.view.loc (c : Thread nD τ) ↦[B.a25.view.set]{fullShare} B.a25.view.writes (Elt F) f LS3) ∗ owns (c : Thread nD τ) B.a26 fullShare xs4) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, fun xi19 xi20 xs1 xs2 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, H20, H21, H22, H23, H24, H25, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H20 H21 H22 H23
    isplitl [H24]; · iexists _; iexact H24
    iexact H25

end Cert.KernelIdeal.Body

end
-- ==== Proof.KI.RunE.lean ====
import proofs.«181959_g40587440947829_cont_sun_m_1101_20_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunE (c : Dev nD) (i : grid0.Coords) (B : Bufs)
    (h1 : ¬g1 i) (h2 : ¬g2 i) (h3 : ¬g3 i) (h4 : ¬g4 i) (h5 : g5 i) (h6 : g6 i)
    (X : Blks F) (xs0 : Vec F S10000x2048 .bf16) (xs1 : Vec F S1x2048 .f32) (xs3 : Vec F S64x2048 .f32) :
    Σ' (L20 : List (View.Piece (Elt F) S1000x2 .f32)), { LS4 : List (View.Piece (Elt F) S2048x64 .bf16) //
      ∀ (xi19 : Vec F S400x32 .f32) (xs2 : Vec F S64x2048 .f32) (E : Set ℕ) (K : PUnit → sProp 𝕄),
        iprop(ins c B X ∗ owns (c : Thread nD τ) B.a20 fullShare xi19 ∗ (∃ d, owns (c : Thread nD τ) B.a21 fullShare d) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ d, owns (c : Thread nD τ) B.a26 fullShare d)
            ∗ (iprop(ins c B X ∗ owns (c : Thread nD τ) B.a20 fullShare xi19 ∗ (∃ f, B.a21.view.loc (c : Thread nD τ) ↦[B.a21.view.set]{fullShare} B.a21.view.writes (Elt F) f L20) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ (∃ f, B.a26.view.loc (c : Thread nD τ) ↦[B.a26.view.set]{fullShare} B.a26.view.writes (Elt F) f LS4)) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, ?_, fun xi19 xs2 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, ⟨%d20, H20⟩, H21, H22, H23, H24, ⟨%d25, H25⟩, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H21 H22 H23 H24
    isplitl [H20]; · iexists _; iexact H20
    iexists _; iexact H25

end Cert.KernelIdeal.Body

end
-- ==== Proof.KI.RunF.lean ====
import proofs.«181959_g40587440947829_cont_sun_m_1101_20_alg».proof.Proof.KI.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in

/-- The body run symbolically in this control case: the rectangles it stores into each buffer it writes, and the run to them. -/
noncomputable def kernelRunF (c : Dev nD) (i : grid0.Coords) (B : Bufs)
    (h1 : ¬g1 i) (h2 : ¬g2 i) (h3 : ¬g3 i) (h4 : ¬g4 i) (h5 : ¬g5 i) (h6 : g6 i)
    (X : Blks F) (xs0 : Vec F S10000x2048 .bf16) (xs4 : Vec F S2048x64 .bf16) :
    { L20 : List (View.Piece (Elt F) S1000x2 .f32) //
      ∀ (xi19 : Vec F S400x32 .f32) (xs1 : Vec F S1x2048 .f32) (xs2 : Vec F S64x2048 .f32) (xs3 : Vec F S64x2048 .f32) (E : Set ℕ) (K : PUnit → sProp 𝕄),
        iprop(ins c B X ∗ owns (c : Thread nD τ) B.a20 fullShare xi19 ∗ (∃ d, owns (c : Thread nD τ) B.a21 fullShare d) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ owns (c : Thread nD τ) B.a26 fullShare xs4
            ∗ (iprop(ins c B X ∗ owns (c : Thread nD τ) B.a20 fullShare xi19 ∗ (∃ f, B.a21.view.loc (c : Thread nD τ) ↦[B.a21.view.set]{fullShare} B.a21.view.writes (Elt F) f L20) ∗ owns (c : Thread nD τ) B.a22 fullShare xs0 ∗ owns (c : Thread nD τ) B.a23 fullShare xs1 ∗ owns (c : Thread nD τ) B.a24 fullShare xs2 ∗ owns (c : Thread nD τ) B.a25 fullShare xs3 ∗ owns (c : Thread nD τ) B.a26 fullShare xs4) -∗ K ⟨⟩))
          ⊢ wp frame (wpE (defs₀ (F := F)) Variants.none c none) E (cc0__kernel i B.a1 B.h1 B.a2 B.h2 B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 B.a18 B.h18 B.a19 B.h19 B.a20 B.h20 B.a21 B.h21 B.a22 B.h22 B.a23 B.h23 B.a24 B.h24 B.a25 B.h25 B.a26 B.h26) K } := by
  refine ⟨?_, fun xi19 xs1 xs2 xs3 E K => ?run⟩
  case run =>
    simp (disch := first | exact B.h1 | exact B.h2 | exact B.h3 | exact B.h4 | exact B.h5 | exact B.h6 | exact B.h7 | exact B.h8 | exact B.h9 | exact B.h10 | exact B.h11 | exact B.h12 | exact B.h13 | exact B.h14 | exact B.h15 | exact B.h16 | exact B.h17 | exact B.h18 | exact B.h19 | exact B.h20 | exact B.h21 | exact B.h22 | exact B.h23 | exact B.h24 | exact B.h25 | exact B.h26) only [ins, Cert.Lib.owns_unread]
    simp only [cc0__kernel_eq_skeleton]; unfold cc0__kernel_skel
    simp only [k0_part1_eq_skeleton, k0_part2_eq_skeleton]
    iintro ⟨⟨H0, H1, H2, H3, H4, H5, H6, H7, H8, H9, H10, H11, H12, H13, H14, H15, H16, H17, H18⟩, H19, ⟨%d20, H20⟩, H21, H22, H23, H24, H25, Hk⟩
    sl_exec (disch := first | exact h1 | exact h2 | exact h3 | exact h4 | exact h5 | exact h6)
    sl_step
    iapply Hk
    iframe H0 H1 H2 H3 H4 H5 H6 H7 H8 H9 H10 H11 H12 H13 H14 H15 H16 H17 H18 H19 H21 H22 H23 H24
    isplitl [H20]; · iexists _; iexact H20
    iexact H25

end Cert.KernelIdeal.Body

end
-- ==== Proof.KI.Steps.lean ====
import proofs.«181959_g40587440947829_cont_sun_m_1101_20_alg».proof.Proof.KI.RunA
import proofs.«181959_g40587440947829_cont_sun_m_1101_20_alg».proof.Proof.KI.RunB
import proofs.«181959_g40587440947829_cont_sun_m_1101_20_alg».proof.Proof.KI.RunC
import proofs.«181959_g40587440947829_cont_sun_m_1101_20_alg».proof.Proof.KI.RunD
import proofs.«181959_g40587440947829_cont_sun_m_1101_20_alg».proof.Proof.KI.RunE
import proofs.«181959_g40587440947829_cont_sun_m_1101_20_alg».proof.Proof.KI.RunF
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six quantities carried across grid points. -/
structure St (F : FTy → Type) [FloatOps F] where
  g : Vec F S400x32 .f32
  lg : Vec F S1000x2 .f32
  de : Vec F S1x2048 .f32
  m1t : Vec F S64x2048 .f32
  m2t : Vec F S64x2048 .f32
  mn : Vec F S2048x64 .bf16

/-- The whole copy of H as the streaming points write it, tile by tile. -/
def HqFull (c : Dev nD) : Vec F S10000x2048 .bf16 := fun y =>
  k0_pay10 (F := F) (iblk m c 0 ⟨(y 0).val / 400, by have := ValueIdx.idx2_lt0 y; have : cfg0.N = 45 := N_0; omega⟩)
    (ValueIdx.ix2 (⟨(y 0).val % 400, Nat.mod_lt _ (by norm_num)⟩ : Fin 400) (⟨(y 1).val, ValueIdx.idx2_lt1 y⟩ : Fin 2048))

/-- The copy is correct on its first 400·n rows. -/
def HQ (c : Dev nD) (n : ℕ) (hq : Vec F S10000x2048 .bf16) : Prop :=
  ∀ y : S10000x2048.Idx, (y 0).val < 400 * n → hq y = HqFull m c y

/-- The operand blocks at a grid point. -/
abbrev blks (c : Dev nD) (t : Fin cfg0.N) : Blks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

abbrev runA (c : Dev nD) (t : Fin cfg0.N) (hz : t.val = 0) :=
  kernelRunA (F := F) c (grid0.coords t) (bufs t) ((hg1 t).mpr hz) ((hg2 t).mpr (by omega)) (fun h => by have := (hg3 t).mp h; omega) (fun h => by have := (hg4 t).mp h; omega) (fun h => by have := (hg5 t).mp h; omega) (fun h => by have := (hg6 t).mp h; omega) (blks m c t)

def stepA (c : Dev nD) (t : Fin cfg0.N) (hz : t.val = 0) : St F where
  g := VO19.read (Elt F) (VO19.writes (Elt F) VO19.junk (runA m c t hz).1)
  lg := VO20.read (Elt F) (VO20.writes (Elt F) VO20.junk [])
  de := VS1.read (Elt F) (VS1.writes (Elt F) VS1.junk (runA m c t hz).2.2.1)
  m1t := VS2.read (Elt F) (VS2.writes (Elt F) VS2.junk (runA m c t hz).2.2.2.1)
  m2t := VS3.read (Elt F) (VS3.writes (Elt F) VS3.junk (runA m c t hz).2.2.2.2.1)
  mn := VS4.read (Elt F) (VS4.writes (Elt F) VS4.junk [])

abbrev runB (c : Dev nD) (t : Fin cfg0.N) (h0 : t.val ≠ 0) (h25 : t.val < 25) (p : St F) :=
  kernelRunB (F := F) c (grid0.coords t) (bufs t) (fun h => by have := (hg1 t).mp h; omega) ((hg2 t).mpr h25) (fun h => by have := (hg3 t).mp h; omega) (fun h => by have := (hg4 t).mp h; omega) (fun h => by have := (hg5 t).mp h; omega) (fun h => by have := (hg6 t).mp h; omega) (blks m c t) p.de p.m1t

def stepB (c : Dev nD) (t : Fin cfg0.N) (h0 : t.val ≠ 0) (h25 : t.val < 25) (p : St F) : St F where
  g := VO19.read (Elt F) (VO19.writes (Elt F) VO19.junk (runB m c t h0 h25 p).1)
  lg := p.lg
  de := VS1.read (Elt F) (VS1.writes (Elt F) VS1.junk (runB m c t h0 h25 p).2.2.1)
  m1t := VS2.read (Elt F) (VS2.writes (Elt F) VS2.junk (runB m c t h0 h25 p).2.2.2.1)
  m2t := p.m2t
  mn := p.mn

abbrev runC (c : Dev nD) (t : Fin cfg0.N) (e25 : t.val = 25) (p : St F) :=
  kernelRunC (F := F) c (grid0.coords t) (bufs t) (fun h => by have := (hg1 t).mp h; omega) (fun h => by have := (hg2 t).mp h; omega) ((hg3 t).mpr e25) ((hg4 t).mpr (by omega)) (fun h => by have := (hg5 t).mp h; omega) (fun h => by have := (hg6 t).mp h; omega) (blks m c t) (HqFull m c) p.de p.m1t p.m2t

def stepC (c : Dev nD) (t : Fin cfg0.N) (e25 : t.val = 25) (p : St F) : St F where
  g := p.g
  lg := p.lg
  de := p.de
  m1t := p.m1t
  m2t := VS3.read (Elt F) (VS3.writes (Elt F) VS3.junk (runC m c t e25 p).1)
  mn := VS4.read (Elt F) (VS4.writes (Elt F) VS4.junk (runC m c t e25 p).2.1)

abbrev runD (c : Dev nD) (t : Fin cfg0.N) (l25 : 25 < t.val) (h35 : t.val < 35) (p : St F) :=
  kernelRunD (F := F) c (grid0.coords t) (bufs t) (fun h => by have := (hg1 t).mp h; omega) (fun h => by have := (hg2 t).mp h; omega) (fun h => by have := (hg3 t).mp h; omega) ((hg4 t).mpr (by omega)) (fun h => by have := (hg5 t).mp h; omega) (fun h => by have := (hg6 t).mp h; omega) (blks m c t) (HqFull m c) p.m2t p.mn

def stepD (c : Dev nD) (t : Fin cfg0.N) (l25 : 25 < t.val) (h35 : t.val < 35) (p : St F) : St F where
  g := p.g
  lg := p.lg
  de := p.de
  m1t := p.m1t
  m2t := VS3.read (Elt F) (VS3.writes (Elt F) VS3.junk (runD m c t l25 h35 p).1)
  mn := p.mn

abbrev runE (c : Dev nD) (t : Fin cfg0.N) (e35 : t.val = 35) (p : St F) :=
  kernelRunE (F := F) c (grid0.coords t) (bufs t) (fun h => by have := (hg1 t).mp h; omega) (fun h => by have := (hg2 t).mp h; omega) (fun h => by have := (hg3 t).mp h; omega) (fun h => by have := (hg4 t).mp h; omega) ((hg5 t).mpr e35) ((hg6 t).mpr (by omega)) (blks m c t) (HqFull m c) p.de p.m2t

def stepE (c : Dev nD) (t : Fin cfg0.N) (e35 : t.val = 35) (p : St F) : St F where
  g := p.g
  lg := VO20.read (Elt F) (VO20.writes (Elt F) VO20.junk (runE m c t e35 p).1)
  de := p.de
  m1t := p.m1t
  m2t := p.m2t
  mn := VS4.read (Elt F) (VS4.writes (Elt F) VS4.junk (runE m c t e35 p).2.1)

abbrev runF (c : Dev nD) (t : Fin cfg0.N) (l35 : 35 < t.val) (p : St F) :=
  kernelRunF (F := F) c (grid0.coords t) (bufs t) (fun h => by have := (hg1 t).mp h; omega) (fun h => by have := (hg2 t).mp h; omega) (fun h => by have := (hg3 t).mp h; omega) (fun h => by have := (hg4 t).mp h; omega) (fun h => by have := (hg5 t).mp h; omega) ((hg6 t).mpr (by omega)) (blks m c t) (HqFull m c) p.mn

def stepF (c : Dev nD) (t : Fin cfg0.N) (l35 : 35 < t.val) (p : St F) : St F where
  g := p.g
  lg := VO20.read (Elt F) (VO20.writes (Elt F) VO20.junk (runF m c t l35 p).1)
  de := p.de
  m1t := p.m1t
  m2t := p.m2t
  mn := p.mn

abbrev lsA (c : Dev nD) (t : Fin cfg0.N) (hz : t.val = 0) := (runA m c t hz).2.1
abbrev lsB (c : Dev nD) (t : Fin cfg0.N) (h0 : t.val ≠ 0) (h25 : t.val < 25) (p : St F) := (runB m c t h0 h25 p).2.1

/-- The carried quantities after point n, by recursion over the points and the control case of each. -/
def st (c : Dev nD) : (n : ℕ) → n < cfg0.N → St F
  | 0, hn => stepA m c ⟨0, hn⟩ rfl
  | n + 1, hn =>
    if h25 : n + 1 < 25 then stepB m c ⟨n + 1, hn⟩ (Nat.succ_ne_zero n) h25 (st c n (Nat.lt_of_succ_lt hn))
    else if e25 : n + 1 = 25 then stepC m c ⟨n + 1, hn⟩ e25 (st c n (Nat.lt_of_succ_lt hn))
    else if h35 : n + 1 < 35 then stepD m c ⟨n + 1, hn⟩ (show 25 < n + 1 by omega) h35 (st c n (Nat.lt_of_succ_lt hn))
    else if e35 : n + 1 = 35 then stepE m c ⟨n + 1, hn⟩ e35 (st c n (Nat.lt_of_succ_lt hn))
    else stepF m c ⟨n + 1, hn⟩ (show 35 < n + 1 by omega) (st c n (Nat.lt_of_succ_lt hn))

abbrev prev (c : Dev nD) (t : Fin cfg0.N) : St F := st m c (t.val - 1) (Nat.lt_of_le_of_lt (Nat.sub_le _ _) t.isLt)

theorem st_A (c : Dev nD) (t : Fin cfg0.N) (hz : t.val = 0) : st m c t.val t.isLt = stepA m c t hz := by
  obtain ⟨n, hn⟩ := t
  cases n with
  | zero => rfl
  | succ n => exact absurd hz (Nat.succ_ne_zero n)
theorem st_B (c : Dev nD) (t : Fin cfg0.N) (h0 : t.val ≠ 0) (h25 : t.val < 25) : st m c t.val t.isLt = stepB m c t h0 h25 (prev m c t) := by
  obtain ⟨n, hn⟩ := t
  cases n with
  | zero => exact absurd rfl h0
  | succ n => exact (dif_pos h25)
theorem st_C (c : Dev nD) (t : Fin cfg0.N) (e25 : t.val = 25) : st m c t.val t.isLt = stepC m c t e25 (prev m c t) := by
  obtain ⟨n, hn⟩ := t
  cases n with
  | zero => exact absurd e25 (by show ¬ (0 : ℕ) = 25; decide)
  | succ n => exact (dif_neg (by dsimp only at e25; omega)).trans (dif_pos e25)
theorem st_D (c : Dev nD) (t : Fin cfg0.N) (l25 : 25 < t.val) (h35 : t.val < 35) : st m c t.val t.isLt = stepD m c t l25 h35 (prev m c t) := by
  obtain ⟨n, hn⟩ := t
  cases n with
  | zero => exact absurd l25 (Nat.not_lt_zero _)
  | succ n => exact (dif_neg (by dsimp only at l25; omega)).trans ((dif_neg (by dsimp only at l25; omega)).trans (dif_pos h35))
theorem st_E (c : Dev nD) (t : Fin cfg0.N) (e35 : t.val = 35) : st m c t.val t.isLt = stepE m c t e35 (prev m c t) := by
  obtain ⟨n, hn⟩ := t
  cases n with
  | zero => exact absurd e35 (by show ¬ (0 : ℕ) = 35; decide)
  | succ n => exact (dif_neg (by dsimp only at e35; omega)).trans ((dif_neg (by dsimp only at e35; omega)).trans ((dif_neg (by dsimp only at e35; omega)).trans (dif_pos e35)))
theorem st_F (c : Dev nD) (t : Fin cfg0.N) (l35 : 35 < t.val) : st m c t.val t.isLt = stepF m c t l35 (prev m c t) := by
  obtain ⟨n, hn⟩ := t
  cases n with
  | zero => exact absurd l35 (Nat.not_lt_zero _)
  | succ n => exact (dif_neg (by dsimp only at l35; omega)).trans ((dif_neg (by dsimp only at l35; omega)).trans ((dif_neg (by dsimp only at l35; omega)).trans ((dif_neg (by dsimp only at l35; omega)).trans rfl)))

end Cert.KernelIdeal.Body

end
-- ==== Proof.KI.Covers.lean ====
import proofs.«181959_g40587440947829_cont_sun_m_1101_20_alg».proof.Proof.KI.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coverA_L19 (c : Dev nD) (t : Fin cfg0.N) (hz : t.val = 0) (y : S400x32.Idx) :
    ∃ pc ∈ (runA m c t hz).1, y ∈ pc.1.set :=
  View.cover_of_tiledL (runA m c t hz).1 S400x32.size (by sl_kernel_rfl) y
theorem coverA_LS1 (c : Dev nD) (t : Fin cfg0.N) (hz : t.val = 0) (y : S1x2048.Idx) :
    ∃ pc ∈ (runA m c t hz).2.2.1, y ∈ pc.1.set :=
  View.cover_of_tiledL (runA m c t hz).2.2.1 S1x2048.size (by sl_kernel_rfl) y
theorem coverA_LS2 (c : Dev nD) (t : Fin cfg0.N) (hz : t.val = 0) (y : S64x2048.Idx) :
    ∃ pc ∈ (runA m c t hz).2.2.2.1, y ∈ pc.1.set :=
  View.cover_of_tiledL (runA m c t hz).2.2.2.1 S64x2048.size (by sl_kernel_rfl) y
theorem coverA_LS3 (c : Dev nD) (t : Fin cfg0.N) (hz : t.val = 0) (y : S64x2048.Idx) :
    ∃ pc ∈ (runA m c t hz).2.2.2.2.1, y ∈ pc.1.set :=
  View.cover_of_tiledL (runA m c t hz).2.2.2.2.1 S64x2048.size (by sl_kernel_rfl) y
theorem coverB_L19 (c : Dev nD) (t : Fin cfg0.N) (h0 : t.val ≠ 0) (h25 : t.val < 25) (p : St F) (y : S400x32.Idx) :
    ∃ pc ∈ (runB m c t h0 h25 p).1, y ∈ pc.1.set :=
  View.cover_of_tiledL (runB m c t h0 h25 p).1 S400x32.size (by sl_kernel_rfl) y
theorem coverB_LS1 (c : Dev nD) (t : Fin cfg0.N) (h0 : t.val ≠ 0) (h25 : t.val < 25) (p : St F) (y : S1x2048.Idx) :
    ∃ pc ∈ (runB m c t h0 h25 p).2.2.1, y ∈ pc.1.set :=
  View.cover_of_tiledL (runB m c t h0 h25 p).2.2.1 S1x2048.size (by sl_kernel_rfl) y
theorem coverB_LS2 (c : Dev nD) (t : Fin cfg0.N) (h0 : t.val ≠ 0) (h25 : t.val < 25) (p : St F) (y : S64x2048.Idx) :
    ∃ pc ∈ (runB m c t h0 h25 p).2.2.2.1, y ∈ pc.1.set :=
  View.cover_of_tiledL (runB m c t h0 h25 p).2.2.2.1 S64x2048.size (by sl_kernel_rfl) y
theorem coverC_LS3 (c : Dev nD) (t : Fin cfg0.N) (e25 : t.val = 25) (p : St F) (y : S64x2048.Idx) :
    ∃ pc ∈ (runC m c t e25 p).1, y ∈ pc.1.set :=
  View.cover_of_tiledL (runC m c t e25 p).1 S64x2048.size (by sl_kernel_rfl) y
theorem coverC_LS4 (c : Dev nD) (t : Fin cfg0.N) (e25 : t.val = 25) (p : St F) (y : S2048x64.Idx) :
    ∃ pc ∈ (runC m c t e25 p).2.1, y ∈ pc.1.set :=
  View.cover_of_tiledL (runC m c t e25 p).2.1 S2048x64.size (by sl_kernel_rfl) y
theorem coverD_LS3 (c : Dev nD) (t : Fin cfg0.N) (l25 : 25 < t.val) (h35 : t.val < 35) (p : St F) (y : S64x2048.Idx) :
    ∃ pc ∈ (runD m c t l25 h35 p).1, y ∈ pc.1.set :=
  View.cover_of_tiledL (runD m c t l25 h35 p).1 S64x2048.size (by sl_kernel_rfl) y
theorem coverE_L20 (c : Dev nD) (t : Fin cfg0.N) (e35 : t.val = 35) (p : St F) (y : S1000x2.Idx) :
    ∃ pc ∈ (runE m c t e35 p).1, y ∈ pc.1.set :=
  View.cover_of_tiledL (runE m c t e35 p).1 S1000x2.size (by sl_kernel_rfl) y
theorem coverE_LS4 (c : Dev nD) (t : Fin cfg0.N) (e35 : t.val = 35) (p : St F) (y : S2048x64.Idx) :
    ∃ pc ∈ (runE m c t e35 p).2.1, y ∈ pc.1.set :=
  View.cover_of_tiledL (runE m c t e35 p).2.1 S2048x64.size (by sl_kernel_rfl) y
theorem coverF_L20 (c : Dev nD) (t : Fin cfg0.N) (l35 : 35 < t.val) (p : St F) (y : S1000x2.Idx) :
    ∃ pc ∈ (runF m c t l35 p).1, y ∈ pc.1.set :=
  View.cover_of_tiledL (runF m c t l35 p).1 S1000x2.size (by sl_kernel_rfl) y

end Cert.KernelIdeal.Body

end
-- ==== Proof.KI.Pieces.lean ====
import proofs.«181959_g40587440947829_cont_sun_m_1101_20_alg».proof.Proof.KI.Covers
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeroOffs : (![0, 0] : Fin 2 → Nat) = fun _ => 0 := funext fun a => by fin_cases a <;> rfl

theorem stepA_de (c : Dev nD) (t : Fin cfg0.N) (hz : t.val = 0) :
    (stepA m c t hz).de = k0_pay12 (iblk m c 0 t) k0_pay1 := by
  unfold stepA
  dsimp only
  rw [View.read_writes_eq_canon _ _ _ (coverA_LS1 m c t hz)]
  unfold runA kernelRunA bufs blks
  dsimp only
  sl_unfold_words
  rw [View.canon_cons_unit_zero (S := S1x2048) zeroOffs, View.readCov_unit_zero (S := S1x2048) _ zeroOffs]
  simp only [View.readAt_eq_ld, Memref.IsWhole.read_unread, View.ld_unit_zero (S := S400x2048) zeroOffs, shapeCast_self]

theorem stepA_m1t (c : Dev nD) (t : Fin cfg0.N) (hz : t.val = 0) :
    (stepA m c t hz).m1t = k0_pay4 k0_pay2 (k0_pay17 (k0_pay9 (iblk m c 0 t)) (k0_pay11 (iblk m c 0 t) (iblk m c 3 t)) (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t) (iblk m c 13 t) (iblk m c 14 t)) := by
  unfold stepA
  dsimp only
  rw [View.read_writes_eq_canon _ _ _ (coverA_LS2 m c t hz)]
  unfold runA kernelRunA bufs blks
  dsimp only
  sl_unfold_words
  rw [View.canon_cons_unit_zero (S := S64x2048) zeroOffs, View.readCov_unit_zero (S := S64x2048) _ zeroOffs]
  simp only [View.readAt_eq_ld, Memref.IsWhole.read_unread, View.ld_unit_zero (S := S400x2048) zeroOffs, View.ld_unit_zero (S := S400x128) zeroOffs, View.ld_unit_zero (S := S400x16) zeroOffs, View.ld_unit_zero (S := S2048x1) zeroOffs, View.ld_unit_zero (S := S128x32) zeroOffs, View.ld_unit_zero (S := S1x32) zeroOffs, View.ld_unit_zero (S := S16x32) zeroOffs, View.ld_unit_zero (S := S64x64) zeroOffs, View.ld_unit_zero (S := S1x64) zeroOffs, View.ld_unit_zero (S := S64x32) zeroOffs, View.ld_unit_zero (S := S32x64) zeroOffs, shapeCast_self]

theorem stepA_m2t (c : Dev nD) (t : Fin cfg0.N) (hz : t.val = 0) :
    (stepA m c t hz).m2t = k0_pay3 := by
  unfold stepA
  dsimp only
  rw [View.read_writes_eq_canon _ _ _ (coverA_LS3 m c t hz)]
  unfold runA kernelRunA bufs blks
  dsimp only
  sl_unfold_words
  rw [View.canon_unit_zero zeroOffs]

theorem stepA_g (c : Dev nD) (t : Fin cfg0.N) (hz : t.val = 0) :
    (stepA m c t hz).g = k0_pay16 (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t) := by
  unfold stepA
  dsimp only
  rw [View.read_writes_eq_canon _ _ _ (coverA_L19 m c t hz)]
  unfold runA kernelRunA bufs blks
  dsimp only
  sl_unfold_words
  rw [View.canon_unit_zero zeroOffs]
  simp only [View.readAt_eq_ld, Memref.IsWhole.read_unread, View.ld_unit_zero (S := S400x128) zeroOffs, View.ld_unit_zero (S := S400x16) zeroOffs, View.ld_unit_zero (S := S128x32) zeroOffs, View.ld_unit_zero (S := S1x32) zeroOffs, View.ld_unit_zero (S := S16x32) zeroOffs, View.ld_unit_zero (S := S64x64) zeroOffs, View.ld_unit_zero (S := S1x64) zeroOffs, View.ld_unit_zero (S := S64x32) zeroOffs, shapeCast_self]

theorem stepB_de (c : Dev nD) (t : Fin cfg0.N) (h0 : t.val ≠ 0) (h25 : t.val < 25) (p : St F) :
    (stepB m c t h0 h25 p).de = k0_pay12 (iblk m c 0 t) p.de := by
  unfold stepB
  dsimp only
  rw [View.read_writes_eq_canon _ _ _ (coverB_LS1 m c t h0 h25 p)]
  unfold runB kernelRunB bufs blks
  dsimp only
  sl_unfold_words
  rw [View.canon_unit_zero zeroOffs]
  simp only [View.readAt_eq_ld, Memref.IsWhole.read_unread, (Memref.isWhole_whole cc0_scratch1).read_unread, View.ld_unit_zero (S := S400x2048) zeroOffs, View.ld_unit_zero (S := S1x2048) zeroOffs, shapeCast_self]

theorem stepB_m1t (c : Dev nD) (t : Fin cfg0.N) (h0 : t.val ≠ 0) (h25 : t.val < 25) (p : St F) :
    (stepB m c t h0 h25 p).m1t = k0_pay4 p.m1t (k0_pay17 (k0_pay9 (iblk m c 0 t)) (k0_pay11 (iblk m c 0 t) (iblk m c 3 t)) (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t) (iblk m c 13 t) (iblk m c 14 t)) := by
  unfold stepB
  dsimp only
  rw [View.read_writes_eq_canon _ _ _ (coverB_LS2 m c t h0 h25 p)]
  unfold runB kernelRunB bufs blks
  dsimp only
  sl_unfold_words
  rw [View.canon_unit_zero zeroOffs]
  simp only [View.readAt_eq_ld, Memref.IsWhole.read_unread, (Memref.isWhole_whole cc0_scratch2).read_unread, View.ld_unit_zero (S := S400x2048) zeroOffs, View.ld_unit_zero (S := S400x128) zeroOffs, View.ld_unit_zero (S := S400x16) zeroOffs, View.ld_unit_zero (S := S2048x1) zeroOffs, View.ld_unit_zero (S := S128x32) zeroOffs, View.ld_unit_zero (S := S1x32) zeroOffs, View.ld_unit_zero (S := S16x32) zeroOffs, View.ld_unit_zero (S := S64x64) zeroOffs, View.ld_unit_zero (S := S1x64) zeroOffs, View.ld_unit_zero (S := S64x32) zeroOffs, View.ld_unit_zero (S := S32x64) zeroOffs, View.ld_unit_zero (S := S64x2048) zeroOffs, shapeCast_self]

theorem stepB_g (c : Dev nD) (t : Fin cfg0.N) (h0 : t.val ≠ 0) (h25 : t.val < 25) (p : St F) :
    (stepB m c t h0 h25 p).g = k0_pay16 (k0_pay13 (iblk m c 1 t) (iblk m c 5 t) (iblk m c 6 t)) (k0_pay14 (iblk m c 2 t) (iblk m c 7 t)) (iblk m c 8 t) (iblk m c 9 t) (iblk m c 10 t) (iblk m c 11 t) (iblk m c 12 t) := by
  unfold stepB
  dsimp only
  rw [View.read_writes_eq_canon _ _ _ (coverB_L19 m c t h0 h25 p)]
  unfold runB kernelRunB bufs blks
  dsimp only
  sl_unfold_words
  rw [View.canon_unit_zero zeroOffs]
  simp only [View.readAt_eq_ld, Memref.IsWhole.read_unread, View.ld_unit_zero (S := S400x128) zeroOffs, View.ld_unit_zero (S := S400x16) zeroOffs, View.ld_unit_zero (S := S128x32) zeroOffs, View.ld_unit_zero (S := S1x32) zeroOffs, View.ld_unit_zero (S := S16x32) zeroOffs, View.ld_unit_zero (S := S64x64) zeroOffs, View.ld_unit_zero (S := S1x64) zeroOffs, View.ld_unit_zero (S := S64x32) zeroOffs, shapeCast_self]

def slab (c : Dev nD) (t : Fin cfg0.N) : Vec F S1000x2048 .bf16 :=
  if h : 25 ≤ t.val ∧ t.val < 35 then
    View.ld (HqFull m c) (Rect.unit (s := S10000x2048) (k0_off2 (grid0.coords t)) S1000x2048.size (k0_off2_inb (grid0.coords t) ((hg4 t).mpr h)))
  else View.ld (HqFull m c) (Rect.unit (s := S10000x2048) ![0, 0] S1000x2048.size (by decide))

def slab' (c : Dev nD) (t : Fin cfg0.N) : Vec F S1000x2048 .bf16 :=
  if h : 35 ≤ t.val then
    View.ld (HqFull m c) (Rect.unit (s := S10000x2048) (k0_off3 (grid0.coords t)) S1000x2048.size (k0_off3_inb (grid0.coords t) ((hg6 t).mpr h)))
  else View.ld (HqFull m c) (Rect.unit (s := S10000x2048) ![0, 0] S1000x2048.size (by decide))

theorem slab_at (c : Dev nD) (t : Fin cfg0.N) (h25 : 25 ≤ t.val) (h35 : t.val < 35) (r : Fin 1000) (j : Fin 2048) :
    slab m c t (ValueIdx.ix2 r j) = HqFull m c (ValueIdx.ix2 (⟨1000 * (t.val - 25) + r.val, by omega⟩ : Fin 10000) j) := by
  unfold slab
  rw [dif_pos ⟨h25, h35⟩]
  show HqFull m c ((Rect.unit (s := S10000x2048) (k0_off2 (grid0.coords t)) S1000x2048.size _).idx (ValueIdx.ix2 r j)) = _
  congr 1
  funext a
  apply Fin.ext
  match a with
  | ⟨0, _⟩ => show k0_off2 (grid0.coords t) 0 + 1 * r.val = 1000 * (t.val - 25) + r.val
              rw [off2_eq t h25 h35]; show 1000 * (t.val - 25) + 1 * r.val = _; omega
  | ⟨1, _⟩ => show k0_off2 (grid0.coords t) 1 + 1 * j.val = j.val
              rw [off2_eq t h25 h35]; show 0 + 1 * j.val = _; omega

theorem slab'_at (c : Dev nD) (t : Fin cfg0.N) (h35 : 35 ≤ t.val) (r : Fin 1000) (j : Fin 2048) :
    slab' m c t (ValueIdx.ix2 r j) = HqFull m c (ValueIdx.ix2 (⟨1000 * (t.val - 35) + r.val, by have := t.isLt; have : cfg0.N = 45 := N_0; omega⟩ : Fin 10000) j) := by
  unfold slab'
  rw [dif_pos h35]
  show HqFull m c ((Rect.unit (s := S10000x2048) (k0_off3 (grid0.coords t)) S1000x2048.size _).idx (ValueIdx.ix2 r j)) = _
  congr 1
  funext a
  apply Fin.ext
  match a with
  | ⟨0, _⟩ => show k0_off3 (grid0.coords t) 0 + 1 * r.val = 1000 * (t.val - 35) + r.val
              rw [off3_eq t h35]; show 1000 * (t.val - 35) + 1 * r.val = _; omega
  | ⟨1, _⟩ => show k0_off3 (grid0.coords t) 1 + 1 * j.val = j.val
              rw [off3_eq t h35]; show 0 + 1 * j.val = _; omega

theorem stepC_mn (c : Dev nD) (t : Fin cfg0.N) (e25 : t.val = 25) (p : St F) :
    (stepC m c t e25 p).mn = k0_pay5 (iblk m c 4 t) p.de p.m1t := by
  unfold stepC
  dsimp only
  rw [View.read_writes_eq_canon _ _ _ (coverC_LS4 m c t e25 p)]
  unfold runC kernelRunC bufs blks
  dsimp only
  sl_unfold_run_names
  rw [View.canon_unit_zero zeroOffs]
  simp only [View.readAt_eq_ld, Memref.IsWhole.read_unread, (Memref.isWhole_whole cc0_scratch1).read_unread, (Memref.isWhole_whole cc0_scratch2).read_unread, View.ld_unit_zero (S := S1x2048) zeroOffs, View.ld_unit_zero (S := S64x2048) zeroOffs, shapeCast_self]

theorem stepC_m2t (c : Dev nD) (t : Fin cfg0.N) (e25 : t.val = 25) (p : St F) :
    (stepC m c t e25 p).m2t = k0_pay6 (slab m c t) (iblk m c 3 t) (k0_pay5 (iblk m c 4 t) p.de p.m1t) (iblk m c 15 t) (iblk m c 16 t) p.m2t := by
  unfold stepC
  dsimp only
  rw [View.read_writes_eq_canon _ _ _ (coverC_LS3 m c t e25 p)]
  unfold runC kernelRunC bufs blks
  dsimp only
  sl_unfold_run_names
  rw [View.canon_unit_zero zeroOffs]
  simp only [View.readAt_eq_ld, Memref.IsWhole.read_unread, (Memref.isWhole_whole cc0_scratch0).read_unread, (Memref.isWhole_whole cc0_scratch1).read_unread, (Memref.isWhole_whole cc0_scratch2).read_unread, (Memref.isWhole_whole cc0_scratch3).read_unread, View.readCov_unit_zero (S := S2048x64) _ zeroOffs, View.ld_unit_zero (S := S2048x1) zeroOffs, View.ld_unit_zero (S := S1x2048) zeroOffs, View.ld_unit_zero (S := S64x64) zeroOffs, View.ld_unit_zero (S := S1x64) zeroOffs, View.ld_unit_zero (S := S64x2048) zeroOffs, shapeCast_self]
  unfold slab
  rw [dif_pos ⟨by omega, by omega⟩]

theorem stepD_m2t (c : Dev nD) (t : Fin cfg0.N) (l25 : 25 < t.val) (h35 : t.val < 35) (p : St F) :
    (stepD m c t l25 h35 p).m2t = k0_pay6 (slab m c t) (iblk m c 3 t) p.mn (iblk m c 15 t) (iblk m c 16 t) p.m2t := by
  unfold stepD
  dsimp only
  rw [View.read_writes_eq_canon _ _ _ (coverD_LS3 m c t l25 h35 p)]
  unfold runD kernelRunD bufs blks
  dsimp only
  sl_unfold_run_names
  rw [View.canon_unit_zero zeroOffs]
  simp only [View.readAt_eq_ld, Memref.IsWhole.read_unread, (Memref.isWhole_whole cc0_scratch0).read_unread, (Memref.isWhole_whole cc0_scratch3).read_unread, (Memref.isWhole_whole cc0_scratch4).read_unread, View.ld_unit_zero (S := S2048x1) zeroOffs, View.ld_unit_zero (S := S64x64) zeroOffs, View.ld_unit_zero (S := S1x64) zeroOffs, View.ld_unit_zero (S := S64x2048) zeroOffs, View.ld_unit_zero (S := S2048x64) zeroOffs, shapeCast_self]
  unfold slab
  rw [dif_pos ⟨by omega, h35⟩]

theorem stepE_mn (c : Dev nD) (t : Fin cfg0.N) (e35 : t.val = 35) (p : St F) :
    (stepE m c t e35 p).mn = k0_pay7 (iblk m c 4 t) p.de p.m2t := by
  unfold stepE
  dsimp only
  rw [View.read_writes_eq_canon _ _ _ (coverE_LS4 m c t e35 p)]
  unfold runE kernelRunE bufs blks
  dsimp only
  sl_unfold_run_names
  rw [View.canon_unit_zero zeroOffs]
  simp only [View.readAt_eq_ld, Memref.IsWhole.read_unread, (Memref.isWhole_whole cc0_scratch1).read_unread, (Memref.isWhole_whole cc0_scratch3).read_unread, View.ld_unit_zero (S := S1x2048) zeroOffs, View.ld_unit_zero (S := S64x2048) zeroOffs, shapeCast_self]

theorem stepE_lg (c : Dev nD) (t : Fin cfg0.N) (e35 : t.val = 35) (p : St F) :
    (stepE m c t e35 p).lg = k0_pay8 (slab' m c t) (iblk m c 3 t) (k0_pay7 (iblk m c 4 t) p.de p.m2t) (iblk m c 17 t) (iblk m c 18 t) := by
  unfold stepE
  dsimp only
  rw [View.read_writes_eq_canon _ _ _ (coverE_L20 m c t e35 p)]
  unfold runE kernelRunE bufs blks
  dsimp only
  sl_unfold_run_names
  rw [View.canon_unit_zero zeroOffs]
  simp only [View.readAt_eq_ld, Memref.IsWhole.read_unread, (Memref.isWhole_whole cc0_scratch0).read_unread, (Memref.isWhole_whole cc0_scratch1).read_unread, (Memref.isWhole_whole cc0_scratch3).read_unread, View.readCov_unit_zero (S := S2048x64) _ zeroOffs, View.ld_unit_zero (S := S2048x1) zeroOffs, View.ld_unit_zero (S := S1x2048) zeroOffs, View.ld_unit_zero (S := S64x2) zeroOffs, View.ld_unit_zero (S := S1x2) zeroOffs, View.ld_unit_zero (S := S64x2048) zeroOffs, shapeCast_self]
  unfold slab'
  rw [dif_pos (by omega)]

theorem stepF_lg (c : Dev nD) (t : Fin cfg0.N) (l35 : 35 < t.val) (p : St F) :
    (stepF m c t l35 p).lg = k0_pay8 (slab' m c t) (iblk m c 3 t) p.mn (iblk m c 17 t) (iblk m c 18 t) := by
  unfold stepF
  dsimp only
  rw [View.read_writes_eq_canon _ _ _ (coverF_L20 m c t l35 p)]
  unfold runF kernelRunF bufs blks
  dsimp only
  sl_unfold_run_names
  rw [View.canon_unit_zero zeroOffs]
  simp only [View.readAt_eq_ld, Memref.IsWhole.read_unread, (Memref.isWhole_whole cc0_scratch0).read_unread, (Memref.isWhole_whole cc0_scratch4).read_unread, View.ld_unit_zero (S := S2048x1) zeroOffs, View.ld_unit_zero (S := S64x2) zeroOffs, View.ld_unit_zero (S := S1x2) zeroOffs, View.ld_unit_zero (S := S2048x64) zeroOffs, shapeCast_self]
  unfold slab'
  rw [dif_pos (by omega)]

end Cert.KernelIdeal.Body

end
-- ==== Proof.Spec.lean ====
import Idealize.ShloMosaic.PureOps.Ideal
import Idealize.ShloMosaic.Lib.ValueIdx

noncomputable section

namespace Cert.Spec

open Idealize.ShloMosaic

/-- The small positive constant added to both degrees, as its binary value. -/
def eps : EReal := Ideal.ofBits .f32 0x3089705F#32

/-- The eighteen arguments as functions of their coordinates. -/
structure Inputs where
  x : Fin 10000 → Fin 128 → EReal
  z : Fin 10000 → Fin 16 → EReal
  H : Fin 10000 → Fin 2048 → EReal
  w : Fin 2048 → EReal
  psiW : Fin 128 → Fin 32 → EReal
  psib : Fin 32 → EReal
  phiW : Fin 16 → Fin 32 → EReal
  phib : Fin 32 → EReal
  g1W : Fin 64 → Fin 64 → EReal
  g1b : Fin 64 → EReal
  g2W : Fin 64 → Fin 32 → EReal
  g2b : Fin 32 → EReal
  c1W : Fin 32 → Fin 64 → EReal
  c1b : Fin 64 → EReal
  c2W : Fin 64 → Fin 64 → EReal
  c2b : Fin 64 → EReal
  hdW : Fin 64 → Fin 2 → EReal
  hdb : Fin 2 → EReal

variable (I : Inputs)

def x1 (i : Fin 10000) (d : Fin 32) : EReal := (∑ k : Fin 128, I.x i k * I.psiW k d) + I.psib d

def z1 (i : Fin 10000) (d : Fin 32) : EReal := (∑ k : Fin 16, I.z i k * I.phiW k d) + I.phib d

def cat (i : Fin 10000) (e : Fin 64) : EReal :=
  if h : e.val < 32 then x1 I i ⟨e.val, h⟩ else z1 I i ⟨e.val - 32, by omega⟩

def gh (i : Fin 10000) (e : Fin 64) : EReal := max ((∑ k : Fin 64, cat I i k * I.g1W k e) + I.g1b e) 0

/-- The gate: a logistic of a two-layer map of the concatenated projections. -/
def gate (i : Fin 10000) (d : Fin 32) : EReal := Ideal.logistic ((∑ k : Fin 64, gh I i k * I.g2W k d) + I.g2b d)

/-- The gated mix of the two projections. -/
def fused (i : Fin 10000) (d : Fin 32) : EReal := gate I i d * z1 I i d + (1 - gate I i d) * x1 I i d

def xc1 (i : Fin 10000) (e : Fin 64) : EReal := (∑ k : Fin 32, fused I i k * I.c1W k e) + I.c1b e

def dv (i : Fin 10000) : EReal := ∑ j : Fin 2048, I.H i j * I.w j

/-- The node scaling: the inverse square root of the weighted degree. -/
def s (i : Fin 10000) : EReal := Ideal.rsqrt (dv I i + eps)

def de (j : Fin 2048) : EReal := ∑ i : Fin 10000, I.H i j

/-- The hyperedge scaling: weight over degree. -/
def se (j : Fin 2048) : EReal := Ideal.div (I.w j) (de I j + eps)

def m1 (j : Fin 2048) (e : Fin 64) : EReal := ∑ i : Fin 10000, I.H i j * (xc1 I i e * s I i)

/-- First layer, nodes to hyperedges: the scaled features summed over the incidence column, then normalised. -/
def mn1 (j : Fin 2048) (e : Fin 64) : EReal := m1 I j e * se I j

/-- First layer, hyperedges back to nodes, scaled and clipped at zero. -/
def h1 (i : Fin 10000) (e : Fin 64) : EReal := max ((∑ j : Fin 2048, I.H i j * mn1 I j e) * s I i) 0

def x2 (i : Fin 10000) (e : Fin 64) : EReal := (∑ k : Fin 64, h1 I i k * I.c2W k e) + I.c2b e

def m2 (j : Fin 2048) (e : Fin 64) : EReal := ∑ i : Fin 10000, I.H i j * (x2 I i e * s I i)

/-- Second layer, nodes to hyperedges. -/
def mn2 (j : Fin 2048) (e : Fin 64) : EReal := m2 I j e * se I j

/-- Second layer, hyperedges back to nodes. -/
def h2 (i : Fin 10000) (e : Fin 64) : EReal := max ((∑ j : Fin 2048, I.H i j * mn2 I j e) * s I i) 0

/-- The linear head on the second layer's features. -/
def logits (i : Fin 10000) (o : Fin 2) : EReal := (∑ k : Fin 64, h2 I i k * I.hdW k o) + I.hdb o

def inputsOf
    (a0 : (⟨2, ![10000, 128]⟩ : Shape).Idx → EReal) (a1 : (⟨2, ![10000, 16]⟩ : Shape).Idx → EReal)
    (a2 : (⟨2, ![10000, 2048]⟩ : Shape).Idx → EReal) (a3 : (⟨1, ![2048]⟩ : Shape).Idx → EReal)
    (a4 : (⟨2, ![128, 32]⟩ : Shape).Idx → EReal) (a5 : (⟨1, ![32]⟩ : Shape).Idx → EReal)
    (a6 : (⟨2, ![16, 32]⟩ : Shape).Idx → EReal) (a7 : (⟨1, ![32]⟩ : Shape).Idx → EReal)
    (a8 : (⟨2, ![64, 64]⟩ : Shape).Idx → EReal) (a9 : (⟨1, ![64]⟩ : Shape).Idx → EReal)
    (a10 : (⟨2, ![64, 32]⟩ : Shape).Idx → EReal) (a11 : (⟨1, ![32]⟩ : Shape).Idx → EReal)
    (a12 : (⟨2, ![32, 64]⟩ : Shape).Idx → EReal) (a13 : (⟨1, ![64]⟩ : Shape).Idx → EReal)
    (a14 : (⟨2, ![64, 64]⟩ : Shape).Idx → EReal) (a15 : (⟨1, ![64]⟩ : Shape).Idx → EReal)
    (a16 : (⟨2, ![64, 2]⟩ : Shape).Idx → EReal) (a17 : (⟨1, ![2]⟩ : Shape).Idx → EReal) : Inputs where
  x i k := a0 (ValueIdx.ix2 i k)
  z i k := a1 (ValueIdx.ix2 i k)
  H i j := a2 (ValueIdx.ix2 i j)
  w j := a3 (ValueIdx.ix1 j)
  psiW k d := a4 (ValueIdx.ix2 k d)
  psib d := a5 (ValueIdx.ix1 d)
  phiW k d := a6 (ValueIdx.ix2 k d)
  phib d := a7 (ValueIdx.ix1 d)
  g1W k e := a8 (ValueIdx.ix2 k e)
  g1b e := a9 (ValueIdx.ix1 e)
  g2W k d := a10 (ValueIdx.ix2 k d)
  g2b d := a11 (ValueIdx.ix1 d)
  c1W k e := a12 (ValueIdx.ix2 k e)
  c1b e := a13 (ValueIdx.ix1 e)
  c2W k e := a14 (ValueIdx.ix2 k e)
  c2b e := a15 (ValueIdx.ix1 e)
  hdW k o := a16 (ValueIdx.ix2 k o)
  hdb o := a17 (ValueIdx.ix1 o)

def logitsArr (I : Inputs) : (⟨2, ![10000, 2]⟩ : Shape).Idx → EReal := fun j => logits I (j 0) (j 1)

def gateArr (I : Inputs) : (⟨2, ![10000, 32]⟩ : Shape).Idx → EReal := fun j => gate I (j 0) (j 1)

end Cert.Spec

end
-- ==== Proof.KI.Blocks.lean ====
import proofs.«181959_g40587440947829_cont_sun_m_1101_20_alg».proof.Proof.Gen.KernelIdeal.Frame
import proofs.«181959_g40587440947829_cont_sun_m_1101_20_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.ValueIdx

variable (m : (ℓ : Loc nD τ sig) → Buf (Elt Ideal) ℓ) (c : Dev nD)

def argsOf : Cert.Spec.Inputs :=
  Cert.Spec.inputsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))
    (m ((c.tc : Thread nD τ).loc main_arg12)) (m ((c.tc : Thread nD τ).loc main_arg13))
    (m ((c.tc : Thread nD τ).loc main_arg14)) (m ((c.tc : Thread nD τ).loc main_arg15))
    (m ((c.tc : Thread nD τ).loc main_arg16)) (m ((c.tc : Thread nD τ).loc main_arg17))

theorem blk0 (t : Fin cfg0.N) (h : t.val < 25) (r : Fin 400) (j : Fin 2048) :
    (iblk m c 0 t : Vec Ideal S400x2048 .f32) (ix2 r j) = (argsOf m c).H ⟨400 * t.val + r.val, by omega⟩ j := by
  have hi : ∀ t : Fin cfg0.N, t.val < 25 → win0_0.index t (0 : Fin 2) = t.val ∧ win0_0.index t (1 : Fin 2) = 0 :=
    (by decide +kernel : ∀ t : Fin grid0.N, _)
  obtain ⟨e0, e1⟩ := hi t h
  unfold iblk
  rw [View.read_apply]
  show V m c main_arg2 (((cfg0.win 0).blk t).view.emb (ix2 r j))
    = m ((c.tc : Thread nD τ).loc main_arg2) (ix2 (⟨400 * t.val + r.val, by omega⟩ : Fin 10000) j)
  rw [V_main_arg2]
  congr 1
  funext a
  apply Fin.ext
  match a with
  | ⟨0, _⟩ => show win0_0.index t (0 : Fin 2) * 400 + 1 * r.val = 400 * t.val + r.val; omega
  | ⟨1, _⟩ => show win0_0.index t (1 : Fin 2) * 2048 + 1 * j.val = j.val; omega

theorem blk1 (t : Fin cfg0.N) (h : t.val < 25) (r : Fin 400) (k : Fin 128) :
    (iblk m c 1 t : Vec Ideal S400x128 .f32) (ix2 r k) = (argsOf m c).x ⟨400 * t.val + r.val, by omega⟩ k := by
  have hi : ∀ t : Fin cfg0.N, t.val < 25 → win0_1.index t (0 : Fin 2) = t.val ∧ win0_1.index t (1 : Fin 2) = 0 :=
    (by decide +kernel : ∀ t : Fin grid0.N, _)
  obtain ⟨e0, e1⟩ := hi t h
  unfold iblk
  rw [View.read_apply]
  show V m c main_arg0 (((cfg0.win 1).blk t).view.emb (ix2 r k))
    = m ((c.tc : Thread nD τ).loc main_arg0) (ix2 (⟨400 * t.val + r.val, by omega⟩ : Fin 10000) k)
  rw [V_main_arg0]
  congr 1
  funext a
  apply Fin.ext
  match a with
  | ⟨0, _⟩ => show win0_1.index t (0 : Fin 2) * 400 + 1 * r.val = 400 * t.val + r.val; omega
  | ⟨1, _⟩ => show win0_1.index t (1 : Fin 2) * 128 + 1 * k.val = k.val; omega

theorem blk2 (t : Fin cfg0.N) (h : t.val < 25) (r : Fin 400) (k : Fin 16) :
    (iblk m c 2 t : Vec Ideal S400x16 .f32) (ix2 r k) = (argsOf m c).z ⟨400 * t.val + r.val, by omega⟩ k := by
  have hi : ∀ t : Fin cfg0.N, t.val < 25 → win0_2.index t (0 : Fin 2) = t.val ∧ win0_2.index t (1 : Fin 2) = 0 :=
    (by decide +kernel : ∀ t : Fin grid0.N, _)
  obtain ⟨e0, e1⟩ := hi t h
  unfold iblk
  rw [View.read_apply]
  show V m c main_arg1 (((cfg0.win 2).blk t).view.emb (ix2 r k))
    = m ((c.tc : Thread nD τ).loc main_arg1) (ix2 (⟨400 * t.val + r.val, by omega⟩ : Fin 10000) k)
  rw [V_main_arg1]
  congr 1
  funext a
  apply Fin.ext
  match a with
  | ⟨0, _⟩ => show win0_2.index t (0 : Fin 2) * 400 + 1 * r.val = 400 * t.val + r.val; omega
  | ⟨1, _⟩ => show win0_2.index t (1 : Fin 2) * 16 + 1 * k.val = k.val; omega

theorem V_main_v1 : (V m c main_v1 : S2048x1.Idx → EReal)
    = shapeCast S2048x1 (m ((c.tc : Thread nD τ).loc main_arg3)) shapeCasts_S2048_S2048x1 := by
  dsimp only [Gen.V, Gen.hostOps0]; after_results; rfl

theorem blk3 (t : Fin cfg0.N) (j : Fin 2048) :
    (iblk m c 3 t : Vec Ideal S2048x1 .bf16) (ix2 j (0 : Fin 1)) = (argsOf m c).w j := by
  have hi : ∀ t : Fin cfg0.N, win0_3.index t (0 : Fin 2) = 0 ∧ win0_3.index t (1 : Fin 2) = 0 :=
    (by decide +kernel : ∀ t : Fin grid0.N, _)
  obtain ⟨e0, e1⟩ := hi t
  unfold iblk
  rw [View.read_apply]
  show (V m c main_v1 : S2048x1.Idx → EReal) (((cfg0.win 3).blk t).view.emb (ix2 j (0 : Fin 1))) = m ((c.tc : Thread nD τ).loc main_arg3) (ix1 j)
  rw [V_main_v1]
  refine shapeCast_apply _ _ _ _ ?_
  show (S2048.rowMajor (ix1 j)).val = (S2048x1.rowMajor (((cfg0.win 3).blk t).view.emb (ix2 j (0 : Fin 1)))).val
  rw [Shape.rowMajor_val_one, Shape.rowMajor_val_two]
  show j.val = (win0_3.index t (0 : Fin 2) * 2048 + 1 * j.val) * 1 + (win0_3.index t (1 : Fin 2) * 1 + 1 * 0)
  omega

theorem V_main_v2 : (V m c main_v2 : S1x2048.Idx → EReal)
    = shapeCast S1x2048 (m ((c.tc : Thread nD τ).loc main_arg3)) shapeCasts_S2048_S1x2048 := by
  dsimp only [Gen.V, Gen.hostOps0]; after_results; rfl

theorem blk4 (t : Fin cfg0.N) (j : Fin 2048) :
    (iblk m c 4 t : Vec Ideal S1x2048 .f32) (ix2 (0 : Fin 1) j) = (argsOf m c).w j := by
  have hi : ∀ t : Fin cfg0.N, win0_4.index t (0 : Fin 2) = 0 ∧ win0_4.index t (1 : Fin 2) = 0 :=
    (by decide +kernel : ∀ t : Fin grid0.N, _)
  obtain ⟨e0, e1⟩ := hi t
  unfold iblk
  rw [View.read_apply]
  show (V m c main_v2 : S1x2048.Idx → EReal) (((cfg0.win 4).blk t).view.emb (ix2 (0 : Fin 1) j)) = m ((c.tc : Thread nD τ).loc main_arg3) (ix1 j)
  rw [V_main_v2]
  refine shapeCast_apply _ _ _ _ ?_
  show (S2048.rowMajor (ix1 j)).val = (S1x2048.rowMajor (((cfg0.win 4).blk t).view.emb (ix2 (0 : Fin 1) j))).val
  rw [Shape.rowMajor_val_one, Shape.rowMajor_val_two]
  show j.val = (win0_4.index t (0 : Fin 2) * 1 + 1 * 0) * 2048 + (win0_4.index t (1 : Fin 2) * 2048 + 1 * j.val)
  omega

theorem blk5 (t : Fin cfg0.N) (k : Fin 128) (d : Fin 32) :
    (iblk m c 5 t : Vec Ideal S128x32 .f32) (ix2 k d) = (argsOf m c).psiW k d := by
  have hi : ∀ t : Fin cfg0.N, win0_5.index t (0 : Fin 2) = 0 ∧ win0_5.index t (1 : Fin 2) = 0 :=
    (by decide +kernel : ∀ t : Fin grid0.N, _)
  obtain ⟨e0, e1⟩ := hi t
  unfold iblk
  rw [View.read_apply]
  show V m c main_arg4 (((cfg0.win 5).blk t).view.emb (ix2 k d)) = m ((c.tc : Thread nD τ).loc main_arg4) (ix2 k d)
  rw [V_main_arg4]
  congr 1
  funext a
  apply Fin.ext
  match a with
  | ⟨0, _⟩ => show win0_5.index t (0 : Fin 2) * 128 + 1 * k.val = k.val; omega
  | ⟨1, _⟩ => show win0_5.index t (1 : Fin 2) * 32 + 1 * d.val = d.val; omega

theorem V_main_v3 : (V m c main_v3 : S1x32.Idx → EReal)
    = shapeCast S1x32 (m ((c.tc : Thread nD τ).loc main_arg5)) shapeCasts_S32_S1x32 := by
  dsimp only [Gen.V, Gen.hostOps0]; after_results; rfl

theorem blk6 (t : Fin cfg0.N) (d : Fin 32) :
    (iblk m c 6 t : Vec Ideal S1x32 .f32) (ix2 (0 : Fin 1) d) = (argsOf m c).psib d := by
  have hi : ∀ t : Fin cfg0.N, win0_6.index t (0 : Fin 2) = 0 ∧ win0_6.index t (1 : Fin 2) = 0 :=
    (by decide +kernel : ∀ t : Fin grid0.N, _)
  obtain ⟨e0, e1⟩ := hi t
  unfold iblk
  rw [View.read_apply]
  show (V m c main_v3 : S1x32.Idx → EReal) (((cfg0.win 6).blk t).view.emb (ix2 (0 : Fin 1) d)) = m ((c.tc : Thread nD τ).loc main_arg5) (ix1 d)
  rw [V_main_v3]
  refine shapeCast_apply _ _ _ _ ?_
  show (S32.rowMajor (ix1 d)).val = (S1x32.rowMajor (((cfg0.win 6).blk t).view.emb (ix2 (0 : Fin 1) d))).val
  rw [Shape.rowMajor_val_one, Shape.rowMajor_val_two]
  show d.val = (win0_6.index t (0 : Fin 2) * 1 + 1 * 0) * 32 + (win0_6.index t (1 : Fin 2) * 32 + 1 * d.val)
  omega

theorem blk7 (t : Fin cfg0.N) (k : Fin 16) (d : Fin 32) :
    (iblk m c 7 t : Vec Ideal S16x32 .f32) (ix2 k d) = (argsOf m c).phiW k d := by
  have hi : ∀ t : Fin cfg0.N, win0_7.index t (0 : Fin 2) = 0 ∧ win0_7.index t (1 : Fin 2) = 0 :=
    (by decide +kernel : ∀ t : Fin grid0.N, _)
  obtain ⟨e0, e1⟩ := hi t
  unfold iblk
  rw [View.read_apply]
  show V m c main_arg6 (((cfg0.win 7).blk t).view.emb (ix2 k d)) = m ((c.tc : Thread nD τ).loc main_arg6) (ix2 k d)
  rw [V_main_arg6]
  congr 1
  funext a
  apply Fin.ext
  match a with
  | ⟨0, _⟩ => show win0_7.index t (0 : Fin 2) * 16 + 1 * k.val = k.val; omega
  | ⟨1, _⟩ => show win0_7.index t (1 : Fin 2) * 32 + 1 * d.val = d.val; omega

theorem V_main_v4 : (V m c main_v4 : S1x32.Idx → EReal)
    = shapeCast S1x32 (m ((c.tc : Thread nD τ).loc main_arg7)) shapeCasts_S32_S1x32 := by
  dsimp only [Gen.V, Gen.hostOps0]; after_results; rfl

theorem blk8 (t : Fin cfg0.N) (d : Fin 32) :
    (iblk m c 8 t : Vec Ideal S1x32 .f32) (ix2 (0 : Fin 1) d) = (argsOf m c).phib d := by
  have hi : ∀ t : Fin cfg0.N, win0_8.index t (0 : Fin 2) = 0 ∧ win0_8.index t (1 : Fin 2) = 0 :=
    (by decide +kernel : ∀ t : Fin grid0.N, _)
  obtain ⟨e0, e1⟩ := hi t
  unfold iblk
  rw [View.read_apply]
  show (V m c main_v4 : S1x32.Idx → EReal) (((cfg0.win 8).blk t).view.emb (ix2 (0 : Fin 1) d)) = m ((c.tc : Thread nD τ).loc main_arg7) (ix1 d)
  rw [V_main_v4]
  refine shapeCast_apply _ _ _ _ ?_
  show (S32.rowMajor (ix1 d)).val = (S1x32.rowMajor (((cfg0.win 8).blk t).view.emb (ix2 (0 : Fin 1) d))).val
  rw [Shape.rowMajor_val_one, Shape.rowMajor_val_two]
  show d.val = (win0_8.index t (0 : Fin 2) * 1 + 1 * 0) * 32 + (win0_8.index t (1 : Fin 2) * 32 + 1 * d.val)
  omega

theorem blk9 (t : Fin cfg0.N) (k : Fin 64) (e : Fin 64) :
    (iblk m c 9 t : Vec Ideal S64x64 .f32) (ix2 k e) = (argsOf m c).g1W k e := by
  have hi : ∀ t : Fin cfg0.N, win0_9.index t (0 : Fin 2) = 0 ∧ win0_9.index t (1 : Fin 2) = 0 :=
    (by decide +kernel : ∀ t : Fin grid0.N, _)
  obtain ⟨e0, e1⟩ := hi t
  unfold iblk
  rw [View.read_apply]
  show V m c main_arg8 (((cfg0.win 9).blk t).view.emb (ix2 k e)) = m ((c.tc : Thread nD τ).loc main_arg8) (ix2 k e)
  rw [V_main_arg8]
  congr 1
  funext a
  apply Fin.ext
  match a with
  | ⟨0, _⟩ => show win0_9.index t (0 : Fin 2) * 64 + 1 * k.val = k.val; omega
  | ⟨1, _⟩ => show win0_9.index t (1 : Fin 2) * 64 + 1 * e.val = e.val; omega

theorem V_main_v5 : (V m c main_v5 : S1x64.Idx → EReal)
    = shapeCast S1x64 (m ((c.tc : Thread nD τ).loc main_arg9)) shapeCasts_S64_S1x64 := by
  dsimp only [Gen.V, Gen.hostOps0]; after_results; rfl

theorem blk10 (t : Fin cfg0.N) (e : Fin 64) :
    (iblk m c 10 t : Vec Ideal S1x64 .f32) (ix2 (0 : Fin 1) e) = (argsOf m c).g1b e := by
  have hi : ∀ t : Fin cfg0.N, win0_10.index t (0 : Fin 2) = 0 ∧ win0_10.index t (1 : Fin 2) = 0 :=
    (by decide +kernel : ∀ t : Fin grid0.N, _)
  obtain ⟨e0, e1⟩ := hi t
  unfold iblk
  rw [View.read_apply]
  show (V m c main_v5 : S1x64.Idx → EReal) (((cfg0.win 10).blk t).view.emb (ix2 (0 : Fin 1) e)) = m ((c.tc : Thread nD τ).loc main_arg9) (ix1 e)
  rw [V_main_v5]
  refine shapeCast_apply _ _ _ _ ?_
  show (S64.rowMajor (ix1 e)).val = (S1x64.rowMajor (((cfg0.win 10).blk t).view.emb (ix2 (0 : Fin 1) e))).val
  rw [Shape.rowMajor_val_one, Shape.rowMajor_val_two]
  show e.val = (win0_10.index t (0 : Fin 2) * 1 + 1 * 0) * 64 + (win0_10.index t (1 : Fin 2) * 64 + 1 * e.val)
  omega

theorem blk11 (t : Fin cfg0.N) (k : Fin 64) (d : Fin 32) :
    (iblk m c 11 t : Vec Ideal S64x32 .f32) (ix2 k d) = (argsOf m c).g2W k d := by
  have hi : ∀ t : Fin cfg0.N, win0_11.index t (0 : Fin 2) = 0 ∧ win0_11.index t (1 : Fin 2) = 0 :=
    (by decide +kernel : ∀ t : Fin grid0.N, _)
  obtain ⟨e0, e1⟩ := hi t
  unfold iblk
  rw [View.read_apply]
  show V m c main_arg10 (((cfg0.win 11).blk t).view.emb (ix2 k d)) = m ((c.tc : Thread nD τ).loc main_arg10) (ix2 k d)
  rw [V_main_arg10]
  congr 1
  funext a
  apply Fin.ext
  match a with
  | ⟨0, _⟩ => show win0_11.index t (0 : Fin 2) * 64 + 1 * k.val = k.val; omega
  | ⟨1, _⟩ => show win0_11.index t (1 : Fin 2) * 32 + 1 * d.val = d.val; omega

theorem V_main_v6 : (V m c main_v6 : S1x32.Idx → EReal)
    = shapeCast S1x32 (m ((c.tc : Thread nD τ).loc main_arg11)) shapeCasts_S32_S1x32 := by
  dsimp only [Gen.V, Gen.hostOps0]; after_results; rfl

theorem blk12 (t : Fin cfg0.N) (d : Fin 32) :
    (iblk m c 12 t : Vec Ideal S1x32 .f32) (ix2 (0 : Fin 1) d) = (argsOf m c).g2b d := by
  have hi : ∀ t : Fin cfg0.N, win0_12.index t (0 : Fin 2) = 0 ∧ win0_12.index t (1 : Fin 2) = 0 :=
    (by decide +kernel : ∀ t : Fin grid0.N, _)
  obtain ⟨e0, e1⟩ := hi t
  unfold iblk
  rw [View.read_apply]
  show (V m c main_v6 : S1x32.Idx → EReal) (((cfg0.win 12).blk t).view.emb (ix2 (0 : Fin 1) d)) = m ((c.tc : Thread nD τ).loc main_arg11) (ix1 d)
  rw [V_main_v6]
  refine shapeCast_apply _ _ _ _ ?_
  show (S32.rowMajor (ix1 d)).val = (S1x32.rowMajor (((cfg0.win 12).blk t).view.emb (ix2 (0 : Fin 1) d))).val
  rw [Shape.rowMajor_val_one, Shape.rowMajor_val_two]
  show d.val = (win0_12.index t (0 : Fin 2) * 1 + 1 * 0) * 32 + (win0_12.index t (1 : Fin 2) * 32 + 1 * d.val)
  omega

theorem blk13 (t : Fin cfg0.N) (k : Fin 32) (e : Fin 64) :
    (iblk m c 13 t : Vec Ideal S32x64 .f32) (ix2 k e) = (argsOf m c).c1W k e := by
  have hi : ∀ t : Fin cfg0.N, win0_13.index t (0 : Fin 2) = 0 ∧ win0_13.index t (1 : Fin 2) = 0 :=
    (by decide +kernel : ∀ t : Fin grid0.N, _)
  obtain ⟨e0, e1⟩ := hi t
  unfold iblk
  rw [View.read_apply]
  show V m c main_arg12 (((cfg0.win 13).blk t).view.emb (ix2 k e)) = m ((c.tc : Thread nD τ).loc main_arg12) (ix2 k e)
  rw [V_main_arg12]
  congr 1
  funext a
  apply Fin.ext
  match a with
  | ⟨0, _⟩ => show win0_13.index t (0 : Fin 2) * 32 + 1 * k.val = k.val; omega
  | ⟨1, _⟩ => show win0_13.index t (1 : Fin 2) * 64 + 1 * e.val = e.val; omega

theorem V_main_v7 : (V m c main_v7 : S1x64.Idx → EReal)
    = shapeCast S1x64 (m ((c.tc : Thread nD τ).loc main_arg13)) shapeCasts_S64_S1x64 := by
  dsimp only [Gen.V, Gen.hostOps0]; after_results; rfl

theorem blk14 (t : Fin cfg0.N) (e : Fin 64) :
    (iblk m c 14 t : Vec Ideal S1x64 .f32) (ix2 (0 : Fin 1) e) = (argsOf m c).c1b e := by
  have hi : ∀ t : Fin cfg0.N, win0_14.index t (0 : Fin 2) = 0 ∧ win0_14.index t (1 : Fin 2) = 0 :=
    (by decide +kernel : ∀ t : Fin grid0.N, _)
  obtain ⟨e0, e1⟩ := hi t
  unfold iblk
  rw [View.read_apply]
  show (V m c main_v7 : S1x64.Idx → EReal) (((cfg0.win 14).blk t).view.emb (ix2 (0 : Fin 1) e)) = m ((c.tc : Thread nD τ).loc main_arg13) (ix1 e)
  rw [V_main_v7]
  refine shapeCast_apply _ _ _ _ ?_
  show (S64.rowMajor (ix1 e)).val = (S1x64.rowMajor (((cfg0.win 14).blk t).view.emb (ix2 (0 : Fin 1) e))).val
  rw [Shape.rowMajor_val_one, Shape.rowMajor_val_two]
  show e.val = (win0_14.index t (0 : Fin 2) * 1 + 1 * 0) * 64 + (win0_14.index t (1 : Fin 2) * 64 + 1 * e.val)
  omega

theorem blk15 (t : Fin cfg0.N) (k : Fin 64) (e : Fin 64) :
    (iblk m c 15 t : Vec Ideal S64x64 .f32) (ix2 k e) = (argsOf m c).c2W k e := by
  have hi : ∀ t : Fin cfg0.N, win0_15.index t (0 : Fin 2) = 0 ∧ win0_15.index t (1 : Fin 2) = 0 :=
    (by decide +kernel : ∀ t : Fin grid0.N, _)
  obtain ⟨e0, e1⟩ := hi t
  unfold iblk
  rw [View.read_apply]
  show V m c main_arg14 (((cfg0.win 15).blk t).view.emb (ix2 k e)) = m ((c.tc : Thread nD τ).loc main_arg14) (ix2 k e)
  rw [V_main_arg14]
  congr 1
  funext a
  apply Fin.ext
  match a with
  | ⟨0, _⟩ => show win0_15.index t (0 : Fin 2) * 64 + 1 * k.val = k.val; omega
  | ⟨1, _⟩ => show win0_15.index t (1 : Fin 2) * 64 + 1 * e.val = e.val; omega

theorem V_main_v8 : (V m c main_v8 : S1x64.Idx → EReal)
    = shapeCast S1x64 (m ((c.tc : Thread nD τ).loc main_arg15)) shapeCasts_S64_S1x64 := by
  dsimp only [Gen.V, Gen.hostOps0]; after_results; rfl

theorem blk16 (t : Fin cfg0.N) (e : Fin 64) :
    (iblk m c 16 t : Vec Ideal S1x64 .f32) (ix2 (0 : Fin 1) e) = (argsOf m c).c2b e := by
  have hi : ∀ t : Fin cfg0.N, win0_16.index t (0 : Fin 2) = 0 ∧ win0_16.index t (1 : Fin 2) = 0 :=
    (by decide +kernel : ∀ t : Fin grid0.N, _)
  obtain ⟨e0, e1⟩ := hi t
  unfold iblk
  rw [View.read_apply]
  show (V m c main_v8 : S1x64.Idx → EReal) (((cfg0.win 16).blk t).view.emb (ix2 (0 : Fin 1) e)) = m ((c.tc : Thread nD τ).loc main_arg15) (ix1 e)
  rw [V_main_v8]
  refine shapeCast_apply _ _ _ _ ?_
  show (S64.rowMajor (ix1 e)).val = (S1x64.rowMajor (((cfg0.win 16).blk t).view.emb (ix2 (0 : Fin 1) e))).val
  rw [Shape.rowMajor_val_one, Shape.rowMajor_val_two]
  show e.val = (win0_16.index t (0 : Fin 2) * 1 + 1 * 0) * 64 + (win0_16.index t (1 : Fin 2) * 64 + 1 * e.val)
  omega

theorem blk17 (t : Fin cfg0.N) (k : Fin 64) (o : Fin 2) :
    (iblk m c 17 t : Vec Ideal S64x2 .f32) (ix2 k o) = (argsOf m c).hdW k o := by
  have hi : ∀ t : Fin cfg0.N, win0_17.index t (0 : Fin 2) = 0 ∧ win0_17.index t (1 : Fin 2) = 0 :=
    (by decide +kernel : ∀ t : Fin grid0.N, _)
  obtain ⟨e0, e1⟩ := hi t
  unfold iblk
  rw [View.read_apply]
  show V m c main_arg16 (((cfg0.win 17).blk t).view.emb (ix2 k o)) = m ((c.tc : Thread nD τ).loc main_arg16) (ix2 k o)
  rw [V_main_arg16]
  congr 1
  funext a
  apply Fin.ext
  match a with
  | ⟨0, _⟩ => show win0_17.index t (0 : Fin 2) * 64 + 1 * k.val = k.val; omega
  | ⟨1, _⟩ => show win0_17.index t (1 : Fin 2) * 2 + 1 * o.val = o.val; omega

theorem V_main_v9 : (V m c main_v9 : S1x2.Idx → EReal)
    = shapeCast S1x2 (m ((c.tc : Thread nD τ).loc main_arg17)) shapeCasts_S2_S1x2 := by
  dsimp only [Gen.V, Gen.hostOps0]; after_results; rfl

theorem blk18 (t : Fin cfg0.N) (o : Fin 2) :
    (iblk m c 18 t : Vec Ideal S1x2 .f32) (ix2 (0 : Fin 1) o) = (argsOf m c).hdb o := by
  have hi : ∀ t : Fin cfg0.N, win0_18.index t (0 : Fin 2) = 0 ∧ win0_18.index t (1 : Fin 2) = 0 :=
    (by decide +kernel : ∀ t : Fin grid0.N, _)
  obtain ⟨e0, e1⟩ := hi t
  unfold iblk
  rw [View.read_apply]
  show (V m c main_v9 : S1x2.Idx → EReal) (((cfg0.win 18).blk t).view.emb (ix2 (0 : Fin 1) o)) = m ((c.tc : Thread nD τ).loc main_arg17) (ix1 o)
  rw [V_main_v9]
  refine shapeCast_apply _ _ _ _ ?_
  show (S2.rowMajor (ix1 o)).val = (S1x2.rowMajor (((cfg0.win 18).blk t).view.emb (ix2 (0 : Fin 1) o))).val
  rw [Shape.rowMajor_val_one, Shape.rowMajor_val_two]
  show o.val = (win0_18.index t (0 : Fin 2) * 1 + 1 * 0) * 2 + (win0_18.index t (1 : Fin 2) * 2 + 1 * o.val)
  omega

end Cert.KernelIdeal.Blocks

end
-- ==== Proof.LibAtIndex.lean ====
import Idealize.ShloMosaic.Lib.StackMember
import Idealize.ShloMosaic.PureOps.Ideal.Laws
import Idealize.ShloMosaic.Lib.ValueIdx
import Idealize.ShloMosaic.Lib.Pipeline.Value

namespace Cert.Lib

open Idealize.ShloMosaic Idealize.ShloMosaic.ValueIdx

/-- A block product into the zero accumulator, rows by columns, is the sum over the contracted coordinate. -/
theorem matmul_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  simp only [matmul]
  rw [Ideal.matmul_constant_zero_apply]
  exact (Ideal.dotGeneral_apply _ prec _ A B _).symm.trans (StackMember.dotGeneral_plain_apply prec A B a b)

/-- The same with the left operand contracted on its rows: the product of its transpose with the right operand. -/
theorem matmul_tlhs_apply {m k n : ℕ} {φ₁ φ₂ : FTy}
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    matmul (⟨[0], [0], [1], [1], [], [], w⟩ : DotDims ⟨2, ![k, m]⟩ ⟨2, ![k, n]⟩ ⟨2, ![m, n]⟩) prec A B
        (constant (F := Ideal) ⟨2, ![m, n]⟩ .f32 0x00000000#32) (ix2 a b)
      = ∑ c : Fin k, A (ix2 c a) * B (ix2 c b) := by
  simp only [matmul]
  rw [Ideal.matmul_constant_zero_apply, ← Equiv.sum_comp (contrEquiv1 _ k rfl rfl).symm]
  refine Finset.sum_congr rfl fun c _ => ?_
  have hc := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact hc
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [l2, r2]

/-- A column broadcast along the rows reads the column's entry. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KI.Pay0.lean ====
import proofs.«181959_g40587440947829_cont_sun_m_1101_20_alg».proof.Proof.Gen.KernelIdeal.Skeleton
import proofs.«181959_g40587440947829_cont_sun_m_1101_20_alg».proof.Proof.LibAtIndex
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.PayAt

open Cert.KernelIdeal Cert.KernelIdeal.Gen Cert.Lib Idealize.ShloMosaic Idealize.ShloMosaic.ValueIdx

theorem rsqrt_at {s : Shape} (x : FVec Ideal s .f32) (i : s.Idx) : rsqrt x i = Ideal.rsqrt (x i) := rfl

theorem logistic_at {s : Shape} (x : FVec Ideal s .f32) (i : s.Idx) : logistic x i = Ideal.logistic (x i) := rfl

theorem scalar_ofBits_at (φ : FTy) (b : BitVec φ.bits) : Scalar.ofBits (F := Ideal) φ b = Ideal.ofBits φ b := rfl

theorem concat_at (P Q : FVec Ideal S400x32 .f32) (i : Fin 400) (e : Fin 64) :
    concatenate S400x64 1 [⟨S400x32, P⟩, ⟨S400x32, Q⟩] concatenates_S400x32_S400x32_S400x64_d1 (ix2 i e)
      = if h : e.val < 32 then P (ix2 i ⟨e.val, h⟩) else Q (ix2 i ⟨e.val - 32, by omega⟩) := by
  by_cases h : e.val < 32
  · rw [dif_pos h]
    exact concatenate_pair_apply_left 1 P Q _ (ix2 i e) rfl (ix2 i ⟨e.val, h⟩)
      (fun b => by match b with | ⟨0, _⟩ => rfl | ⟨1, _⟩ => rfl)
  · rw [dif_neg h]
    exact concatenate_pair_apply_right 1 P Q _ (ix2 i e) rfl rfl (ix2 i ⟨e.val - 32, by omega⟩)
      (fun b hb => by match b with | ⟨0, _⟩ => rfl | ⟨1, _⟩ => exact absurd rfl hb)
      (by show (e.val - 32) + 32 = e.val; omega)

theorem mm_p11 (l : FVec Ideal S400x2048 .bf16) (r : FVec Ideal S2048x1 .bf16) (p : Fin 400) (c : Fin 1) :
    matmul dot_S400x2048_S2048x1_S400x1_1_0_0_1_n_n none l r (constant (F := Ideal) S400x1 .f32 0x00000000#32) (ix2 p c)
      = ∑ k : Fin 2048, l (ix2 p k) * r (ix2 k c) :=
  matmul_plain_apply none l r p c

theorem mm_p12 (l : FVec Ideal S1x400 .bf16) (r : FVec Ideal S400x2048 .bf16) (p : Fin 1) (c : Fin 2048) :
    matmul dot_S1x400_S400x2048_S1x2048_1_0_0_1_n_n none l r (constant (F := Ideal) S1x2048 .f32 0x00000000#32) (ix2 p c)
      = ∑ k : Fin 400, l (ix2 p k) * r (ix2 k c) :=
  matmul_plain_apply none l r p c

theorem mm_p13 (l : FVec Ideal S400x128 .f32) (r : FVec Ideal S128x32 .f32) (p : Fin 400) (c : Fin 32) :
    matmul dot_S400x128_S128x32_S400x32_1_0_0_1_n_n none l r (constant (F := Ideal) S400x32 .f32 0x00000000#32) (ix2 p c)
      = ∑ k : Fin 128, l (ix2 p k) * r (ix2 k c) :=
  matmul_plain_apply none l r p c

theorem mm_p14 (l : FVec Ideal S400x16 .f32) (r : FVec Ideal S16x32 .f32) (p : Fin 400) (c : Fin 32) :
    matmul dot_S400x16_S16x32_S400x32_1_0_0_1_n_n none l r (constant (F := Ideal) S400x32 .f32 0x00000000#32) (ix2 p c)
      = ∑ k : Fin 16, l (ix2 p k) * r (ix2 k c) :=
  matmul_plain_apply none l r p c

theorem mm_p16a (l : FVec Ideal S400x64 .f32) (r : FVec Ideal S64x64 .f32) (p : Fin 400) (c : Fin 64) :
    matmul dot_S400x64_S64x64_S400x64_1_0_0_1_n_n none l r (constant (F := Ideal) S400x64 .f32 0x00000000#32) (ix2 p c)
      = ∑ k : Fin 64, l (ix2 p k) * r (ix2 k c) :=
  matmul_plain_apply none l r p c

theorem mm_p16b (l : FVec Ideal S400x64 .f32) (r : FVec Ideal S64x32 .f32) (p : Fin 400) (c : Fin 32) :
    matmul dot_S400x64_S64x32_S400x32_1_0_0_1_n_n none l r (constant (F := Ideal) S400x32 .f32 0x00000000#32) (ix2 p c)
      = ∑ k : Fin 64, l (ix2 p k) * r (ix2 k c) :=
  matmul_plain_apply none l r p c

theorem mm_p17a (l : FVec Ideal S400x32 .f32) (r : FVec Ideal S32x64 .f32) (p : Fin 400) (c : Fin 64) :
    matmul dot_S400x32_S32x64_S400x64_1_0_0_1_n_n none l r (constant (F := Ideal) S400x64 .f32 0x00000000#32) (ix2 p c)
      = ∑ k : Fin 32, l (ix2 p k) * r (ix2 k c) :=
  matmul_plain_apply none l r p c

theorem mm_p17b (l : FVec Ideal S400x64 .bf16) (r : FVec Ideal S400x2048 .bf16) (p : Fin 64) (c : Fin 2048) :
    matmul dot_S400x64_S400x2048_S64x2048_0_0_1_1_n_n none l r (constant (F := Ideal) S64x2048 .f32 0x00000000#32) (ix2 p c)
      = ∑ k : Fin 400, l (ix2 k p) * r (ix2 k c) :=
  matmul_tlhs_apply dot_S400x64_S400x2048_S64x2048_0_0_1_1_n_n_wf none l r p c

theorem pay1_at (i : S1x2048.Idx) : k0_pay1 (F := Ideal) i = 0 := by
  unfold k0_pay1
  rw [shapeCast_self, broadcast_apply, scalar_ofBits_at, Ideal.ofBits_zero_f32]

theorem pay2_at (i : S64x2048.Idx) : k0_pay2 (F := Ideal) i = 0 := by
  unfold k0_pay2
  rw [shapeCast_self, broadcast_apply, scalar_ofBits_at, Ideal.ofBits_zero_f32]

theorem pay3_at (i : S64x2048.Idx) : k0_pay3 (F := Ideal) i = 0 := by
  unfold k0_pay3
  rw [shapeCast_self, broadcast_apply, scalar_ofBits_at, Ideal.ofBits_zero_f32]

theorem pay4_at (v85 : Vec Ideal S64x2048 .f32) (v86 : FVec Ideal S64x2048 .f32) (e : Fin 64) (j : Fin 2048) :
    k0_pay4 (F := Ideal) v85 v86 (ix2 e j) = v85 (ix2 e j) + v86 (ix2 e j) := by
  unfold k0_pay4
  rw [shapeCast_self, addf_apply]

theorem pay9_at (v20 : Vec Ideal S400x2048 .f32) (r : Fin 400) (j : Fin 2048) :
    k0_pay9 (F := Ideal) v20 (ix2 r j) = v20 (ix2 r j) := rfl

theorem pay10_at (v20 : Vec Ideal S400x2048 .f32) (r : Fin 400) (j : Fin 2048) :
    k0_pay10 (F := Ideal) v20 (ix2 r j) = v20 (ix2 r j) := by
  unfold k0_pay10
  rw [shapeCast_self, pay9_at]

theorem pay11_at (v20 : Vec Ideal S400x2048 .f32) (v27 : Vec Ideal S2048x1 .bf16) (r : Fin 400) :
    k0_pay11 (F := Ideal) v20 v27 (ix2 r (0 : Fin 1))
      = Ideal.rsqrt ((∑ k : Fin 2048, v20 (ix2 r k) * v27 (ix2 k (0 : Fin 1))) + Ideal.ofBits .f32 0x3089705F#32) := by
  unfold k0_pay11
  rw [rsqrt_at, addf_apply, mm_p11, shapeCast_self, broadcast_apply, scalar_ofBits_at]
  simp only [pay9_at]

theorem pay12_at (v20 : Vec Ideal S400x2048 .f32) (v34 : Vec Ideal S1x2048 .f32) (j : Fin 2048) :
    k0_pay12 (F := Ideal) v20 v34 (ix2 (0 : Fin 1) j) = v34 (ix2 0 j) + ∑ k : Fin 400, 1 * v20 (ix2 k j) := by
  unfold k0_pay12
  rw [shapeCast_self, addf_apply, mm_p12]
  simp only [broadcast_apply, scalar_ofBits_at, Ideal.ofBits_one_bf16, pay9_at]

theorem pay12_at' (v20 : Vec Ideal S400x2048 .f32) (v34 : Vec Ideal S1x2048 .f32) (j : Fin 2048) :
    k0_pay12 (F := Ideal) v20 v34 (ix2 (0 : Fin 1) j) = v34 (ix2 0 j) + ∑ k : Fin 400, v20 (ix2 k j) := by
  rw [pay12_at]
  simp only [one_mul]

theorem pay13_at (v40 : Vec Ideal S400x128 .f32) (v41 : Vec Ideal S128x32 .f32) (v43 : Vec Ideal S1x32 .f32)
    (r : Fin 400) (d : Fin 32) :
    k0_pay13 (F := Ideal) v40 v41 v43 (ix2 r d)
      = (∑ k : Fin 128, v40 (ix2 r k) * v41 (ix2 k d)) + v43 (ix2 (0 : Fin 1) d) := by
  unfold k0_pay13
  rw [addf_apply, mm_p13, shapeCast_self, broadcastTo_1b_ab_apply]

theorem pay14_at (v47 : Vec Ideal S400x16 .f32) (v48 : Vec Ideal S16x32 .f32) (r : Fin 400) (d : Fin 32) :
    k0_pay14 (F := Ideal) v47 v48 (ix2 r d) = ∑ k : Fin 16, v47 (ix2 r k) * v48 (ix2 k d) := by
  unfold k0_pay14
  rw [mm_p14]

theorem pay15_at (v49 : FVec Ideal S400x32 .f32) (v50 : Vec Ideal S1x32 .f32) (r : Fin 400) (d : Fin 32) :
    k0_pay15 (F := Ideal) v49 v50 (ix2 r d) = v49 (ix2 r d) + v50 (ix2 (0 : Fin 1) d) := by
  unfold k0_pay15
  rw [addf_apply, shapeCast_self, broadcastTo_1b_ab_apply]

def catB (v46 v49 : FVec Ideal S400x32 .f32) (v50 : Vec Ideal S1x32 .f32) (r : Fin 400) (k' : Fin 64) : EReal :=
  if h : k'.val < 32 then v46 (ix2 r ⟨k'.val, h⟩) else k0_pay15 (F := Ideal) v49 v50 (ix2 r ⟨k'.val - 32, by omega⟩)

theorem pay16_at (v46 v49 : FVec Ideal S400x32 .f32) (v50 : Vec Ideal S1x32 .f32) (v55 : Vec Ideal S64x64 .f32)
    (v57 : Vec Ideal S1x64 .f32) (v63 : Vec Ideal S64x32 .f32) (v65 : Vec Ideal S1x32 .f32) (r : Fin 400) (d : Fin 32) :
    k0_pay16 (F := Ideal) v46 v49 v50 v55 v57 v63 v65 (ix2 r d)
      = Ideal.logistic ((∑ k : Fin 64, max ((∑ k' : Fin 64, catB v46 v49 v50 r k' * v55 (ix2 k' k)) + v57 (ix2 (0 : Fin 1) k)) 0
          * v63 (ix2 k d)) + v65 (ix2 (0 : Fin 1) d)) := by
  unfold k0_pay16
  rw [logistic_at, addf_apply, mm_p16b, shapeCast_self, broadcastTo_1b_ab_apply]
  simp only [maximumf_apply, addf_apply, mm_p16a, shapeCast_self, broadcastTo_1b_ab_apply, broadcast_apply, concat_at,
    scalar_ofBits_at, Ideal.ofBits_zero_f32]
  rfl

theorem pay17_at (v21 : FVec Ideal S400x2048 .bf16) (v32 : FVec Ideal S400x1 .f32) (v46 v49 : FVec Ideal S400x32 .f32)
    (v50 : Vec Ideal S1x32 .f32) (v55 : Vec Ideal S64x64 .f32) (v57 : Vec Ideal S1x64 .f32) (v63 : Vec Ideal S64x32 .f32)
    (v65 : Vec Ideal S1x32 .f32) (v76 : Vec Ideal S32x64 .f32) (v78 : Vec Ideal S1x64 .f32) (e : Fin 64) (j : Fin 2048) :
    k0_pay17 (F := Ideal) v21 v32 v46 v49 v50 v55 v57 v63 v65 v76 v78 (ix2 e j)
      = ∑ r : Fin 400, (((∑ k : Fin 32,
            (k0_pay16 (F := Ideal) v46 v49 v50 v55 v57 v63 v65 (ix2 r k) * k0_pay15 (F := Ideal) v49 v50 (ix2 r k)
              + (1 - k0_pay16 (F := Ideal) v46 v49 v50 v55 v57 v63 v65 (ix2 r k)) * v46 (ix2 r k)) * v76 (ix2 k e))
          + v78 (ix2 (0 : Fin 1) e)) * v32 (ix2 r (0 : Fin 1))) * v21 (ix2 r j) := by
  unfold k0_pay17
  rw [mm_p17b]
  simp only [truncf_apply, mulf_apply, addf_apply, subf_apply, mm_p17a, shapeCast_self, broadcastTo_1b_ab_apply,
    broadcastTo_col_apply, broadcast_apply, scalar_ofBits_at, Ideal.ofBits_one_f32]

end Cert.KernelIdeal.PayAt

end
-- ==== Proof.KI.Pay12.lean ====
import proofs.«181959_g40587440947829_cont_sun_m_1101_20_alg».proof.Proof.Gen.KernelIdeal.Skeleton
import proofs.«181959_g40587440947829_cont_sun_m_1101_20_alg».proof.Proof.LibAtIndex
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

namespace Cert.KernelIdeal.PayAt

open Cert.KernelIdeal Cert.KernelIdeal.Gen Cert.Lib Idealize.ShloMosaic Idealize.ShloMosaic.ValueIdx

theorem rsqrt_apply {s : Shape} {φ : FTy} (a : FVec Ideal s φ) (i : s.Idx) : rsqrt a i = Ideal.rsqrt (a i) := rfl

theorem zero_f32 : (FloatOps.ofBits (F := Ideal) .f32 0x00000000#32) = (0 : EReal) := Ideal.ofBits_zero_f32

theorem mmDeg_apply (lhs : FVec Ideal S1000x2048 .bf16) (rhs : FVec Ideal S2048x1 .bf16) (p : Fin 1000) (c : Fin 1) :
    matmul dot_S1000x2048_S2048x1_S1000x1_1_0_0_1_n_n none lhs rhs (constant (F := Ideal) S1000x1 .f32 0x00000000#32) (ix2 p c)
      = ∑ k : Fin 2048, lhs (ix2 p k) * rhs (ix2 k c) :=
  matmul_plain_apply none lhs rhs p c

theorem mmAgg_apply (lhs : FVec Ideal S1000x2048 .bf16) (rhs : FVec Ideal S2048x64 .bf16) (p : Fin 1000) (c : Fin 64) :
    matmul dot_S1000x2048_S2048x64_S1000x64_1_0_0_1_n_n none lhs rhs (constant (F := Ideal) S1000x64 .f32 0x00000000#32) (ix2 p c)
      = ∑ k : Fin 2048, lhs (ix2 p k) * rhs (ix2 k c) :=
  matmul_plain_apply none lhs rhs p c

theorem mmOut_apply (lhs : FVec Ideal S1000x64 .f32) (rhs : FVec Ideal S64x2 .f32) (p : Fin 1000) (c : Fin 2) :
    matmul dot_S1000x64_S64x2_S1000x2_1_0_0_1_n_n none lhs rhs (constant (F := Ideal) S1000x2 .f32 0x00000000#32) (ix2 p c)
      = ∑ k : Fin 64, lhs (ix2 p k) * rhs (ix2 k c) :=
  matmul_plain_apply none lhs rhs p c

theorem mmHid_apply (lhs : FVec Ideal S1000x64 .f32) (rhs : FVec Ideal S64x64 .f32) (p : Fin 1000) (c : Fin 64) :
    matmul dot_S1000x64_S64x64_S1000x64_1_0_0_1_n_n none lhs rhs (constant (F := Ideal) S1000x64 .f32 0x00000000#32) (ix2 p c)
      = ∑ k : Fin 64, lhs (ix2 p k) * rhs (ix2 k c) :=
  matmul_plain_apply none lhs rhs p c

theorem mmT_apply (lhs : FVec Ideal S1000x64 .bf16) (rhs : FVec Ideal S1000x2048 .bf16) (e : Fin 64) (j : Fin 2048) :
    matmul dot_S1000x64_S1000x2048_S64x2048_0_0_1_1_n_n none lhs rhs (constant (F := Ideal) S64x2048 .f32 0x00000000#32) (ix2 e j)
      = ∑ r : Fin 1000, lhs (ix2 r e) * rhs (ix2 r j) :=
  matmul_tlhs_apply dot_S1000x64_S1000x2048_S64x2048_0_0_1_1_n_n_wf none lhs rhs e j

theorem pay5_at (v20 v22 : Vec Ideal S1x2048 .f32) (v26 : Vec Ideal S64x2048 .f32) (j : Fin 2048) (e : Fin 64) :
    k0_pay5 (F := Ideal) v20 v22 v26 (ix2 j e)
      = v26 (ix2 e j) * Ideal.div (v20 (ix2 (0 : Fin 1) j)) (v22 (ix2 0 j) + Ideal.ofBits .f32 0x3089705F#32) := by
  unfold k0_pay5
  simp only [shapeCast_self]
  rw [transpose_ix2_apply, truncf_apply, mulf_apply, broadcastTo_1b_ab_apply, divf_apply, addf_apply, broadcast_apply]
  rfl

theorem pay7_at (v20 v22 : Vec Ideal S1x2048 .f32) (v26 : Vec Ideal S64x2048 .f32) (j : Fin 2048) (e : Fin 64) :
    k0_pay7 (F := Ideal) v20 v22 v26 (ix2 j e)
      = v26 (ix2 e j) * Ideal.div (v20 (ix2 (0 : Fin 1) j)) (v22 (ix2 0 j) + Ideal.ofBits .f32 0x3089705F#32) := by
  unfold k0_pay7
  simp only [shapeCast_self]
  rw [transpose_ix2_apply, truncf_apply, mulf_apply, broadcastTo_1b_ab_apply, divf_apply, addf_apply, broadcast_apply]
  rfl

theorem pay8_at (v23 : Vec Ideal S1000x2048 .bf16) (v24 : Vec Ideal S2048x1 .bf16) (v30 : Vec Ideal S2048x64 .bf16)
    (v36 : Vec Ideal S64x2 .f32) (v38 : Vec Ideal S1x2 .f32) (r : Fin 1000) (o : Fin 2) :
    k0_pay8 (F := Ideal) v23 v24 v30 v36 v38 (ix2 r o)
      = (∑ k : Fin 64, max ((∑ jj : Fin 2048, v23 (ix2 r jj) * v30 (ix2 jj k))
            * Ideal.rsqrt ((∑ jj : Fin 2048, v23 (ix2 r jj) * v24 (ix2 jj (0 : Fin 1))) + Ideal.ofBits .f32 0x3089705F#32)) 0
          * v36 (ix2 k o))
        + v38 (ix2 (0 : Fin 1) o) := by
  unfold k0_pay8
  simp only [shapeCast_self]
  rw [addf_apply, broadcastTo_1b_ab_apply, mmOut_apply]
  congr 1
  refine Finset.sum_congr rfl fun k _ => ?_
  rw [maximumf_apply, mulf_apply, broadcast_apply, broadcastTo_col_apply, rsqrt_apply, addf_apply, broadcast_apply,
    mmAgg_apply, mmDeg_apply, zero_f32]
  rfl

theorem pay6_at (v23 : Vec Ideal S1000x2048 .bf16) (v24 : Vec Ideal S2048x1 .bf16) (v30 : Vec Ideal S2048x64 .bf16)
    (v36 : Vec Ideal S64x64 .f32) (v38 : Vec Ideal S1x64 .f32) (v45 : Vec Ideal S64x2048 .f32) (e : Fin 64) (j : Fin 2048) :
    k0_pay6 (F := Ideal) v23 v24 v30 v36 v38 v45 (ix2 e j)
      = v45 (ix2 e j) + ∑ r : Fin 1000,
          (((∑ k : Fin 64, max ((∑ jj : Fin 2048, v23 (ix2 r jj) * v30 (ix2 jj k))
                * Ideal.rsqrt ((∑ jj : Fin 2048, v23 (ix2 r jj) * v24 (ix2 jj (0 : Fin 1))) + Ideal.ofBits .f32 0x3089705F#32)) 0
              * v36 (ix2 k e))
            + v38 (ix2 (0 : Fin 1) e))
           * Ideal.rsqrt ((∑ jj : Fin 2048, v23 (ix2 r jj) * v24 (ix2 jj (0 : Fin 1))) + Ideal.ofBits .f32 0x3089705F#32))
          * v23 (ix2 r j) := by
  unfold k0_pay6
  simp only [shapeCast_self]
  rw [addf_apply, mmT_apply]
  congr 1
  refine Finset.sum_congr rfl fun r _ => ?_
  rw [truncf_apply, mulf_apply, addf_apply, broadcastTo_1b_ab_apply, broadcastTo_col_apply, rsqrt_apply, addf_apply,
    broadcast_apply, mmDeg_apply, mmHid_apply]
  refine congrArg (· * v23 (ix2 r j)) ?_
  refine congrArg₂ (· * ·) ?_ rfl
  refine congrArg (· + v38 (ix2 (0 : Fin 1) e)) ?_
  refine Finset.sum_congr rfl fun k _ => ?_
  rw [maximumf_apply, mulf_apply, broadcast_apply, broadcastTo_col_apply, rsqrt_apply, addf_apply, broadcast_apply,
    mmAgg_apply, mmDeg_apply, zero_f32]
  rfl

end Cert.KernelIdeal.PayAt
-- ==== Proof.SumTiles.lean ====
import Mathlib.Algebra.BigOperators.Fin
import Mathlib.Algebra.BigOperators.Intervals
import Mathlib.Data.Fintype.BigOperators
import Mathlib.Data.EReal.Inv

namespace Cert.SumTiles

variable {M : Type*} [AddCommMonoid M]

/-- The sum of the first n terms of a family over Fin N. -/
def psum {N : ℕ} (f : Fin N → M) (n : ℕ) : M := ∑ i : Fin N, if i.val < n then f i else 0

theorem psum_zero {N : ℕ} (f : Fin N → M) : psum f 0 = 0 := by
  unfold psum
  apply Finset.sum_eq_zero
  intro i _
  rw [if_neg (Nat.not_lt_zero _)]

theorem psum_full {N : ℕ} (f : Fin N → M) {n : ℕ} (h : N ≤ n) :
    psum f n = ∑ i : Fin N, f i := by
  unfold psum
  apply Finset.sum_congr rfl
  intro i _
  rw [if_pos (lt_of_lt_of_le i.isLt h)]

/-- A prefix sum grows by one tile: the next B terms, enumerated by g. -/
theorem psum_add_tile' {N : ℕ} (f : Fin N → M) (B t : ℕ) (g : Fin B → Fin N)
    (hg : ∀ r, (g r).val = B * t + r.val) :
    psum f (B * (t + 1)) = psum f (B * t) + ∑ r : Fin B, f (g r) := by
  unfold psum
  have e : B * (t + 1) = B * t + B := Nat.mul_succ B t

  have htile : ∑ r : Fin B, f (g r)
      = ∑ i : Fin N, if B * t ≤ i.val ∧ i.val < B * (t + 1) then f i else 0 := by
    rw [← Finset.sum_filter]
    refine Finset.sum_bij (fun r _ => g r) ?_ ?_ ?_ ?_
    ·
      intro r _
      have hr := r.isLt
      have h1 := hg r
      simp only [Finset.mem_filter, Finset.mem_univ, true_and]
      omega
    ·
      intro a _ b _ hab
      have h1 := hg a
      have h2 := hg b
      rw [hab] at h1
      apply Fin.ext
      omega
    ·
      intro i hi
      simp only [Finset.mem_filter, Finset.mem_univ, true_and] at hi
      have hlt : i.val - B * t < B := by omega
      refine ⟨⟨i.val - B * t, hlt⟩, Finset.mem_univ _, ?_⟩
      apply Fin.ext
      rw [hg]
      show B * t + (i.val - B * t) = i.val
      omega
    · intro r _
      rfl
  rw [htile, ← Finset.sum_add_distrib]
  apply Finset.sum_congr rfl
  intro i _
  by_cases h1 : i.val < B * t
  · have h2 : i.val < B * (t + 1) := by omega
    have h3 : ¬ (B * t ≤ i.val ∧ i.val < B * (t + 1)) := by omega
    rw [if_pos h1, if_pos h2, if_neg h3, add_zero]
  · by_cases h2 : i.val < B * (t + 1)
    · have h3 : B * t ≤ i.val ∧ i.val < B * (t + 1) := ⟨by omega, h2⟩
      rw [if_neg h1, if_pos h2, if_pos h3, zero_add]
    · have h3 : ¬ (B * t ≤ i.val ∧ i.val < B * (t + 1)) := by omega
      rw [if_neg h1, if_neg h2, if_neg h3, add_zero]

end Cert.SumTiles
-- ==== Proof.KI.Rows.lean ====
import proofs.«181959_g40587440947829_cont_sun_m_1101_20_alg».proof.Proof.KI.Pay0
import proofs.«181959_g40587440947829_cont_sun_m_1101_20_alg».proof.Proof.KI.Pay12
import proofs.«181959_g40587440947829_cont_sun_m_1101_20_alg».proof.Proof.Spec
import proofs.«181959_g40587440947829_cont_sun_m_1101_20_alg».proof.Proof.SumTiles

noncomputable section

namespace Cert.KernelIdeal.Rows

open Cert.KernelIdeal Cert.KernelIdeal.Gen Cert.KernelIdeal.PayAt Idealize.ShloMosaic Idealize.ShloMosaic.ValueIdx
open Cert.SumTiles

variable (I : Cert.Spec.Inputs)

section Tile400
variable (ρ : Fin 400 → Fin 10000)

theorem x1_tile (v40 : Vec Ideal S400x128 .f32) (v41 : Vec Ideal S128x32 .f32) (v43 : Vec Ideal S1x32 .f32)
    (h40 : ∀ r k, v40 (ix2 r k) = I.x (ρ r) k) (h41 : ∀ k d, v41 (ix2 k d) = I.psiW k d)
    (h43 : ∀ d, v43 (ix2 (0 : Fin 1) d) = I.psib d) (r : Fin 400) (d : Fin 32) :
    k0_pay13 (F := Ideal) v40 v41 v43 (ix2 r d) = Cert.Spec.x1 I (ρ r) d := by
  rw [pay13_at]
  simp only [h40, h41, h43]
  rfl

theorem z1_tile (v47 : Vec Ideal S400x16 .f32) (v48 : Vec Ideal S16x32 .f32) (v50 : Vec Ideal S1x32 .f32)
    (h47 : ∀ r k, v47 (ix2 r k) = I.z (ρ r) k) (h48 : ∀ k d, v48 (ix2 k d) = I.phiW k d)
    (h50 : ∀ d, v50 (ix2 (0 : Fin 1) d) = I.phib d) (r : Fin 400) (d : Fin 32) :
    k0_pay15 (F := Ideal) (k0_pay14 (F := Ideal) v47 v48) v50 (ix2 r d) = Cert.Spec.z1 I (ρ r) d := by
  rw [pay15_at, pay14_at]
  simp only [h47, h48, h50]
  rfl

theorem cat_tile (v40 : Vec Ideal S400x128 .f32) (v41 : Vec Ideal S128x32 .f32) (v43 : Vec Ideal S1x32 .f32)
    (h40 : ∀ r k, v40 (ix2 r k) = I.x (ρ r) k) (h41 : ∀ k d, v41 (ix2 k d) = I.psiW k d)
    (h43 : ∀ d, v43 (ix2 (0 : Fin 1) d) = I.psib d)
    (v47 : Vec Ideal S400x16 .f32) (v48 : Vec Ideal S16x32 .f32) (v50 : Vec Ideal S1x32 .f32)
    (h47 : ∀ r k, v47 (ix2 r k) = I.z (ρ r) k) (h48 : ∀ k d, v48 (ix2 k d) = I.phiW k d)
    (h50 : ∀ d, v50 (ix2 (0 : Fin 1) d) = I.phib d) (r : Fin 400) (k' : Fin 64) :
    catB (k0_pay13 (F := Ideal) v40 v41 v43) (k0_pay14 (F := Ideal) v47 v48) v50 r k' = Cert.Spec.cat I (ρ r) k' := by
  unfold catB Cert.Spec.cat
  by_cases h : k'.val < 32
  · rw [dif_pos h, dif_pos h]; exact x1_tile I ρ v40 v41 v43 h40 h41 h43 r _
  · rw [dif_neg h, dif_neg h]; exact z1_tile I ρ v47 v48 v50 h47 h48 h50 r _

theorem gate_tile (v40 : Vec Ideal S400x128 .f32) (v41 : Vec Ideal S128x32 .f32) (v43 : Vec Ideal S1x32 .f32)
    (h40 : ∀ r k, v40 (ix2 r k) = I.x (ρ r) k) (h41 : ∀ k d, v41 (ix2 k d) = I.psiW k d)
    (h43 : ∀ d, v43 (ix2 (0 : Fin 1) d) = I.psib d)
    (v47 : Vec Ideal S400x16 .f32) (v48 : Vec Ideal S16x32 .f32) (v50 : Vec Ideal S1x32 .f32)
    (h47 : ∀ r k, v47 (ix2 r k) = I.z (ρ r) k) (h48 : ∀ k d, v48 (ix2 k d) = I.phiW k d)
    (h50 : ∀ d, v50 (ix2 (0 : Fin 1) d) = I.phib d)
    (v55 : Vec Ideal S64x64 .f32) (v57 : Vec Ideal S1x64 .f32) (v63 : Vec Ideal S64x32 .f32) (v65 : Vec Ideal S1x32 .f32)
    (h55 : ∀ k e, v55 (ix2 k e) = I.g1W k e) (h57 : ∀ e, v57 (ix2 (0 : Fin 1) e) = I.g1b e)
    (h63 : ∀ k d, v63 (ix2 k d) = I.g2W k d) (h65 : ∀ d, v65 (ix2 (0 : Fin 1) d) = I.g2b d) (r : Fin 400) (d : Fin 32) :
    k0_pay16 (F := Ideal) (k0_pay13 (F := Ideal) v40 v41 v43) (k0_pay14 (F := Ideal) v47 v48) v50 v55 v57 v63 v65 (ix2 r d) = Cert.Spec.gate I (ρ r) d := by
  rw [pay16_at]
  simp only [cat_tile I ρ v40 v41 v43 h40 h41 h43 v47 v48 v50 h47 h48 h50, h55, h57, h63, h65]
  rfl

theorem s_tile (v20 : Vec Ideal S400x2048 .f32) (h20 : ∀ r j, v20 (ix2 r j) = I.H (ρ r) j) (v27 : Vec Ideal S2048x1 .bf16) (h27 : ∀ j, v27 (ix2 j (0 : Fin 1)) = I.w j) (r : Fin 400) :
    k0_pay11 (F := Ideal) v20 v27 (ix2 r (0 : Fin 1)) = Cert.Spec.s I (ρ r) := by
  rw [pay11_at]
  simp only [h20, h27]
  rfl

theorem de_tile (t' : ℕ) (hρ : ∀ r, (ρ r).val = 400 * t' + r.val) (v20 : Vec Ideal S400x2048 .f32) (h20 : ∀ r j, v20 (ix2 r j) = I.H (ρ r) j)
    (prev : Vec Ideal S1x2048 .f32) (j : Fin 2048)
    (hp : prev (ix2 (0 : Fin 1) j) = psum (fun i => I.H i j) (400 * t')) :
    k0_pay12 (F := Ideal) v20 prev (ix2 (0 : Fin 1) j) = psum (fun i => I.H i j) (400 * (t' + 1)) := by
  rw [pay12_at', hp, psum_add_tile' _ 400 t' ρ hρ]
  simp only [h20]

theorem m1_tile (t' : ℕ) (hρ : ∀ r, (ρ r).val = 400 * t' + r.val) (v20 : Vec Ideal S400x2048 .f32) (h20 : ∀ r j, v20 (ix2 r j) = I.H (ρ r) j) (v27 : Vec Ideal S2048x1 .bf16) (h27 : ∀ j, v27 (ix2 j (0 : Fin 1)) = I.w j)
    (v40 : Vec Ideal S400x128 .f32) (v41 : Vec Ideal S128x32 .f32) (v43 : Vec Ideal S1x32 .f32)
    (h40 : ∀ r k, v40 (ix2 r k) = I.x (ρ r) k) (h41 : ∀ k d, v41 (ix2 k d) = I.psiW k d)
    (h43 : ∀ d, v43 (ix2 (0 : Fin 1) d) = I.psib d)
    (v47 : Vec Ideal S400x16 .f32) (v48 : Vec Ideal S16x32 .f32) (v50 : Vec Ideal S1x32 .f32)
    (h47 : ∀ r k, v47 (ix2 r k) = I.z (ρ r) k) (h48 : ∀ k d, v48 (ix2 k d) = I.phiW k d)
    (h50 : ∀ d, v50 (ix2 (0 : Fin 1) d) = I.phib d)
    (v55 : Vec Ideal S64x64 .f32) (v57 : Vec Ideal S1x64 .f32) (v63 : Vec Ideal S64x32 .f32) (v65 : Vec Ideal S1x32 .f32)
    (h55 : ∀ k e, v55 (ix2 k e) = I.g1W k e) (h57 : ∀ e, v57 (ix2 (0 : Fin 1) e) = I.g1b e)
    (h63 : ∀ k d, v63 (ix2 k d) = I.g2W k d) (h65 : ∀ d, v65 (ix2 (0 : Fin 1) d) = I.g2b d)
    (v76 : Vec Ideal S32x64 .f32) (v78 : Vec Ideal S1x64 .f32)
    (h76 : ∀ k e, v76 (ix2 k e) = I.c1W k e) (h78 : ∀ e, v78 (ix2 (0 : Fin 1) e) = I.c1b e)
    (prev : Vec Ideal S64x2048 .f32) (e : Fin 64) (j : Fin 2048)
    (hp : prev (ix2 e j) = psum (fun i => (Cert.Spec.xc1 I i e * Cert.Spec.s I i) * I.H i j) (400 * t')) :
    k0_pay4 (F := Ideal) prev (k0_pay17 (F := Ideal) (k0_pay9 (F := Ideal) v20) (k0_pay11 (F := Ideal) v20 v27) (k0_pay13 (F := Ideal) v40 v41 v43) (k0_pay14 (F := Ideal) v47 v48)
        v50 v55 v57 v63 v65 v76 v78) (ix2 e j)
      = psum (fun i => (Cert.Spec.xc1 I i e * Cert.Spec.s I i) * I.H i j) (400 * (t' + 1)) := by
  rw [pay4_at, pay17_at, hp, psum_add_tile' _ 400 t' ρ hρ]
  refine congrArg₂ (· + ·) rfl (Finset.sum_congr rfl fun r _ => ?_)
  rw [s_tile I ρ v20 h20 v27 h27, pay9_at, h20]
  simp only [gate_tile I ρ v40 v41 v43 h40 h41 h43 v47 v48 v50 h47 h48 h50 v55 v57 v63 v65 h55 h57 h63 h65, z1_tile I ρ v47 v48 v50 h47 h48 h50, x1_tile I ρ v40 v41 v43 h40 h41 h43, h76, h78]
  rfl

end Tile400

theorem de_full (j : Fin 2048) : psum (fun i => I.H i j) 10000 = Cert.Spec.de I j := psum_full _ le_rfl

theorem acc_full (X : Fin 10000 → Fin 64 → EReal) (e : Fin 64) (j : Fin 2048) :
    psum (fun i => (X i e * Cert.Spec.s I i) * I.H i j) 10000 = ∑ i : Fin 10000, I.H i j * (X i e * Cert.Spec.s I i) := by
  rw [psum_full _ le_rfl]
  exact Finset.sum_congr rfl fun i _ => mul_comm _ _

theorem mn1_at (v20 v22 : Vec Ideal S1x2048 .f32) (v26 : Vec Ideal S64x2048 .f32)
    (h20 : ∀ j, v20 (ix2 (0 : Fin 1) j) = I.w j) (h22 : ∀ j, v22 (ix2 (0 : Fin 1) j) = Cert.Spec.de I j)
    (h26 : ∀ e j, v26 (ix2 e j) = psum (fun i => (Cert.Spec.xc1 I i e * Cert.Spec.s I i) * I.H i j) 10000) (j : Fin 2048) (e : Fin 64) :
    k0_pay5 (F := Ideal) v20 v22 v26 (ix2 j e) = Cert.Spec.mn1 I j e := by
  rw [pay5_at, h26, h20, h22, acc_full]
  rfl

theorem mn2_at (v20 v22 : Vec Ideal S1x2048 .f32) (v26 : Vec Ideal S64x2048 .f32)
    (h20 : ∀ j, v20 (ix2 (0 : Fin 1) j) = I.w j) (h22 : ∀ j, v22 (ix2 (0 : Fin 1) j) = Cert.Spec.de I j)
    (h26 : ∀ e j, v26 (ix2 e j) = psum (fun i => (Cert.Spec.x2 I i e * Cert.Spec.s I i) * I.H i j) 10000) (j : Fin 2048) (e : Fin 64) :
    k0_pay7 (F := Ideal) v20 v22 v26 (ix2 j e) = Cert.Spec.mn2 I j e := by
  rw [pay7_at, h26, h20, h22, acc_full]
  rfl

section Tile1000
variable (ρ : Fin 1000 → Fin 10000)

theorem m2_tile (i' : ℕ) (hρ : ∀ r, (ρ r).val = 1000 * i' + r.val) (v23 : Vec Ideal S1000x2048 .bf16) (v24 : Vec Ideal S2048x1 .bf16) (v30 : Vec Ideal S2048x64 .bf16)
    (h23 : ∀ r j, v23 (ix2 r j) = I.H (ρ r) j) (h24 : ∀ j, v24 (ix2 j (0 : Fin 1)) = I.w j)
    (h30 : ∀ j e, v30 (ix2 j e) = Cert.Spec.mn1 I j e)
    (v36 : Vec Ideal S64x64 .f32) (v38 : Vec Ideal S1x64 .f32)
    (h36 : ∀ k e, v36 (ix2 k e) = I.c2W k e) (h38 : ∀ e, v38 (ix2 (0 : Fin 1) e) = I.c2b e)
    (v45 : Vec Ideal S64x2048 .f32) (e : Fin 64) (j : Fin 2048)
    (hp : v45 (ix2 e j) = psum (fun i => (Cert.Spec.x2 I i e * Cert.Spec.s I i) * I.H i j) (1000 * i')) :
    k0_pay6 (F := Ideal) v23 v24 v30 v36 v38 v45 (ix2 e j) = psum (fun i => (Cert.Spec.x2 I i e * Cert.Spec.s I i) * I.H i j) (1000 * (i' + 1)) := by
  rw [pay6_at, hp, psum_add_tile' _ 1000 i' ρ hρ]
  refine congrArg₂ (· + ·) rfl (Finset.sum_congr rfl fun r _ => ?_)
  simp only [h23, h24, h30, h36, h38]
  rfl

theorem m2_tile0 (hρ : ∀ r, (ρ r).val = 1000 * 0 + r.val) (v23 : Vec Ideal S1000x2048 .bf16) (v24 : Vec Ideal S2048x1 .bf16) (v30 : Vec Ideal S2048x64 .bf16)
    (h23 : ∀ r j, v23 (ix2 r j) = I.H (ρ r) j) (h24 : ∀ j, v24 (ix2 j (0 : Fin 1)) = I.w j)
    (h30 : ∀ j e, v30 (ix2 j e) = Cert.Spec.mn1 I j e)
    (v36 : Vec Ideal S64x64 .f32) (v38 : Vec Ideal S1x64 .f32)
    (h36 : ∀ k e, v36 (ix2 k e) = I.c2W k e) (h38 : ∀ e, v38 (ix2 (0 : Fin 1) e) = I.c2b e)
    (e : Fin 64) (j : Fin 2048) :
    k0_pay6 (F := Ideal) v23 v24 v30 v36 v38 (k0_pay3 (F := Ideal)) (ix2 e j) = psum (fun i => (Cert.Spec.x2 I i e * Cert.Spec.s I i) * I.H i j) 1000 :=
  m2_tile I ρ 0 hρ v23 v24 v30 h23 h24 h30 v36 v38 h36 h38 _ e j (by rw [pay3_at, Nat.mul_zero, psum_zero])

theorem logits_tile (v23 : Vec Ideal S1000x2048 .bf16) (v24 : Vec Ideal S2048x1 .bf16) (v30 : Vec Ideal S2048x64 .bf16)
    (h23 : ∀ r j, v23 (ix2 r j) = I.H (ρ r) j) (h24 : ∀ j, v24 (ix2 j (0 : Fin 1)) = I.w j)
    (h30 : ∀ j e, v30 (ix2 j e) = Cert.Spec.mn2 I j e)
    (v36 : Vec Ideal S64x2 .f32) (v38 : Vec Ideal S1x2 .f32)
    (h36 : ∀ k o, v36 (ix2 k o) = I.hdW k o) (h38 : ∀ o, v38 (ix2 (0 : Fin 1) o) = I.hdb o)
    (r : Fin 1000) (o : Fin 2) :
    k0_pay8 (F := Ideal) v23 v24 v30 v36 v38 (ix2 r o) = Cert.Spec.logits I (ρ r) o := by
  rw [pay8_at]
  simp only [h23, h24, h30, h36, h38]
  rfl

end Tile1000

end Cert.KernelIdeal.Rows

end
-- ==== Proof.KI.Values.lean ====
import proofs.«181959_g40587440947829_cont_sun_m_1101_20_alg».proof.Proof.KI.Steps
import proofs.«181959_g40587440947829_cont_sun_m_1101_20_alg».proof.Proof.KI.Pieces
import proofs.«181959_g40587440947829_cont_sun_m_1101_20_alg».proof.Proof.KI.Blocks
import proofs.«181959_g40587440947829_cont_sun_m_1101_20_alg».proof.Proof.KI.Rows

set_option maxRecDepth 16384

noncomputable section

namespace Cert.KernelIdeal.Values

open Cert.KernelIdeal Cert.KernelIdeal.Gen Cert.KernelIdeal.Body Cert.KernelIdeal.Blocks Cert.KernelIdeal.Rows
open Cert.KernelIdeal.PayAt Idealize.ShloMosaic Idealize.ShloMosaic.ValueIdx Cert.SumTiles

variable (m : (ℓ : Loc nD τ sig) → Buf (Elt Ideal) ℓ) (c : Dev nD)

def row400 (t : Fin cfg0.N) (h : t.val < 25) (r : Fin 400) : Fin 10000 := ⟨400 * t.val + r.val, by omega⟩

def row1000a (t : Fin cfg0.N) (h25 : 25 ≤ t.val) (h35 : t.val < 35) (r : Fin 1000) : Fin 10000 :=
  ⟨1000 * (t.val - 25) + r.val, by omega⟩

def row1000b (t : Fin cfg0.N) (h35 : 35 ≤ t.val) (r : Fin 1000) : Fin 10000 :=
  ⟨1000 * (t.val - 35) + r.val, by have := t.isLt; have : cfg0.N = 45 := N_0; omega⟩

theorem HqFull_at (i : Fin 10000) (j : Fin 2048) : HqFull m c (ix2 i j) = (argsOf m c).H i j := by
  have hN : cfg0.N = 45 := N_0
  have hq : i.val / 400 < 25 := by have := i.isLt; omega
  refine (pay10_at (iblk m c 0 ⟨i.val / 400, by omega⟩) ⟨i.val % 400, Nat.mod_lt _ (by norm_num)⟩ j).trans ?_
  refine (blk0 m c ⟨i.val / 400, by omega⟩ hq ⟨i.val % 400, Nat.mod_lt _ (by norm_num)⟩ j).trans ?_
  exact congrArg (fun x => (argsOf m c).H x j) (Fin.ext (Nat.div_add_mod i.val 400))

theorem slab_row (t : Fin cfg0.N) (h25 : 25 ≤ t.val) (h35 : t.val < 35) (r : Fin 1000) (j : Fin 2048) :
    slab m c t (ix2 r j) = (argsOf m c).H (row1000a t h25 h35 r) j :=
  (slab_at m c t h25 h35 r j).trans (HqFull_at m c _ j)

theorem slab'_row (t : Fin cfg0.N) (h35 : 35 ≤ t.val) (r : Fin 1000) (j : Fin 2048) :
    slab' m c t (ix2 r j) = (argsOf m c).H (row1000b t h35 r) j :=
  (slab'_at m c t h35 r j).trans (HqFull_at m c _ j)

theorem gate_step (t : Fin cfg0.N) (h : t.val < 25) (r : Fin 400) (d : Fin 32) :
    k0_pay16 (F := Ideal) (k0_pay13 (F := Ideal) (iblk m c 1 t) (iblk m c 5 t) (iblk m c 6 t)) (k0_pay14 (F := Ideal) (iblk m c 2 t) (iblk m c 7 t)) (iblk m c 8 t) (iblk m c 9 t) (iblk m c 10 t) (iblk m c 11 t) (iblk m c 12 t) (ix2 r d)
      = Cert.Spec.gate (argsOf m c) (row400 t h r) d :=
  gate_tile (argsOf m c) (row400 t h) (iblk m c 1 t) (iblk m c 5 t) (iblk m c 6 t) (blk1 m c t h) (blk5 m c t) (blk6 m c t)
      (iblk m c 2 t) (iblk m c 7 t) (iblk m c 8 t) (blk2 m c t h) (blk7 m c t) (blk8 m c t)
      (iblk m c 9 t) (iblk m c 10 t) (iblk m c 11 t) (iblk m c 12 t) (blk9 m c t) (blk10 m c t) (blk11 m c t) (blk12 m c t) r d

theorem de_step (t : Fin cfg0.N) (h : t.val < 25) (prev : Vec Ideal S1x2048 .f32) (j : Fin 2048)
    (hp : prev (ix2 (0 : Fin 1) j) = psum (fun i => (argsOf m c).H i j) (400 * t.val)) :
    k0_pay12 (F := Ideal) (iblk m c 0 t) prev (ix2 (0 : Fin 1) j) = psum (fun i => (argsOf m c).H i j) (400 * (t.val + 1)) :=
  de_tile (argsOf m c) (row400 t h) t.val (fun _ => rfl) (iblk m c 0 t) (blk0 m c t h) prev j hp

theorem m1_step (t : Fin cfg0.N) (h : t.val < 25) (prev : Vec Ideal S64x2048 .f32) (e : Fin 64) (j : Fin 2048)
    (hp : prev (ix2 e j) = psum (fun i => (Cert.Spec.xc1 (argsOf m c) i e * Cert.Spec.s (argsOf m c) i) * (argsOf m c).H i j) (400 * t.val)) :
    k0_pay4 (F := Ideal) prev (k0_pay17 (F := Ideal) (k0_pay9 (F := Ideal) (iblk m c 0 t)) (k0_pay11 (F := Ideal) (iblk m c 0 t) (iblk m c 3 t)) (k0_pay13 (F := Ideal) (iblk m c 1 t) (iblk m c 5 t) (iblk m c 6 t)) (k0_pay14 (F := Ideal) (iblk m c 2 t) (iblk m c 7 t))
        (iblk m c 8 t) (iblk m c 9 t) (iblk m c 10 t) (iblk m c 11 t) (iblk m c 12 t) (iblk m c 13 t) (iblk m c 14 t)) (ix2 e j)
      = psum (fun i => (Cert.Spec.xc1 (argsOf m c) i e * Cert.Spec.s (argsOf m c) i) * (argsOf m c).H i j) (400 * (t.val + 1)) :=
  m1_tile (argsOf m c) (row400 t h) t.val (fun _ => rfl) (iblk m c 0 t) (blk0 m c t h) (iblk m c 3 t) (blk3 m c t)
      (iblk m c 1 t) (iblk m c 5 t) (iblk m c 6 t) (blk1 m c t h) (blk5 m c t) (blk6 m c t)
      (iblk m c 2 t) (iblk m c 7 t) (iblk m c 8 t) (blk2 m c t h) (blk7 m c t) (blk8 m c t)
      (iblk m c 9 t) (iblk m c 10 t) (iblk m c 11 t) (iblk m c 12 t) (blk9 m c t) (blk10 m c t) (blk11 m c t) (blk12 m c t)
      (iblk m c 13 t) (iblk m c 14 t) (blk13 m c t) (blk14 m c t) prev e j hp

theorem keepB_m2t (t : Fin cfg0.N) (h0 : t.val ≠ 0) (h25 : t.val < 25) (p : St Ideal) : (stepB m c t h0 h25 p).m2t = p.m2t := by
  dsimp only [stepB]
theorem keepC_de (t : Fin cfg0.N) (e25 : t.val = 25) (p : St Ideal) : (stepC m c t e25 p).de = p.de := by
  dsimp only [stepC]
theorem keepC_g (t : Fin cfg0.N) (e25 : t.val = 25) (p : St Ideal) : (stepC m c t e25 p).g = p.g := by
  dsimp only [stepC]
theorem keepD_de (t : Fin cfg0.N) (l25 : 25 < t.val) (h35 : t.val < 35) (p : St Ideal) : (stepD m c t l25 h35 p).de = p.de := by
  dsimp only [stepD]
theorem keepD_mn (t : Fin cfg0.N) (l25 : 25 < t.val) (h35 : t.val < 35) (p : St Ideal) : (stepD m c t l25 h35 p).mn = p.mn := by
  dsimp only [stepD]
theorem keepD_g (t : Fin cfg0.N) (l25 : 25 < t.val) (h35 : t.val < 35) (p : St Ideal) : (stepD m c t l25 h35 p).g = p.g := by
  dsimp only [stepD]
theorem keepE_g (t : Fin cfg0.N) (e35 : t.val = 35) (p : St Ideal) : (stepE m c t e35 p).g = p.g := by
  dsimp only [stepE]
theorem keepF_mn (t : Fin cfg0.N) (l35 : 35 < t.val) (p : St Ideal) : (stepF m c t l35 p).mn = p.mn := by
  dsimp only [stepF]
theorem keepF_g (t : Fin cfg0.N) (l35 : 35 < t.val) (p : St Ideal) : (stepF m c t l35 p).g = p.g := by
  dsimp only [stepF]

theorem st_congr (n n' : ℕ) (h : n = n') (hn : n < cfg0.N) (hn' : n' < cfg0.N) : st m c n hn = st m c n' hn' := by
  subst h; rfl

structure Inv0 (n : ℕ) (hn : n < cfg0.N) : Prop where
  de : ∀ j : Fin 2048, (st m c n hn).de (ix2 (0 : Fin 1) j) = psum (fun i => (argsOf m c).H i j) (400 * (n + 1))
  m1t : ∀ (e : Fin 64) (j : Fin 2048), (st m c n hn).m1t (ix2 e j) = psum (fun i => (Cert.Spec.xc1 (argsOf m c) i e * Cert.Spec.s (argsOf m c) i) * (argsOf m c).H i j) (400 * (n + 1))
  m2t : (st m c n hn).m2t = k0_pay3 (F := Ideal)

theorem inv0 : ∀ (n : ℕ) (hn : n < cfg0.N), n < 25 → Inv0 m c n hn
  | 0, hn, _ => by
    have e0 : st m c 0 hn = stepA m c ⟨0, hn⟩ rfl := rfl
    have h0 : (⟨0, hn⟩ : Fin cfg0.N).val < 25 := Nat.zero_lt_succ _
    refine ⟨fun j => ?_, fun e j => ?_, ?_⟩
    · rw [e0, stepA_de]
      exact de_step m c ⟨0, hn⟩ h0 _ j (by rw [pay1_at]; exact (psum_zero _).symm)
    · rw [e0, stepA_m1t]
      exact m1_step m c ⟨0, hn⟩ h0 _ e j (by rw [pay2_at]; exact (psum_zero _).symm)
    · rw [e0, stepA_m2t]
  | n + 1, hn, h25 => by
    have ih := inv0 n (Nat.lt_of_succ_lt hn) (by omega)
    have e1 : st m c (n + 1) hn = stepB m c ⟨n + 1, hn⟩ (Nat.succ_ne_zero n) h25 (st m c n (Nat.lt_of_succ_lt hn)) :=
      dif_pos h25
    refine ⟨fun j => ?_, fun e j => ?_, ?_⟩
    · rw [e1, stepB_de]
      exact de_step m c ⟨n + 1, hn⟩ h25 _ j (ih.de j)
    · rw [e1, stepB_m1t]
      exact m1_step m c ⟨n + 1, hn⟩ h25 _ e j (ih.m1t e j)
    · rw [e1, keepB_m2t]; exact ih.m2t

theorem g_early (t : Fin cfg0.N) (h : t.val < 25) (r : Fin 400) (d : Fin 32) :
    (st m c t.val t.isLt).g (ix2 r d) = Cert.Spec.gate (argsOf m c) (row400 t h r) d := by
  by_cases hz : t.val = 0
  · rw [st_A m c t hz, stepA_g]; exact gate_step m c t h r d
  · rw [st_B m c t hz h, stepB_g]; exact gate_step m c t h r d

structure Inv1 (n : ℕ) (hn : n < cfg0.N) : Prop where
  de : ∀ j : Fin 2048, (st m c n hn).de (ix2 (0 : Fin 1) j) = Cert.Spec.de (argsOf m c) j
  mn : ∀ (j : Fin 2048) (e : Fin 64), (st m c n hn).mn (ix2 j e) = Cert.Spec.mn1 (argsOf m c) j e
  m2t : ∀ (e : Fin 64) (j : Fin 2048), (st m c n hn).m2t (ix2 e j) = psum (fun i => (Cert.Spec.x2 (argsOf m c) i e * Cert.Spec.s (argsOf m c) i) * (argsOf m c).H i j) (1000 * (n - 24))
  g : (st m c n hn).g = (st m c 24 (by have : cfg0.N = 45 := N_0; omega)).g

theorem inv1 : ∀ (n : ℕ) (hn : n < cfg0.N), 25 ≤ n → n < 35 → Inv1 m c n hn
  | 0, _, h, _ => absurd h (by decide)
  | n + 1, hn, h25, h35 => by
    by_cases e25 : n + 1 = 25
    ·
      have p0 := inv0 m c n (Nat.lt_of_succ_lt hn) (by omega)
      have e1 : st m c (n + 1) hn = stepC m c ⟨n + 1, hn⟩ e25 (st m c n (Nat.lt_of_succ_lt hn)) :=
        (dif_neg (by omega)).trans (dif_pos e25)
      have h10 : 400 * (n + 1) = 10000 := by omega
      have hde : ∀ j : Fin 2048, (st m c n (Nat.lt_of_succ_lt hn)).de (ix2 (0 : Fin 1) j) = Cert.Spec.de (argsOf m c) j :=
        fun j => by rw [p0.de j, h10]; exact de_full (argsOf m c) j
      have hm1 : ∀ (e : Fin 64) (j : Fin 2048), (st m c n (Nat.lt_of_succ_lt hn)).m1t (ix2 e j) = psum (fun i => (Cert.Spec.xc1 (argsOf m c) i e * Cert.Spec.s (argsOf m c) i) * (argsOf m c).H i j) 10000 :=
        fun e j => by rw [p0.m1t e j, h10]
      have hmn : ∀ (j : Fin 2048) (e : Fin 64),
          k0_pay5 (F := Ideal) (iblk m c 4 ⟨n + 1, hn⟩) (st m c n (Nat.lt_of_succ_lt hn)).de (st m c n (Nat.lt_of_succ_lt hn)).m1t (ix2 j e) = Cert.Spec.mn1 (argsOf m c) j e :=
        fun j e => mn1_at (argsOf m c) (iblk m c 4 ⟨n + 1, hn⟩) _ _ (blk4 m c ⟨n + 1, hn⟩) hde hm1 j e
      refine ⟨fun j => ?_, fun j e => ?_, fun e j => ?_, ?_⟩
      · rw [e1, keepC_de]; exact hde j
      · rw [e1, stepC_mn]; exact hmn j e
      · rw [e1, stepC_m2t, p0.m2t, show n + 1 - 24 = 1 by omega]
        exact m2_tile0 (argsOf m c) (row1000a ⟨n + 1, hn⟩ h25 h35)
          (fun r => by show 1000 * (n + 1 - 25) + r.val = 1000 * 0 + r.val; omega) (slab m c ⟨n + 1, hn⟩)
          (iblk m c 3 ⟨n + 1, hn⟩) _ (slab_row m c ⟨n + 1, hn⟩ h25 h35) (blk3 m c ⟨n + 1, hn⟩) hmn
          (iblk m c 15 ⟨n + 1, hn⟩) (iblk m c 16 ⟨n + 1, hn⟩) (blk15 m c ⟨n + 1, hn⟩) (blk16 m c ⟨n + 1, hn⟩) e j
      · rw [e1, keepC_g]; exact congrArg St.g (st_congr m c n 24 (by omega) _ _)
    ·
      have ih := inv1 n (Nat.lt_of_succ_lt hn) (by omega) (by omega)
      have l25 : 25 < n + 1 := by omega
      have e1 : st m c (n + 1) hn = stepD m c ⟨n + 1, hn⟩ l25 h35 (st m c n (Nat.lt_of_succ_lt hn)) :=
        (dif_neg (by omega)).trans ((dif_neg e25).trans (dif_pos h35))
      have a1 : n - 24 = n + 1 - 25 := by omega
      have a2 : n + 1 - 24 = n + 1 - 25 + 1 := by omega
      refine ⟨fun j => ?_, fun j e => ?_, fun e j => ?_, ?_⟩
      · rw [e1, keepD_de]; exact ih.de j
      · rw [e1, keepD_mn]; exact ih.mn j e
      · rw [e1, stepD_m2t, a2]
        exact m2_tile (argsOf m c) (row1000a ⟨n + 1, hn⟩ h25 h35) (n + 1 - 25) (fun _ => rfl) (slab m c ⟨n + 1, hn⟩)
          (iblk m c 3 ⟨n + 1, hn⟩) _ (slab_row m c ⟨n + 1, hn⟩ h25 h35) (blk3 m c ⟨n + 1, hn⟩) ih.mn
          (iblk m c 15 ⟨n + 1, hn⟩) (iblk m c 16 ⟨n + 1, hn⟩) (blk15 m c ⟨n + 1, hn⟩) (blk16 m c ⟨n + 1, hn⟩) _ e j
          (by rw [← a1]; exact ih.m2t e j)
      · rw [e1, keepD_g]; exact ih.g

structure Inv2 (n : ℕ) (hn : n < cfg0.N) : Prop where
  mn : ∀ (j : Fin 2048) (e : Fin 64), (st m c n hn).mn (ix2 j e) = Cert.Spec.mn2 (argsOf m c) j e
  lg : ∀ (h35 : 35 ≤ n) (r : Fin 1000) (o : Fin 2),
    (st m c n hn).lg (ix2 r o) = Cert.Spec.logits (argsOf m c) (row1000b ⟨n, hn⟩ h35 r) o
  g : (st m c n hn).g = (st m c 24 (by have : cfg0.N = 45 := N_0; omega)).g

theorem inv2 : ∀ (n : ℕ) (hn : n < cfg0.N), 35 ≤ n → Inv2 m c n hn
  | 0, _, h => absurd h (by decide)
  | n + 1, hn, h35 => by
    by_cases e35 : n + 1 = 35
    ·
      have p1 := inv1 m c n (Nat.lt_of_succ_lt hn) (by omega) (by omega)
      have e1 : st m c (n + 1) hn = stepE m c ⟨n + 1, hn⟩ e35 (st m c n (Nat.lt_of_succ_lt hn)) :=
        (dif_neg (by omega)).trans ((dif_neg (by omega)).trans ((dif_neg (by omega)).trans (dif_pos e35)))
      have h10 : 1000 * (n - 24) = 10000 := by omega
      have hm2 : ∀ (e : Fin 64) (j : Fin 2048), (st m c n (Nat.lt_of_succ_lt hn)).m2t (ix2 e j) = psum (fun i => (Cert.Spec.x2 (argsOf m c) i e * Cert.Spec.s (argsOf m c) i) * (argsOf m c).H i j) 10000 :=
        fun e j => by rw [p1.m2t e j, h10]
      have hmn : ∀ (j : Fin 2048) (e : Fin 64),
          k0_pay7 (F := Ideal) (iblk m c 4 ⟨n + 1, hn⟩) (st m c n (Nat.lt_of_succ_lt hn)).de (st m c n (Nat.lt_of_succ_lt hn)).m2t (ix2 j e) = Cert.Spec.mn2 (argsOf m c) j e :=
        fun j e => mn2_at (argsOf m c) (iblk m c 4 ⟨n + 1, hn⟩) _ _ (blk4 m c ⟨n + 1, hn⟩) p1.de hm2 j e
      refine ⟨fun j e => ?_, fun h r o => ?_, ?_⟩
      · rw [e1, stepE_mn]; exact hmn j e
      · rw [e1, stepE_lg]
        exact logits_tile (argsOf m c) (row1000b ⟨n + 1, hn⟩ h) (slab' m c ⟨n + 1, hn⟩) (iblk m c 3 ⟨n + 1, hn⟩) _
          (slab'_row m c ⟨n + 1, hn⟩ h) (blk3 m c ⟨n + 1, hn⟩) hmn
          (iblk m c 17 ⟨n + 1, hn⟩) (iblk m c 18 ⟨n + 1, hn⟩) (blk17 m c ⟨n + 1, hn⟩) (blk18 m c ⟨n + 1, hn⟩) r o
      · rw [e1, keepE_g]; exact p1.g
    ·
      have ih := inv2 n (Nat.lt_of_succ_lt hn) (by omega)
      have l35 : 35 < n + 1 := by omega
      have e1 : st m c (n + 1) hn = stepF m c ⟨n + 1, hn⟩ l35 (st m c n (Nat.lt_of_succ_lt hn)) :=
        (dif_neg (by omega)).trans ((dif_neg (by omega)).trans ((dif_neg (by omega)).trans ((dif_neg e35).trans rfl)))
      refine ⟨fun j e => ?_, fun h r o => ?_, ?_⟩
      · rw [e1, keepF_mn]; exact ih.mn j e
      · rw [e1, stepF_lg]
        exact logits_tile (argsOf m c) (row1000b ⟨n + 1, hn⟩ h) (slab' m c ⟨n + 1, hn⟩) (iblk m c 3 ⟨n + 1, hn⟩) _
          (slab'_row m c ⟨n + 1, hn⟩ h) (blk3 m c ⟨n + 1, hn⟩) ih.mn
          (iblk m c 17 ⟨n + 1, hn⟩) (iblk m c 18 ⟨n + 1, hn⟩) (blk17 m c ⟨n + 1, hn⟩) (blk18 m c ⟨n + 1, hn⟩) r o
      · rw [e1, keepF_g]; exact ih.g

theorem g_kept (t : Fin cfg0.N) (h : 25 ≤ t.val) :
    (st m c t.val t.isLt).g = (st m c 24 (by have : cfg0.N = 45 := N_0; omega)).g := by
  by_cases h35 : t.val < 35
  · exact (inv1 m c t.val t.isLt h h35).g
  · exact (inv2 m c t.val t.isLt (by omega)).g

theorem g_at (t : Fin cfg0.N) (h : t.val < 25) (r : Fin 400) (d : Fin 32) :
    (Cert.KernelIdeal.Body.st m c t.val t.isLt).g (ix2 r d)
      = Cert.Spec.gate (argsOf m c) ⟨400 * t.val + r.val, by omega⟩ d :=
  g_early m c t h r d

theorem g_late (t : Fin cfg0.N) (h : 25 ≤ t.val) (r : Fin 400) (d : Fin 32) :
    (Cert.KernelIdeal.Body.st m c t.val t.isLt).g (ix2 r d)
      = Cert.Spec.gate (argsOf m c) ⟨400 * 24 + r.val, by omega⟩ d := by
  rw [g_kept m c t h]
  exact g_early m c ⟨24, (by have : cfg0.N = 45 := N_0; omega)⟩ (Nat.lt_succ_self 24) r d

theorem lg_at (t : Fin cfg0.N) (h : 35 ≤ t.val) (r : Fin 1000) (o : Fin 2) :
    (Cert.KernelIdeal.Body.st m c t.val t.isLt).lg (ix2 r o)
      = Cert.Spec.logits (argsOf m c) ⟨1000 * (t.val - 35) + r.val, by have := t.isLt; have : cfg0.N = 45 := N_0; omega⟩ o :=
  (inv2 m c t.val t.isLt h).lg h r o

end Cert.KernelIdeal.Values

end
-- ==== Proof.KI.HqStep.lean ====
import proofs.«181959_g40587440947829_cont_sun_m_1101_20_alg».proof.Proof.KI.Steps
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by
  funext a; fin_cases a <;> rfl

theorem lsA_eq (c : Dev nD) (t : Fin cfg0.N) (hz : t.val = 0) :
    lsA m c t hz = [⟨Rect.unit (s := S10000x2048) (k0_off1 (grid0.coords t)) S400x2048.size
      (k0_off1_inb (grid0.coords t) ((hg2 t).mpr (by omega))), k0_pay10 (iblk m c 0 t)⟩] := by
  unfold lsA runA kernelRunA bufs blks
  dsimp only
  simp only [View.readAt_eq_ld, Memref.IsWhole.read_unread, View.ld_unit_zero (S := S400x2048) hz2]

theorem lsB_eq (c : Dev nD) (t : Fin cfg0.N) (h0 : t.val ≠ 0) (h25 : t.val < 25) (p : St F) :
    lsB m c t h0 h25 p = [⟨Rect.unit (s := S10000x2048) (k0_off1 (grid0.coords t)) S400x2048.size
      (k0_off1_inb (grid0.coords t) ((hg2 t).mpr h25)), k0_pay10 (iblk m c 0 t)⟩] := by
  unfold lsB runB kernelRunB bufs blks
  dsimp only
  simp only [View.readAt_eq_ld, Memref.IsWhole.read_unread, View.ld_unit_zero (S := S400x2048) hz2]

theorem pay10_eq_HqFull (c : Dev nD) (t : Fin cfg0.N) (y : S10000x2048.Idx)
    (hlo : 400 * t.val ≤ (y 0).val) (hhi : (y 0).val < 400 * (t.val + 1))
    (hlt : (y 0).val - 400 * t.val < 400) :
    k0_pay10 (F := F) (iblk m c 0 t)
        (ValueIdx.ix2 (⟨(y 0).val - 400 * t.val, hlt⟩ : Fin 400) (⟨(y 1).val, ValueIdx.idx2_lt1 y⟩ : Fin 2048))
      = HqFull m c y := by
  unfold HqFull
  have key : ∀ (t' : Fin cfg0.N) (_ : t' = t) (x x' : S400x2048.Idx) (_ : x = x'),
      k0_pay10 (F := F) (iblk m c 0 t) x = k0_pay10 (F := F) (iblk m c 0 t') x' := by
    intro t' ht x x' hx; subst ht; subst hx; rfl
  refine key _ (Fin.ext ?_) _ _ ?_
  · show (y 0).val / 400 = t.val
    omega
  · have e : (⟨(y 0).val - 400 * t.val, hlt⟩ : Fin 400) = ⟨(y 0).val % 400, Nat.mod_lt _ (by norm_num)⟩ :=
      Fin.ext (by show (y 0).val - 400 * t.val = (y 0).val % 400; omega)
    rw [e]

theorem HQ_stepA (c : Dev nD) (t : Fin cfg0.N) (hz : t.val = 0) (hq : Vec F S10000x2048 .bf16) :
    HQ m c (t.val + 1) (VS0.read (Elt F) (VS0.writes (Elt F) ((Memref.isWhole_whole cc0_scratch0 : (scM0 : Memref sig .tc .vmem S10000x2048 .bf16).IsWhole).unread hq) (lsA m c t hz))) := by
  intro y hy
  rw [lsA_eq]
  have hlt : (y 0).val - 400 * t.val < 400 := by omega
  refine (View.read_writes_cons_rows_of_mem (Val := Elt F) VS0 _ (k0_off1_inb (grid0.coords t) ((hg2 t).mpr (by omega))) (k0_pay10 (iblk m c 0 t)) [] y
    (ValueIdx.ix2 (⟨(y 0).val - 400 * t.val, hlt⟩ : Fin 400) (⟨(y 1).val, ValueIdx.idx2_lt1 y⟩ : Fin 2048))
    (off1_eq t (by omega)) (by show (y 0).val = 400 * t.val + ((y 0).val - 400 * t.val); omega) rfl).trans ?_
  exact pay10_eq_HqFull m c t y (by omega) hy hlt

theorem HQ_stepB (c : Dev nD) (t : Fin cfg0.N) (h0 : t.val ≠ 0) (h25 : t.val < 25) (hq : Vec F S10000x2048 .bf16) (h : HQ m c t.val hq) :
    HQ m c (t.val + 1) (VS0.read (Elt F) (VS0.writes (Elt F) ((Memref.isWhole_whole cc0_scratch0 : (scM0 : Memref sig .tc .vmem S10000x2048 .bf16).IsWhole).unread hq) (lsB m c t h0 h25 (prev m c t)))) := by
  intro y hy
  rw [lsB_eq]
  by_cases hrow : 400 * t.val ≤ (y 0).val
  ·
    have hlt : (y 0).val - 400 * t.val < 400 := by omega
    refine (View.read_writes_cons_rows_of_mem (Val := Elt F) VS0 _ (k0_off1_inb (grid0.coords t) ((hg2 t).mpr h25)) (k0_pay10 (iblk m c 0 t)) [] y
      (ValueIdx.ix2 (⟨(y 0).val - 400 * t.val, hlt⟩ : Fin 400) (⟨(y 1).val, ValueIdx.idx2_lt1 y⟩ : Fin 2048))
      (off1_eq t h25) (by show (y 0).val = 400 * t.val + ((y 0).val - 400 * t.val); omega) rfl).trans ?_
    exact pay10_eq_HqFull m c t y hrow hy hlt
  ·
    refine (View.read_writes_cons_rows_of_not_mem (Val := Elt F) VS0 _ (k0_off1_inb (grid0.coords t) ((hg2 t).mpr h25)) (k0_pay10 (iblk m c 0 t)) [] y
      (off1_eq t h25) (W := 400) rfl (Or.inl (by omega))).trans ?_
    rw [View.writes_nil, Memref.IsWhole.read_unread]
    exact h y (by omega)

theorem HQ_full (c : Dev nD) (n : ℕ) (hn : 25 ≤ n) (hq : Vec F S10000x2048 .bf16) (h : HQ m c n hq) : hq = HqFull m c := by
  funext y
  exact h y (by have := ValueIdx.idx2_lt0 y; omega)

theorem HQ_HqFull (c : Dev nD) (n : ℕ) : HQ m c n (HqFull m c) := fun _ _ => rfl

end Cert.KernelIdeal.Body

end
-- ==== Proof.KI.FrameDefs.lean ====
import proofs.«181959_g40587440947829_cont_sun_m_1101_20_alg».proof.Proof.KI.HqStep

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch buffers hold between points: the copied prefix of H and the accumulators as the recursion over the points gives them. -/
def PhiS (c : Dev nD) : (n : ℕ) → n ≤ cfg0.N → sProp 𝕄
  | 0, _ => Pipeline.ΦA spec0 c
  | n + 1, hn => iprop(iprop((∃ hq, ⌜HQ m c (n + 1) hq⌝ ∗ owns (c : Thread nD τ) scM0 fullShare hq) ∗ owns (c : Thread nD τ) scM1 fullShare (st m c n hn).de ∗ owns (c : Thread nD τ) scM2 fullShare (st m c n hn).m1t ∗ owns (c : Thread nD τ) scM3 fullShare (st m c n hn).m2t ∗ (∃ mn, ⌜25 ≤ n → mn = (st m c n hn).mn⌝ ∗ owns (c : Thread nD τ) scM4 fullShare mn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ hq, ⌜HQ m c (n + 1) hq⌝ ∗ owns (c : Thread nD τ) scM0 fullShare hq) ∗ owns (c : Thread nD τ) scM1 fullShare (st m c n hn).de ∗ owns (c : Thread nD τ) scM2 fullShare (st m c n hn).m1t ∗ owns (c : Thread nD τ) scM3 fullShare (st m c n hn).m2t ∗ (∃ mn, ⌜25 ≤ n → mn = (st m c n hn).mn⌝ ∗ owns (c : Thread nD τ) scM4 fullShare mn)) ∗ (∃ r, prngReg c r)) := rfl

theorem PhiS_pos (c : Dev nD) (t : Fin cfg0.N) (hz : t.val ≠ 0) :
    PhiS m c t.val (Nat.le_of_lt t.isLt) = iprop(iprop((∃ hq, ⌜HQ m c t.val hq⌝ ∗ owns (c : Thread nD τ) scM0 fullShare hq) ∗ owns (c : Thread nD τ) scM1 fullShare (prev m c t).de ∗ owns (c : Thread nD τ) scM2 fullShare (prev m c t).m1t ∗ owns (c : Thread nD τ) scM3 fullShare (prev m c t).m2t ∗ (∃ mn, ⌜25 ≤ t.val - 1 → mn = (prev m c t).mn⌝ ∗ owns (c : Thread nD τ) scM4 fullShare mn)) ∗ (∃ r, prngReg c r)) := by
  obtain ⟨n, hn⟩ := t
  cases n with
  | zero => exact absurd rfl hz
  | succ n => rfl

/-- The proof data: operand windows keep their blocks; the two result windows hold what the recursion over the points says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (st m c t.val t.isLt).g
    | ⟨20, _⟩ => (st m c t.val t.isLt).lg
    | ⟨_ + 21, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = (st m c t.val t.isLt).g := by dsimp only [dats]
theorem after20 (c : Dev nD) (t : Fin cfg0.N) : (dats m 0 c).after 20 t = (st m c t.val t.isLt).lg := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d
theorem before15 (c : Dev nD) (t : Fin cfg0.N) (d) : (dats m 0 c).before 15 t d = iblk m c 15 t :=
  before0_15_of m (dats m 0 c) (A_eq m c 15) (after15 m c) t d
theorem before16 (c : Dev nD) (t : Fin cfg0.N) (d) : (dats m 0 c).before 16 t d = iblk m c 16 t :=
  before0_16_of m (dats m 0 c) (A_eq m c 16) (after16 m c) t d
theorem before17 (c : Dev nD) (t : Fin cfg0.N) (d) : (dats m 0 c).before 17 t d = iblk m c 17 t :=
  before0_17_of m (dats m 0 c) (A_eq m c 17) (after17 m c) t d
theorem before18 (c : Dev nD) (t : Fin cfg0.N) (d) : (dats m 0 c).before 18 t d = iblk m c 18 t :=
  before0_18_of m (dats m 0 c) (A_eq m c 18) (after18 m c) t d

theorem leaves0 (c : Dev nD) (t : Fin cfg0.N) : (dats m 0 c).leavesExact 0 t = owns (c : Thread nD τ) (ms0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (cfg0.grid.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (cfg0.grid.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (cfg0.grid.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (cfg0.grid.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (cfg0.grid.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (cfg0.grid.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (cfg0.grid.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (cfg0.grid.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (cfg0.grid.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (cfg0.grid.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (cfg0.grid.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (cfg0.grid.coords t) = false from rfl, after14]
theorem leaves15 (c : Dev nD) (t : Fin cfg0.N) : (dats m 0 c).leavesExact 15 t = owns (c : Thread nD τ) (ms15 t) fullShare (iblk m c 15 t) := by
  unfold Dat.leavesExact; rw [show cfg0.idle 15 (cfg0.grid.coords t) = false from rfl, after15]
theorem leaves16 (c : Dev nD) (t : Fin cfg0.N) : (dats m 0 c).leavesExact 16 t = owns (c : Thread nD τ) (ms16 t) fullShare (iblk m c 16 t) := by
  unfold Dat.leavesExact; rw [show cfg0.idle 16 (cfg0.grid.coords t) = false from rfl, after16]
theorem leaves17 (c : Dev nD) (t : Fin cfg0.N) : (dats m 0 c).leavesExact 17 t = owns (c : Thread nD τ) (ms17 t) fullShare (iblk m c 17 t) := by
  unfold Dat.leavesExact; rw [show cfg0.idle 17 (cfg0.grid.coords t) = false from rfl, after17]
theorem leaves18 (c : Dev nD) (t : Fin cfg0.N) : (dats m 0 c).leavesExact 18 t = owns (c : Thread nD τ) (ms18 t) fullShare (iblk m c 18 t) := by
  unfold Dat.leavesExact; rw [show cfg0.idle 18 (cfg0.grid.coords t) = false from rfl, after18]

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ d, owns (c : Thread nD τ) (ms20 t) fullShare ((dats m 0 c).before 20 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

end Cert.KernelIdeal.Body

end
-- ==== Proof.KI.Late19.lean ====
import proofs.«181959_g40587440947829_cont_sun_m_1101_20_alg».proof.Proof.KI.FrameDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem st_g_keep (c : Dev nD) (t : Fin cfg0.N) (h : 25 ≤ t.val) : (st m c t.val t.isLt).g = (prev m c t).g := by
  by_cases e25 : t.val = 25
  · rw [st_C m c t e25]; dsimp only [stepC]
  · by_cases h35 : t.val < 35
    · rw [st_D m c t (by omega) h35]; dsimp only [stepD]
    · by_cases e35 : t.val = 35
      · rw [st_E m c t e35]; dsimp only [stepE]
      · rw [st_F m c t (by omega)]; dsimp only [stepF]

abbrev pred19 (t : Fin cfg0.N) : Fin cfg0.N := ⟨t.val - 1, Nat.lt_of_le_of_lt (Nat.sub_le _ _) t.isLt⟩

theorem noflush19 (t : Fin cfg0.N) (h : 25 ≤ t.val) : (cfg0.win 19).flush (pred19 t) = false := by
  cases hb : (cfg0.win 19).flush (pred19 t) with
  | false => rfl
  | true =>
    have h1 := (flush19 (pred19 t)).mp hb
    have h2 : (pred19 t).val = t.val - 1 := rfl
    have h3 := t.isLt
    have h4 : cfg0.N = 45 := N_0
    omega

theorem before19_aux (c : Dev nD) (d) : ∀ (k : ℕ) (t : Fin cfg0.N), t.val = 25 + k →
    (dats m 0 c).before 19 t d = (st m c t.val t.isLt).g := by
  intro k
  induction k with
  | zero =>
    intro t ht
    have h : 25 ≤ t.val := by omega
    rw [(dats m 0 c).before_of_pos 19 t (by omega) ((cfg0.win 19).fetch_out rfl t)]
    rw [show (cfg0.win 19).flush ⟨t.val - 1, Nat.lt_of_le_of_lt (Nat.sub_le _ _) t.isLt⟩ = false from noflush19 t h,
      if_neg Bool.false_ne_true]
    unfold Dat.left

    have hl : cfg0.idle 19 (cfg0.grid.coords (pred19 t)) = false := live19 (pred19 t) (by show t.val - 1 < 25; omega)
    rw [hl]
    unfold Dat.kept
    rw [Pipeline.fill_of_clip_none 19 _ (fun _ => rfl) d ((dats m 0 c).after 19 (pred19 t)), (cfg0.win 19).fill_cut, after19]
    exact (st_g_keep m c t h).symm
  | succ k ih =>
    intro t ht
    have h : 25 ≤ t.val := by omega
    rw [(dats m 0 c).before_of_pos 19 t (by omega) ((cfg0.win 19).fetch_out rfl t)]
    rw [show (cfg0.win 19).flush ⟨t.val - 1, Nat.lt_of_le_of_lt (Nat.sub_le _ _) t.isLt⟩ = false from noflush19 t h,
      if_neg Bool.false_ne_true]
    unfold Dat.left

    have hi : cfg0.idle 19 (cfg0.grid.coords (pred19 t)) = true := idle19 (pred19 t) (by show 25 ≤ t.val - 1; omega)
    rw [hi]
    show (dats m 0 c).before 19 (pred19 t) d = _
    rw [ih (pred19 t) (by show t.val - 1 = 25 + k; omega)]
    exact (st_g_keep m c t h).symm

theorem before19_late (c : Dev nD) (t : Fin cfg0.N) (h : 25 ≤ t.val) (d) :
    (dats m 0 c).before 19 t d = (st m c t.val t.isLt).g :=
  before19_aux m c d (t.val - 25) t (by omega)

theorem leaves19_late_intro (c : Dev nD) (t : Fin cfg0.N) (h : 25 ≤ t.val) (d) :
    owns (c : Thread nD τ) (ms19 t) fullShare ((dats m 0 c).before 19 t d) ⊢ (dats m 0 c).leavesExact 19 t := by
  have hi : cfg0.idle 19 (cfg0.grid.coords t) = true := idle19 t h
  by_cases e : t.val = 44
  ·
    have hf : (cfg0.win 19).flush t = true := (flush19 t).mpr (Or.inr e)
    have hle : (dats m 0 c).leavesExact 19 t
        = owns (c : Thread nD τ) ((cfg0.win 19).stage (cfg0.slots t 19)) fullShare ((dats m 0 c).after 19 t) := by
      unfold Dat.leavesExact; rw [hi, hf]
    rw [hle, before19_late m c t h d, after19]
  ·
    have hf : (cfg0.win 19).flush t = false := by
      cases hb : (cfg0.win 19).flush t with
      | false => rfl
      | true => have := (flush19 t).mp hb; omega
    rw [(dats m 0 c).leavesExact_idle 19 t hi hf]
    iintro H; iexists d; iexact H

end Cert.KernelIdeal.Body

end
-- ==== Proof.KI.SoundA.lean ====
import proofs.«181959_g40587440947829_cont_sun_m_1101_20_alg».proof.Proof.KI.Late19
import proofs.«181959_g40587440947829_cont_sun_m_1101_20_alg».proof.Proof.KI.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundA (c : Dev nD) (t : Fin cfg0.N) (hz : t.val = 0) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [show (dats m 0 c).leavesExact 19 t = owns (c : Thread nD τ) (ms19 t) fullShare ((dats m 0 c).after 19 t) from by
    unfold Dat.leavesExact; rw [live19 t (by omega)], after19]
  rw [Dat.leavesExact_idle (dats m 0 c) 20 t (idle20 t (by omega)) (by have := flush20 t; cases hf : (cfg0.win 20).flush t with | false => rfl | true => exact absurd (this.mp hf) (by omega))]
  rw [st_A m c t hz]
  dsimp only [stepA]
  rw [PhiS_castSucc m c t, PhiS_zero m c _ _ hz, PhiA0_eq]
  iintro ⟨⟨⟨⟨%hq, HS0⟩, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runA m c t hz).2.2.2.2.2 ((dats m 0 c).before 20 t d20) hq Set.univ _)
  simp only [ins, bufs, blks]
  iframe H0 H1 H2 H3 H4 H5 H6 H7 H8 H9 H10 H11 H12 H13 H14 H15 H16 H17 H18 H20 HS0 HS1 HS2 HS3 HS4
  isplitl [H19]; · iexists _; iexact H19
  iintro ⟨⟨H0, H1, H2, H3, H4, H5, H6, H7, H8, H9, H10, H11, H12, H13, H14, H15, H16, H17, H18⟩, ⟨%e0, H19⟩, H20, HS0, ⟨%e3, HS1⟩, ⟨%e4, HS2⟩, ⟨%e5, HS3⟩, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists _; isplitr; · ipureintro; exact HQ_stepA m c t hz hq
        iapply owns_intro; iexact HS0
      isplitl [HS1]
      · unfold owns; iexists _; isplitr; swap; · iexact HS1
        ipureintro; exact View.read_writes_of_cover _ _ _ _ _ (coverA_LS1 m c t hz)
      isplitl [HS2]
      · unfold owns; iexists _; isplitr; swap; · iexact HS2
        ipureintro; exact View.read_writes_of_cover _ _ _ _ _ (coverA_LS2 m c t hz)
      isplitl [HS3]
      · unfold owns; iexists _; isplitr; swap; · iexact HS3
        ipureintro; exact View.read_writes_of_cover _ _ _ _ _ (coverA_LS3 m c t hz)
      icases HS4 with ⟨%mn', HS4⟩
      iexists mn'; isplitr; · ipureintro; intro h; omega
      iexact HS4
    iexact Hg
  isplitl [H19]
  · unfold owns; iexists _; isplitr; swap; · iexact H19
    ipureintro; exact View.read_writes_of_cover _ _ _ _ _ (coverA_L19 m c t hz)
  iexists d20; iexact H20

end Cert.KernelIdeal.Body

end
-- ==== Proof.KI.SoundB.lean ====
import proofs.«181959_g40587440947829_cont_sun_m_1101_20_alg».proof.Proof.KI.Late19
import proofs.«181959_g40587440947829_cont_sun_m_1101_20_alg».proof.Proof.KI.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundB (c : Dev nD) (t : Fin cfg0.N) (h0 : t.val ≠ 0) (h25 : t.val < 25) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [show (dats m 0 c).leavesExact 19 t = owns (c : Thread nD τ) (ms19 t) fullShare ((dats m 0 c).after 19 t) from by
    unfold Dat.leavesExact; rw [live19 t h25], after19]
  rw [Dat.leavesExact_idle (dats m 0 c) 20 t (idle20 t (by omega)) (by have := flush20 t; cases hf : (cfg0.win 20).flush t with | false => rfl | true => exact absurd (this.mp hf) (by omega))]
  rw [st_B m c t h0 h25]
  dsimp only [stepB]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runB m c t h0 h25 (prev m c t)).2.2.2.2 ((dats m 0 c).before 20 t d20) hq (prev m c t).m2t Set.univ _)
  simp only [ins, bufs, blks]
  iframe H0 H1 H2 H3 H4 H5 H6 H7 H8 H9 H10 H11 H12 H13 H14 H15 H16 H17 H18 H20 HS0 HS1 HS2 HS3
  isplitl [H19]; · iexists _; iexact H19
  isplitl [HS4]; · iexists _; iexact HS4
  iintro ⟨⟨H0, H1, H2, H3, H4, H5, H6, H7, H8, H9, H10, H11, H12, H13, H14, H15, H16, H17, H18⟩, ⟨%e0, H19⟩, H20, HS0, ⟨%e3, HS1⟩, ⟨%e4, HS2⟩, HS3, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists _; isplitr; · ipureintro; exact HQ_stepB m c t h0 h25 hq hHQ
        iapply owns_intro; iexact HS0
      isplitl [HS1]
      · unfold owns; iexists _; isplitr; swap; · iexact HS1
        ipureintro; exact View.read_writes_of_cover _ _ _ _ _ (coverB_LS1 m c t h0 h25 (prev m c t))
      isplitl [HS2]
      · unfold owns; iexists _; isplitr; swap; · iexact HS2
        ipureintro; exact View.read_writes_of_cover _ _ _ _ _ (coverB_LS2 m c t h0 h25 (prev m c t))
      isplitl [HS3]
      · iexact HS3
      icases HS4 with ⟨%mn', HS4⟩
      iexists mn'; isplitr; · ipureintro; intro h; omega
      iexact HS4
    iexact Hg
  isplitl [H19]
  · unfold owns; iexists _; isplitr; swap; · iexact H19
    ipureintro; exact View.read_writes_of_cover _ _ _ _ _ (coverB_L19 m c t h0 h25 (prev m c t))
  iexists d20; iexact H20

end Cert.KernelIdeal.Body

end
-- ==== Proof.KI.SoundC.lean ====
import proofs.«181959_g40587440947829_cont_sun_m_1101_20_alg».proof.Proof.KI.Late19
import proofs.«181959_g40587440947829_cont_sun_m_1101_20_alg».proof.Proof.KI.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundC (c : Dev nD) (t : Fin cfg0.N) (e25 : t.val = 25) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t (by omega)) (by have := flush19 t; cases hf : (cfg0.win 19).flush t with | false => rfl | true => exact absurd (this.mp hf) (by omega))]
  rw [Dat.leavesExact_idle (dats m 0 c) 20 t (idle20 t (by omega)) (by have := flush20 t; cases hf : (cfg0.win 20).flush t with | false => rfl | true => exact absurd (this.mp hf) (by omega))]
  rw [st_C m c t e25]
  dsimp only [stepC]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  iapply ((runC m c t e25 (prev m c t)).2.2 ((dats m 0 c).before 19 t d19) ((dats m 0 c).before 20 t d20) Set.univ _)
  simp only [ins, bufs, blks]
  iframe H0 H1 H2 H3 H4 H5 H6 H7 H8 H9 H10 H11 H12 H13 H14 H15 H16 H17 H18 H19 H20 HS0 HS1 HS2 HS3
  isplitl [HS4]; · iexists _; iexact HS4
  iintro ⟨⟨H0, H1, H2, H3, H4, H5, H6, H7, H8, H9, H10, H11, H12, H13, H14, H15, H16, H17, H18⟩, H19, H20, HS0, HS1, HS2, ⟨%e5, HS3⟩, ⟨%e6, HS4⟩⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · unfold owns; iexists _; isplitr; swap; · iexact HS3
        ipureintro; exact View.read_writes_of_cover _ _ _ _ _ (coverC_LS3 m c t e25 (prev m c t))
      iexists (VS4.read (Elt F) (VS4.writes (Elt F) VS4.junk (runC m c t e25 (prev m c t)).2.1)); isplitr; · ipureintro; intro _; rfl
      unfold owns; iexists _; isplitr; swap; · iexact HS4
      ipureintro; exact View.read_writes_of_cover _ _ _ _ _ (coverC_LS4 m c t e25 (prev m c t))
    iexact Hg
  isplitl [H19]
  · iexists d19; iexact H19
  iexists d20; iexact H20

end Cert.KernelIdeal.Body

end
-- ==== Proof.KI.SoundD.lean ====
import proofs.«181959_g40587440947829_cont_sun_m_1101_20_alg».proof.Proof.KI.Late19
import proofs.«181959_g40587440947829_cont_sun_m_1101_20_alg».proof.Proof.KI.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundD (c : Dev nD) (t : Fin cfg0.N) (l25 : 25 < t.val) (h35 : t.val < 35) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t (by omega)) (by have := flush19 t; cases hf : (cfg0.win 19).flush t with | false => rfl | true => exact absurd (this.mp hf) (by omega))]
  rw [Dat.leavesExact_idle (dats m 0 c) 20 t (idle20 t (by omega)) (by have := flush20 t; cases hf : (cfg0.win 20).flush t with | false => rfl | true => exact absurd (this.mp hf) (by omega))]
  rw [st_D m c t l25 h35]
  dsimp only [stepD]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  obtain rfl := hmn (by omega)
  iapply ((runD m c t l25 h35 (prev m c t)).2 ((dats m 0 c).before 19 t d19) ((dats m 0 c).before 20 t d20) (prev m c t).de (prev m c t).m1t Set.univ _)
  simp only [ins, bufs, blks]
  iframe H0 H1 H2 H3 H4 H5 H6 H7 H8 H9 H10 H11 H12 H13 H14 H15 H16 H17 H18 H19 H20 HS0 HS1 HS2 HS3 HS4
  iintro ⟨⟨H0, H1, H2, H3, H4, H5, H6, H7, H8, H9, H10, H11, H12, H13, H14, H15, H16, H17, H18⟩, H19, H20, HS0, HS1, HS2, ⟨%e5, HS3⟩, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · unfold owns; iexists _; isplitr; swap; · iexact HS3
        ipureintro; exact View.read_writes_of_cover _ _ _ _ _ (coverD_LS3 m c t l25 h35 (prev m c t))
      iexists _; isplitr; · ipureintro; intro _; rfl
      iexact HS4
    iexact Hg
  isplitl [H19]
  · iexists d19; iexact H19
  iexists d20; iexact H20

end Cert.KernelIdeal.Body

end
-- ==== Proof.KI.SoundE.lean ====
import proofs.«181959_g40587440947829_cont_sun_m_1101_20_alg».proof.Proof.KI.Late19
import proofs.«181959_g40587440947829_cont_sun_m_1101_20_alg».proof.Proof.KI.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundE (c : Dev nD) (t : Fin cfg0.N) (e35 : t.val = 35) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [Dat.leavesExact_idle (dats m 0 c) 19 t (idle19 t (by omega)) (by have := flush19 t; cases hf : (cfg0.win 19).flush t with | false => rfl | true => exact absurd (this.mp hf) (by omega))]
  rw [show (dats m 0 c).leavesExact 20 t = owns (c : Thread nD τ) (ms20 t) fullShare ((dats m 0 c).after 20 t) from by
    unfold Dat.leavesExact; rw [live20 t (by omega)], after20]
  rw [st_E m c t e35]
  dsimp only [stepE]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  iapply ((runE m c t e35 (prev m c t)).2.2 ((dats m 0 c).before 19 t d19) (prev m c t).m1t Set.univ _)
  simp only [ins, bufs, blks]
  iframe H0 H1 H2 H3 H4 H5 H6 H7 H8 H9 H10 H11 H12 H13 H14 H15 H16 H17 H18 H19 HS0 HS1 HS2 HS3
  isplitl [H20]; · iexists _; iexact H20
  isplitl [HS4]; · iexists _; iexact HS4
  iintro ⟨⟨H0, H1, H2, H3, H4, H5, H6, H7, H8, H9, H10, H11, H12, H13, H14, H15, H16, H17, H18⟩, H19, ⟨%e1, H20⟩, HS0, HS1, HS2, HS3, ⟨%e6, HS4⟩⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · iexact HS3
      iexists (VS4.read (Elt F) (VS4.writes (Elt F) VS4.junk (runE m c t e35 (prev m c t)).2.1)); isplitr; · ipureintro; intro _; rfl
      unfold owns; iexists _; isplitr; swap; · iexact HS4
      ipureintro; exact View.read_writes_of_cover _ _ _ _ _ (coverE_LS4 m c t e35 (prev m c t))
    iexact Hg
  isplitl [H19]
  · iexists d19; iexact H19
  unfold owns; iexists _; isplitr; swap; · iexact H20
  ipureintro; exact View.read_writes_of_cover _ _ _ _ _ (coverE_L20 m c t e35 (prev m c t))

end Cert.KernelIdeal.Body

end
-- ==== Proof.KI.SoundF.lean ====
import proofs.«181959_g40587440947829_cont_sun_m_1101_20_alg».proof.Proof.KI.Late19
import proofs.«181959_g40587440947829_cont_sun_m_1101_20_alg».proof.Proof.KI.Covers

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body obligation at a point of this case: from the invariant and the windows' buffers as found to the invariant and the buffers as the proof data says they are left. -/
theorem soundF (c : Dev nD) (t : Fin cfg0.N) (l35 : 35 < t.val) :
    bodyPre m c t ⊢ wp frame (wpE (defs₀ (F := F)) Variants.none c none) Set.univ (bodyAt0 t) (fun _ => bodyPost m c t) := by
  have hN : t.val < 45 := lt_of_lt_of_eq t.isLt (show cfg0.N = 45 from N_0)
  unfold bodyPre bodyPost bodyAt0
  simp only [before0, before1, before2, before3, before4, before5, before6, before7, before8, before9, before10, before11, before12, before13, before14, before15, before16, before17, before18]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4, leaves5, leaves6, leaves7, leaves8, leaves9, leaves10, leaves11, leaves12, leaves13, leaves14, leaves15, leaves16, leaves17, leaves18]
  rw [show (dats m 0 c).leavesExact 20 t = owns (c : Thread nD τ) (ms20 t) fullShare ((dats m 0 c).after 20 t) from by
    unfold Dat.leavesExact; rw [live20 t (by omega)], after20]
  rw [st_F m c t l35]
  dsimp only [stepF]
  rw [PhiS_castSucc m c t, PhiS_pos m c t (by omega)]
  iintro ⟨⟨⟨⟨%hq, %hHQ, HS0⟩, HS1, HS2, HS3, ⟨%mn, %hmn, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  obtain rfl := HQ_full m c t.val (by omega) hq hHQ
  obtain rfl := hmn (by omega)
  iapply ((runF m c t l35 (prev m c t)).2 ((dats m 0 c).before 19 t d19) (prev m c t).de (prev m c t).m1t (prev m c t).m2t Set.univ _)
  simp only [ins, bufs, blks]
  iframe H0 H1 H2 H3 H4 H5 H6 H7 H8 H9 H10 H11 H12 H13 H14 H15 H16 H17 H18 H19 HS0 HS1 HS2 HS3 HS4
  isplitl [H20]; · iexists _; iexact H20
  iintro ⟨⟨H0, H1, H2, H3, H4, H5, H6, H7, H8, H9, H10, H11, H12, H13, H14, H15, H16, H17, H18⟩, H19, ⟨%e1, H20⟩, HS0, HS1, HS2, HS3, HS4⟩
  iframe Ho H0 H1 H2 H3 H4 H5 H6 H7 H8 H9 H10 H11 H12 H13 H14 H15 H16 H17 H18
  isplitl [HS0 HS1 HS2 HS3 HS4 Hg]
  · isplitl [HS0 HS1 HS2 HS3 HS4]
    · isplitl [HS0]
      · iexists (HqFull m c); isplitr; · ipureintro; exact HQ_HqFull m c _
        iexact HS0
      isplitl [HS1]
      · iexact HS1
      isplitl [HS2]
      · iexact HS2
      isplitl [HS3]
      · iexact HS3
      iexists _; isplitr; · ipureintro; intro _; rfl
      iexact HS4
    iexact Hg
  isplitl [H19]
  · iapply leaves19_late_intro m c t (by omega) d19; iexact H19
  unfold owns; iexists _; isplitr; swap; · iexact H20
  ipureintro; exact View.read_writes_of_cover _ _ _ _ _ (coverF_L20 m c t l35 (prev m c t))

end Cert.KernelIdeal.Body

end
-- ==== Proof.KI.Frame.lean ====
import proofs.«181959_g40587440947829_cont_sun_m_1101_20_alg».proof.Proof.KI.SoundA
import proofs.«181959_g40587440947829_cont_sun_m_1101_20_alg».proof.Proof.KI.SoundB
import proofs.«181959_g40587440947829_cont_sun_m_1101_20_alg».proof.Proof.KI.SoundC
import proofs.«181959_g40587440947829_cont_sun_m_1101_20_alg».proof.Proof.KI.SoundD
import proofs.«181959_g40587440947829_cont_sun_m_1101_20_alg».proof.Proof.KI.SoundE
import proofs.«181959_g40587440947829_cont_sun_m_1101_20_alg».proof.Proof.KI.SoundF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every grid point falls in one of the six control cases. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact soundA m c t hz
  by_cases h25 : t.val < 25
  · exact soundB m c t hz h25
  by_cases e25 : t.val = 25
  · exact soundC m c t e25
  by_cases h35 : t.val < 35
  · exact soundD m c t (by omega) h35
  by_cases e35 : t.val = 35
  · exact soundE m c t e35
  · exact soundF m c t (by omega)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem PhiS_out (c : Dev nD) (n : ℕ) (h : n ≤ cfg0.N) (hz : n ≠ 0) : PhiS m c n h ⊢ Pipeline.ΦA spec0 c := by
  cases n with
  | zero => exact absurd rfl hz
  | succ n =>
    rw [PhiS_succ m c n h, PhiA0_eq]
    iintro ⟨⟨⟨%hq, -, HS0⟩, HS1, HS2, HS3, ⟨%mn, -, HS4⟩⟩, Hg⟩
    isplitl [HS0 HS1 HS2 HS3 HS4]
    · isplitl [HS0]; · iexists _; iexact HS0
      isplitl [HS1]; · iexists _; iexact HS1
      isplitl [HS2]; · iexists _; iexact HS2
      isplitl [HS3]; · iexists _; iexact HS3
      iexists _; iexact HS4
    iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_out m c _ _ (by rw [Fin.val_last]; have : cfg0.N = 45 := N_0; omega)

set_option backward.isDefEq.respectTransparency.types false in

/-- The whole program runs to the post in which every window's array holds what the proof data's write-backs leave. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Body

end
-- ==== Proof.KI.Final.lean ====
import proofs.«181959_g40587440947829_cont_sun_m_1101_20_alg».proof.Proof.KI.Values
import proofs.«181959_g40587440947829_cont_sun_m_1101_20_alg».proof.Proof.KI.Frame
import Idealize.ShloMosaic.Lib.ValueIdx
import Idealize.ShloMosaic.Lib.Pipeline.Value

set_option maxRecDepth 16384

noncomputable section

namespace Cert.KernelIdeal.Final

open Cert.KernelIdeal Cert.KernelIdeal.Gen Cert.KernelIdeal.Body Cert.KernelIdeal.Blocks
open Idealize.ShloMosaic Idealize.ShloMosaic.ValueIdx
open Idealize.ShloMosaic.Pipeline (Dat)
open Idealize.SL.Sem

variable (m : (ℓ : Loc nD τ sig) → Buf (Elt Ideal) ℓ) (c : Dev nD)

theorem idx19 : ∀ t : Fin cfg0.N, win0_19.index t (0 : Fin 2) = min t.val 24 ∧ win0_19.index t (1 : Fin 2) = 0 :=
  (by decide +kernel : ∀ t : Fin grid0.N, _)

theorem idx20 : ∀ t : Fin cfg0.N, win0_20.index t (0 : Fin 2) = t.val - 35 ∧ win0_20.index t (1 : Fin 2) = 0 :=
  (by decide +kernel : ∀ t : Fin grid0.N, _)

theorem mem_blk19 (t : Fin cfg0.N) (i : S10000x32.Idx) :
    i ∈ ((cfg0.win 19).blk t).view.set ↔ ∀ a : Fin 2, win0_19.index t a * S400x32.size a ≤ (i a).val ∧ (i a).val < win0_19.index t a * S400x32.size a + S400x32.size a := by
  show i ∈ ((View.whole main_v10_0).slice (win0_19.rect t)).set ↔ _
  rw [View.set_slice_whole, Rect.mem_set_unit]
  exact Iff.rfl

theorem flushed19_eq (I : Cert.Spec.Inputs)
    (hg : ∀ t : Fin cfg0.N, (t.val < 24 ∨ t.val = 44) → ∀ (r : Fin 400) (d : Fin 32) (i : Fin 10000),
      i.val = 400 * min t.val 24 + r.val → (st m c t.val t.isLt).g (ix2 r d) = Cert.Spec.gate I i d)
    (t : Fin cfg0.N) (hf : (cfg0.win 19).flush t = true) :
    (dats m 0 c).flushed 19 t = ((cfg0.win 19).blk t).view.read (Elt Ideal) (Cert.Spec.gateArr I) := by
  have ht := (flush19 t).mp hf
  obtain ⟨e0, e1⟩ := idx19 t
  show (cfg0.win 19).cut (grid0.coords t) ((dats m 0 c).after 19 t) = _
  rw [after19]
  have key : ∀ y : S400x32.Idx, (st m c t.val t.isLt).g y = Cert.Spec.gateArr I (((cfg0.win 19).blk t).view.emb y) := by
    intro y
    have hy0 : (y 0).val < 400 := idx2_lt0 y
    have hlt : 400 * min t.val 24 + (y 0).val < 10000 := by omega
    have h1 : (st m c t.val t.isLt).g y = (st m c t.val t.isLt).g (ix2 (y 0) (y 1)) := congrArg _ (eq_ix2 y)
    rw [h1, hg t ht (y 0) (y 1) ⟨400 * min t.val 24 + (y 0).val, hlt⟩ rfl]
    have ea : (((cfg0.win 19).blk t).view.emb y) 0 = (⟨400 * min t.val 24 + (y 0).val, hlt⟩ : Fin 10000) :=
      Fin.ext (by show win0_19.index t (0 : Fin 2) * 400 + 1 * (y 0).val = 400 * min t.val 24 + (y 0).val; omega)
    have eb : (((cfg0.win 19).blk t).view.emb y) 1 = y 1 :=
      Fin.ext (by show win0_19.index t (1 : Fin 2) * 32 + 1 * (y 1).val = (y 1).val; omega)
    show _ = Cert.Spec.gate I ((((cfg0.win 19).blk t).view.emb y) 0) ((((cfg0.win 19).blk t).view.emb y) 1)
    rw [ea, eb]
  funext y
  exact key y

theorem cover19 (i : S10000x32.Idx) :
    ∃ t : Fin cfg0.N, (cfg0.win 19).flush t = true ∧ i ∈ ((cfg0.win 19).blk t).view.set := by
  have hN : cfg0.N = 45 := N_0
  have hi0 : (i 0).val < 10000 := idx2_lt0 i
  have hi1 : (i 1).val < 32 := idx2_lt1 i
  by_cases hlo : (i 0).val < 9600
  · obtain ⟨t, ht⟩ : ∃ t : Fin cfg0.N, t.val = (i 0).val / 400 := ⟨⟨(i 0).val / 400, by omega⟩, rfl⟩
    refine ⟨t, (flush19 t).mpr (Or.inl (by omega)), ?_⟩
    rw [mem_blk19]
    obtain ⟨e0, e1⟩ := idx19 t
    intro a
    match a with
    | ⟨0, _⟩ => show win0_19.index t (0 : Fin 2) * 400 ≤ (i 0).val ∧ (i 0).val < win0_19.index t (0 : Fin 2) * 400 + 400; omega
    | ⟨1, _⟩ => show win0_19.index t (1 : Fin 2) * 32 ≤ (i 1).val ∧ (i 1).val < win0_19.index t (1 : Fin 2) * 32 + 32; omega
  · obtain ⟨t, ht⟩ : ∃ t : Fin cfg0.N, t.val = 44 := ⟨⟨44, by omega⟩, rfl⟩
    refine ⟨t, (flush19 t).mpr (Or.inr ht), ?_⟩
    rw [mem_blk19]
    obtain ⟨e0, e1⟩ := idx19 t
    intro a
    match a with
    | ⟨0, _⟩ => show win0_19.index t (0 : Fin 2) * 400 ≤ (i 0).val ∧ (i 0).val < win0_19.index t (0 : Fin 2) * 400 + 400; omega
    | ⟨1, _⟩ => show win0_19.index t (1 : Fin 2) * 32 ≤ (i 1).val ∧ (i 1).val < win0_19.index t (1 : Fin 2) * 32 + 32; omega

theorem final19_of (I : Cert.Spec.Inputs)
    (hg : ∀ t : Fin cfg0.N, (t.val < 24 ∨ t.val = 44) → ∀ (r : Fin 400) (d : Fin 32) (i : Fin 10000),
      i.val = 400 * min t.val 24 + r.val → (st m c t.val t.isLt).g (ix2 r d) = Cert.Spec.gate I i d) :
    (dats m 0 c).arrAt 19 cfg0.N = Cert.Spec.gateArr I :=
  (dats m 0 c).arrAt_eq_of_cover 19 (Cert.Spec.gateArr I) (flushed19_eq m c I hg) cover19

theorem mem_blk20 (t : Fin cfg0.N) (i : S10000x2.Idx) :
    i ∈ ((cfg0.win 20).blk t).view.set ↔ ∀ a : Fin 2, win0_20.index t a * S1000x2.size a ≤ (i a).val ∧ (i a).val < win0_20.index t a * S1000x2.size a + S1000x2.size a := by
  show i ∈ ((View.whole main_v10_1).slice (win0_20.rect t)).set ↔ _
  rw [View.set_slice_whole, Rect.mem_set_unit]
  exact Iff.rfl

theorem flushed20_eq (I : Cert.Spec.Inputs)
    (hlg : ∀ t : Fin cfg0.N, 35 ≤ t.val → ∀ (r : Fin 1000) (o : Fin 2) (i : Fin 10000),
      i.val = 1000 * (t.val - 35) + r.val → (st m c t.val t.isLt).lg (ix2 r o) = Cert.Spec.logits I i o)
    (t : Fin cfg0.N) (hf : (cfg0.win 20).flush t = true) :
    (dats m 0 c).flushed 20 t = ((cfg0.win 20).blk t).view.read (Elt Ideal) (Cert.Spec.logitsArr I) := by
  have hN : cfg0.N = 45 := N_0
  have ht := (flush20 t).mp hf
  have htN := t.isLt
  obtain ⟨e0, e1⟩ := idx20 t
  show (cfg0.win 20).cut (grid0.coords t) ((dats m 0 c).after 20 t) = _
  rw [after20]
  have key : ∀ y : S1000x2.Idx, (st m c t.val t.isLt).lg y = Cert.Spec.logitsArr I (((cfg0.win 20).blk t).view.emb y) := by
    intro y
    have hy0 : (y 0).val < 1000 := idx2_lt0 y
    have hlt : 1000 * (t.val - 35) + (y 0).val < 10000 := by omega
    have h1 : (st m c t.val t.isLt).lg y = (st m c t.val t.isLt).lg (ix2 (y 0) (y 1)) := congrArg _ (eq_ix2 y)
    rw [h1, hlg t ht (y 0) (y 1) ⟨1000 * (t.val - 35) + (y 0).val, hlt⟩ rfl]
    have ea : (((cfg0.win 20).blk t).view.emb y) 0 = (⟨1000 * (t.val - 35) + (y 0).val, hlt⟩ : Fin 10000) :=
      Fin.ext (by show win0_20.index t (0 : Fin 2) * 1000 + 1 * (y 0).val = 1000 * (t.val - 35) + (y 0).val; omega)
    have eb : (((cfg0.win 20).blk t).view.emb y) 1 = y 1 :=
      Fin.ext (by show win0_20.index t (1 : Fin 2) * 2 + 1 * (y 1).val = (y 1).val; omega)
    show _ = Cert.Spec.logits I ((((cfg0.win 20).blk t).view.emb y) 0) ((((cfg0.win 20).blk t).view.emb y) 1)
    rw [ea, eb]
  funext y
  exact key y

theorem cover20 (i : S10000x2.Idx) :
    ∃ t : Fin cfg0.N, (cfg0.win 20).flush t = true ∧ i ∈ ((cfg0.win 20).blk t).view.set := by
  have hN : cfg0.N = 45 := N_0
  have hi0 : (i 0).val < 10000 := idx2_lt0 i
  have hi1 : (i 1).val < 2 := idx2_lt1 i
  obtain ⟨t, ht⟩ : ∃ t : Fin cfg0.N, t.val = 35 + (i 0).val / 1000 := ⟨⟨35 + (i 0).val / 1000, by omega⟩, rfl⟩
  refine ⟨t, (flush20 t).mpr (by omega), ?_⟩
  rw [mem_blk20]
  obtain ⟨e0, e1⟩ := idx20 t
  intro a
  match a with
  | ⟨0, _⟩ => show win0_20.index t (0 : Fin 2) * 1000 ≤ (i 0).val ∧ (i 0).val < win0_20.index t (0 : Fin 2) * 1000 + 1000; omega
  | ⟨1, _⟩ => show win0_20.index t (1 : Fin 2) * 2 ≤ (i 1).val ∧ (i 1).val < win0_20.index t (1 : Fin 2) * 2 + 2; omega

theorem final20_of (I : Cert.Spec.Inputs)
    (hlg : ∀ t : Fin cfg0.N, 35 ≤ t.val → ∀ (r : Fin 1000) (o : Fin 2) (i : Fin 10000),
      i.val = 1000 * (t.val - 35) + r.val → (st m c t.val t.isLt).lg (ix2 r o) = Cert.Spec.logits I i o) :
    (dats m 0 c).arrAt 20 cfg0.N = Cert.Spec.logitsArr I :=
  (dats m 0 c).arrAt_eq_of_cover 20 (Cert.Spec.logitsArr I) (flushed20_eq m c I hlg) cover20

set_option maxHeartbeats 1260000 in

theorem run_spec_of (ρ : Dev nD → PrngReg) (I : Dev nD → Cert.Spec.Inputs)
    (h19 : ∀ c, (dats m 0 c).arrAt 19 cfg0.N = Cert.Spec.gateArr (I c))
    (h20 : ∀ c, (dats m 0 c).arrAt 20 cfg0.N = Cert.Spec.logitsArr (I c))
    (hrun : θ_run defs (onTc (τ := τ) (main (F := Ideal))) (s₀ m ρ) (Pipeline.FramePost cfgs (dats m) 0 (V m))) :
    θ_run defs (onTc (τ := τ) (main (F := Ideal))) ⟨m, fun _ => 0, ρ⟩ (fun r => ∀ c : Dev nD,
      r.2.mem ((c.tc : Thread nD τ).loc main_v10_1) = Cert.Spec.logitsArr (I c)
      ∧ r.2.mem ((c.tc : Thread nD τ).loc main_v10_0) = Cert.Spec.gateArr (I c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 20).trans (h20 c), ((h c).1 19).trans (h19 c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c),
      ((h c).1 15).trans (((dats m 0 c).arrAt_in 15 rfl _).trans ((A_eq m c 15).trans (V_main_arg14 m c))),
      ((h c).2 main_arg15 (Pipeline.mem_restRefs_of main_arg15 (by decide) (by decide))).trans (V_main_arg15 m c),
      ((h c).1 17).trans (((dats m 0 c).arrAt_in 17 rfl _).trans ((A_eq m c 17).trans (V_main_arg16 m c))),
      ((h c).2 main_arg17 (Pipeline.mem_restRefs_of main_arg17 (by decide) (by decide))).trans (V_main_arg17 m c)⟩) hrun

theorem g_block (t : Fin cfg0.N) (ht : t.val < 24 ∨ t.val = 44) (r : Fin 400) (d : Fin 32) (i : Fin 10000)
    (hi : i.val = 400 * min t.val 24 + r.val) :
    (st m c t.val t.isLt).g (ix2 r d) = Cert.Spec.gate (argsOf m c) i d := by
  rcases ht with h | h
  · rw [Values.g_at m c t (by omega) r d]
    exact congrArg (fun i => Cert.Spec.gate (argsOf m c) i d) (Fin.ext (by show 400 * t.val + r.val = i.val; omega))
  · rw [Values.g_late m c t (by omega) r d]
    exact congrArg (fun i => Cert.Spec.gate (argsOf m c) i d) (Fin.ext (by show 400 * 24 + r.val = i.val; omega))

theorem lg_block (t : Fin cfg0.N) (ht : 35 ≤ t.val) (r : Fin 1000) (o : Fin 2) (i : Fin 10000)
    (hi : i.val = 1000 * (t.val - 35) + r.val) :
    (st m c t.val t.isLt).lg (ix2 r o) = Cert.Spec.logits (argsOf m c) i o := by
  rw [Values.lg_at m c t ht r o]
  exact congrArg (fun i => Cert.Spec.logits (argsOf m c) i o) (Fin.ext (by show 1000 * (t.val - 35) + r.val = i.val; omega))

theorem final19 : (dats m 0 c).arrAt 19 cfg0.N = Cert.Spec.gateArr (argsOf m c) :=
  final19_of m c (argsOf m c) (g_block m c)

theorem final20 : (dats m 0 c).arrAt 20 cfg0.N = Cert.Spec.logitsArr (argsOf m c) :=
  final20_of m c (argsOf m c) (lg_block m c)

/-- The idealized kernel ends with the logits and the gate of the specification in its two result arrays. -/
theorem run_spec (ρ : Dev nD → PrngReg) :
    θ_run defs (onTc (τ := τ) (main (F := Ideal))) ⟨m, fun _ => 0, ρ⟩ (fun r => ∀ c : Dev nD,
      r.2.mem ((c.tc : Thread nD τ).loc main_v10_1) = Cert.Spec.logitsArr (argsOf m c)
      ∧ r.2.mem ((c.tc : Thread nD τ).loc main_v10_0) = Cert.Spec.gateArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  run_spec_of m ρ (fun c => argsOf m c) (final19 m) (final20 m) (run_main (F := Ideal) m ρ)

end Cert.KernelIdeal.Final

end
-- ==== Proof.RefValue.lean ====
import proofs.«181959_g40587440947829_cont_sun_m_1101_20_alg».proof.Proof.Gen.ReferenceIdeal.Run
import proofs.«181959_g40587440947829_cont_sun_m_1101_20_alg».proof.Proof.Gen.ReferenceIdeal.Read
import proofs.«181959_g40587440947829_cont_sun_m_1101_20_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx (ix1 ix2 eq_ix1 eq_ix2)

structure Args where

  a0 : (⟨S10000x128, .f32⟩ : BufTy).Contents (Elt Ideal)

  a1 : (⟨S10000x16, .f32⟩ : BufTy).Contents (Elt Ideal)

  a2 : (⟨S10000x2048, .f32⟩ : BufTy).Contents (Elt Ideal)

  a3 : (⟨S2048, .f32⟩ : BufTy).Contents (Elt Ideal)

  a4 : (⟨S128x32, .f32⟩ : BufTy).Contents (Elt Ideal)

  a5 : (⟨S32, .f32⟩ : BufTy).Contents (Elt Ideal)

  a6 : (⟨S16x32, .f32⟩ : BufTy).Contents (Elt Ideal)

  a7 : (⟨S32, .f32⟩ : BufTy).Contents (Elt Ideal)

  a8 : (⟨S64x64, .f32⟩ : BufTy).Contents (Elt Ideal)

  a9 : (⟨S64, .f32⟩ : BufTy).Contents (Elt Ideal)

  a10 : (⟨S64x32, .f32⟩ : BufTy).Contents (Elt Ideal)

  a11 : (⟨S32, .f32⟩ : BufTy).Contents (Elt Ideal)

  a12 : (⟨S32x64, .f32⟩ : BufTy).Contents (Elt Ideal)

  a13 : (⟨S64, .f32⟩ : BufTy).Contents (Elt Ideal)

  a14 : (⟨S64x64, .f32⟩ : BufTy).Contents (Elt Ideal)

  a15 : (⟨S64, .f32⟩ : BufTy).Contents (Elt Ideal)

  a16 : (⟨S64x2, .f32⟩ : BufTy).Contents (Elt Ideal)

  a17 : (⟨S2, .f32⟩ : BufTy).Contents (Elt Ideal)

def Args.inp (A : Args) : Cert.Spec.Inputs :=
  Cert.Spec.inputsOf A.a0 A.a1 A.a2 A.a3 A.a4 A.a5 A.a6 A.a7 A.a8 A.a9 A.a10 A.a11 A.a12 A.a13 A.a14 A.a15 A.a16 A.a17

local macro "idx2" : tactic =>
  `(tactic| exact funext fun a => Fin.ext (by match a with | ⟨0, _⟩ => rfl | ⟨1, _⟩ => rfl))

local macro "idx1" : tactic =>
  `(tactic| exact funext fun a => Fin.ext (by match a with | ⟨0, _⟩ => rfl))

variable (A : Args)

theorem x1_at (i : Fin 10000) (d : Fin 32) :
    val_main_v3 (F := Ideal) A.a0 A.a4 A.a5 (ix2 i d) = Cert.Spec.x1 A.inp i d := by
  have el : ∀ k : Fin 128, lidx_main_v0 (ix2 i d) k = ix2 i k := fun k => by idx2
  have er : ∀ k : Fin 128, ridx_main_v0 (ix2 i d) k = ix2 k d := fun k => by idx2
  have eb : idx_main_v1 (idx_main_v2 (ix2 i d)) = ix1 d := by idx1
  rw [val_main_v3_apply, val_main_v0_apply, val_main_v2_apply, val_main_v1_apply, eb]
  simp only [el, er]
  rfl

theorem z1_at (i : Fin 10000) (d : Fin 32) :
    val_main_v7 (F := Ideal) A.a1 A.a6 A.a7 (ix2 i d) = Cert.Spec.z1 A.inp i d := by
  have el : ∀ k : Fin 16, lidx_main_v4 (ix2 i d) k = ix2 i k := fun k => by idx2
  have er : ∀ k : Fin 16, ridx_main_v4 (ix2 i d) k = ix2 k d := fun k => by idx2
  have eb : idx_main_v5 (idx_main_v6 (ix2 i d)) = ix1 d := by idx1
  rw [val_main_v7_apply, val_main_v4_apply, val_main_v6_apply, val_main_v5_apply, eb]
  simp only [el, er]
  rfl

theorem concat_at (P Q : (⟨S10000x32, .f32⟩ : BufTy).Contents (Elt Ideal)) (i : Fin 10000) (e : Fin 64) :
    concatenate S10000x64 1 [⟨S10000x32, P⟩, ⟨S10000x32, Q⟩] concatenates_S10000x32_S10000x32_S10000x64_d1 (ix2 i e)
      = if h : e.val < 32 then P (ix2 i ⟨e.val, h⟩) else Q (ix2 i ⟨e.val - 32, by omega⟩) := by
  by_cases h : e.val < 32
  · rw [dif_pos h]
    exact concatenate_pair_apply_left 1 P Q _ (ix2 i e) rfl (ix2 i ⟨e.val, h⟩)
      (fun b => by match b with | ⟨0, _⟩ => rfl | ⟨1, _⟩ => rfl)
  · rw [dif_neg h]
    exact concatenate_pair_apply_right 1 P Q _ (ix2 i e) rfl rfl (ix2 i ⟨e.val - 32, by omega⟩)
      (fun b hb => by match b with | ⟨0, _⟩ => rfl | ⟨1, _⟩ => exact absurd rfl hb)
      (by show (e.val - 32) + 32 = e.val; omega)

theorem cat_at (i : Fin 10000) (e : Fin 64) :
    val_main_v8 (F := Ideal) A.a0 A.a1 A.a4 A.a5 A.a6 A.a7 (ix2 i e) = Cert.Spec.cat A.inp i e := by
  unfold val_main_v8 Cert.Spec.cat
  rw [concat_at]
  by_cases h : e.val < 32
  · rw [dif_pos h, dif_pos h]; exact x1_at A i _
  · rw [dif_neg h, dif_neg h]; exact z1_at A i _

theorem gh_at (i : Fin 10000) (e : Fin 64) :
    val_main_v13 (F := Ideal) A.a0 A.a1 A.a4 A.a5 A.a6 A.a7 A.a8 A.a9 (ix2 i e) = Cert.Spec.gh A.inp i e := by
  have el : ∀ k : Fin 64, lidx_main_v9 (ix2 i e) k = ix2 i k := fun k => by idx2
  have er : ∀ k : Fin 64, ridx_main_v9 (ix2 i e) k = ix2 k e := fun k => by idx2
  have eb : idx_main_v10 (idx_main_v11 (ix2 i e)) = ix1 e := by idx1
  rw [val_main_v13_apply, val_main_v12_apply, val_main_v9_apply, val_main_v11_apply, val_main_v10_apply, eb,
    val_main_call0_v0_apply, val_main_call0_cst_apply, Ideal.ofBits_def, Ideal.ofBits_zero_f32]
  simp only [el, er, cat_at A]
  rfl

theorem gate_at (i : Fin 10000) (d : Fin 32) :
    val_main_v23 (F := Ideal) A.a0 A.a1 A.a4 A.a5 A.a6 A.a7 A.a8 A.a9 A.a10 A.a11 (ix2 i d) = Cert.Spec.gate A.inp i d := by
  have el : ∀ k : Fin 64, lidx_main_v14 (ix2 i d) k = ix2 i k := fun k => by idx2
  have er : ∀ k : Fin 64, ridx_main_v14 (ix2 i d) k = ix2 k d := fun k => by idx2
  have eb : idx_main_v15 (idx_main_v16 (ix2 i d)) = ix1 d := by idx1
  rw [val_main_v23_apply, val_main_v22_apply, val_main_cst_0_apply, val_main_v21_apply, val_main_v20_apply,
    val_main_cst_apply, val_main_v19_apply, val_main_v18_apply, val_main_v17_apply, val_main_v14_apply,
    val_main_v16_apply, val_main_v15_apply, eb, Ideal.ofBits_def, Ideal.ofBits_one_f32]
  simp only [el, er, gh_at A]
  rfl

theorem fused_at (i : Fin 10000) (d : Fin 32) :
    val_main_v28 (F := Ideal) A.a0 A.a1 A.a4 A.a5 A.a6 A.a7 A.a8 A.a9 A.a10 A.a11 (ix2 i d) = Cert.Spec.fused A.inp i d := by
  rw [val_main_v28_apply, val_main_v24_apply, val_main_v27_apply, val_main_v26_apply, val_main_v25_apply,
    val_main_cst_1_apply, gate_at A, z1_at A, x1_at A, Ideal.ofBits_def, Ideal.ofBits_one_f32]
  rfl

theorem xc1_at (i : Fin 10000) (e : Fin 64) :
    val_main_v32 (F := Ideal) A.a0 A.a1 A.a4 A.a5 A.a6 A.a7 A.a8 A.a9 A.a10 A.a11 A.a12 A.a13 (ix2 i e) = Cert.Spec.xc1 A.inp i e := by
  have el : ∀ k : Fin 32, lidx_main_v29 (ix2 i e) k = ix2 i k := fun k => by idx2
  have er : ∀ k : Fin 32, ridx_main_v29 (ix2 i e) k = ix2 k e := fun k => by idx2
  have eb : idx_main_v30 (idx_main_v31 (ix2 i e)) = ix1 e := by idx1
  rw [val_main_v32_apply, val_main_v29_apply, val_main_v31_apply, val_main_v30_apply, eb]
  simp only [el, er, fused_at A]
  rfl

theorem dv_at (i : Fin 10000) :
    val_main_v36 (F := Ideal) A.a2 A.a3 (ix1 i) = Cert.Spec.dv A.inp i := by
  have ei : ∀ k : Fin 2048, idx_main_v36 (ix1 i) k = ix2 i k := fun k => by idx2
  have eb : ∀ k : Fin 2048, idx_main_v33 (idx_main_v34 (ix2 i k)) = ix1 k := fun k => by idx1
  rw [val_main_v36_apply, val_main_cst_2_apply, Ideal.ofBits_def, Ideal.ofBits_zero_f32, zero_add]
  simp only [ei, val_main_v35_apply, val_main_v34_apply, val_main_v33_apply, eb]
  rfl

theorem s_at (i : Fin 10000) :
    val_main_v40 (F := Ideal) A.a2 A.a3 (ix1 i) = Cert.Spec.s A.inp i := by
  rw [val_main_v40_apply, val_main_v39_apply, val_main_v38_apply, val_main_cst_4_apply, dv_at A]
  rfl

theorem de_at (j : Fin 2048) :
    val_main_v37 (F := Ideal) A.a2 (ix1 j) = Cert.Spec.de A.inp j := by
  have ei : ∀ k : Fin 10000, idx_main_v37 (ix1 j) k = ix2 k j := fun k => by idx2
  rw [val_main_v37_apply, val_main_cst_3_apply, Ideal.ofBits_def, Ideal.ofBits_zero_f32, zero_add]
  simp only [ei]
  rfl

theorem se_at (j : Fin 2048) :
    val_main_v48 (F := Ideal) A.a2 A.a3 (ix1 j) = Cert.Spec.se A.inp j := by
  rw [val_main_v48_apply, val_main_v47_apply, val_main_v46_apply, val_main_cst_5_apply, de_at A]
  rfl

theorem s_again : val_main_v68 (F := Ideal) A.a2 A.a3 = val_main_v40 (F := Ideal) A.a2 A.a3 := rfl

theorem se_again : val_main_v76 (F := Ideal) A.a2 A.a3 = val_main_v48 (F := Ideal) A.a2 A.a3 := rfl

theorem xn1_at (i : Fin 10000) (e : Fin 64) :
    val_main_v43 (F := Ideal) A.a0 A.a1 A.a2 A.a3 A.a4 A.a5 A.a6 A.a7 A.a8 A.a9 A.a10 A.a11 A.a12 A.a13 (ix2 i e) = Cert.Spec.xc1 A.inp i e * Cert.Spec.s A.inp i := by
  have eb : idx_main_v41 (idx_main_v42 (ix2 i e)) = ix1 i := by idx1
  rw [val_main_v43_apply, val_main_v42_apply, val_main_v41_apply, eb, xc1_at A, s_at A]
  rfl

theorem m1_at (j : Fin 2048) (e : Fin 64) :
    val_main_v45 (F := Ideal) A.a0 A.a1 A.a2 A.a3 A.a4 A.a5 A.a6 A.a7 A.a8 A.a9 A.a10 A.a11 A.a12 A.a13 (ix2 j e) = Cert.Spec.m1 A.inp j e := by
  have el : ∀ k : Fin 10000, idx_main_v44 (lidx_main_v45 (ix2 j e) k) = ix2 k j := fun k => by idx2
  have er : ∀ k : Fin 10000, ridx_main_v45 (ix2 j e) k = ix2 k e := fun k => by idx2
  rw [val_main_v45_apply]
  simp only [val_main_v44_apply, el, er, xn1_at A]
  rfl

theorem mn1_at (j : Fin 2048) (e : Fin 64) :
    val_main_v51 (F := Ideal) A.a0 A.a1 A.a2 A.a3 A.a4 A.a5 A.a6 A.a7 A.a8 A.a9 A.a10 A.a11 A.a12 A.a13 (ix2 j e) = Cert.Spec.mn1 A.inp j e := by
  have eb : idx_main_v49 (idx_main_v50 (ix2 j e)) = ix1 j := by idx1
  rw [val_main_v51_apply, val_main_v50_apply, val_main_v49_apply, eb, m1_at A, se_at A]
  rfl

theorem h1_at (i : Fin 10000) (e : Fin 64) :
    val_main_v56 (F := Ideal) A.a0 A.a1 A.a2 A.a3 A.a4 A.a5 A.a6 A.a7 A.a8 A.a9 A.a10 A.a11 A.a12 A.a13 (ix2 i e) = Cert.Spec.h1 A.inp i e := by
  have el : ∀ k : Fin 2048, lidx_main_v52 (ix2 i e) k = ix2 i k := fun k => by idx2
  have er : ∀ k : Fin 2048, ridx_main_v52 (ix2 i e) k = ix2 k e := fun k => by idx2
  have eb : idx_main_v53 (idx_main_v54 (ix2 i e)) = ix1 i := by idx1
  rw [val_main_v56_apply, val_main_v55_apply, val_main_v52_apply, val_main_v54_apply, val_main_v53_apply, eb, s_at A,
    val_main_call1_v0_apply, val_main_call1_cst_apply, Ideal.ofBits_def, Ideal.ofBits_zero_f32]
  simp only [el, er, mn1_at A]
  rfl

theorem x2_at (i : Fin 10000) (e : Fin 64) :
    val_main_v60 (F := Ideal) A.a0 A.a1 A.a2 A.a3 A.a4 A.a5 A.a6 A.a7 A.a8 A.a9 A.a10 A.a11 A.a12 A.a13 A.a14 A.a15 (ix2 i e) = Cert.Spec.x2 A.inp i e := by
  have el : ∀ k : Fin 64, lidx_main_v57 (ix2 i e) k = ix2 i k := fun k => by idx2
  have er : ∀ k : Fin 64, ridx_main_v57 (ix2 i e) k = ix2 k e := fun k => by idx2
  have eb : idx_main_v58 (idx_main_v59 (ix2 i e)) = ix1 e := by idx1
  rw [val_main_v60_apply, val_main_v57_apply, val_main_v59_apply, val_main_v58_apply, eb]
  simp only [el, er, h1_at A]
  rfl

theorem xn2_at (i : Fin 10000) (e : Fin 64) :
    val_main_v71 (F := Ideal) A.a0 A.a1 A.a2 A.a3 A.a4 A.a5 A.a6 A.a7 A.a8 A.a9 A.a10 A.a11 A.a12 A.a13 A.a14 A.a15 (ix2 i e) = Cert.Spec.x2 A.inp i e * Cert.Spec.s A.inp i := by
  have eb : idx_main_v69 (idx_main_v70 (ix2 i e)) = ix1 i := by idx1
  rw [val_main_v71_apply, val_main_v70_apply, val_main_v69_apply, eb, x2_at A, s_again, s_at A]
  rfl

theorem m2_at (j : Fin 2048) (e : Fin 64) :
    val_main_v73 (F := Ideal) A.a0 A.a1 A.a2 A.a3 A.a4 A.a5 A.a6 A.a7 A.a8 A.a9 A.a10 A.a11 A.a12 A.a13 A.a14 A.a15 (ix2 j e) = Cert.Spec.m2 A.inp j e := by
  have el : ∀ k : Fin 10000, idx_main_v72 (lidx_main_v73 (ix2 j e) k) = ix2 k j := fun k => by idx2
  have er : ∀ k : Fin 10000, ridx_main_v73 (ix2 j e) k = ix2 k e := fun k => by idx2
  rw [val_main_v73_apply]
  simp only [val_main_v72_apply, el, er, xn2_at A]
  rfl

theorem mn2_at (j : Fin 2048) (e : Fin 64) :
    val_main_v79 (F := Ideal) A.a0 A.a1 A.a2 A.a3 A.a4 A.a5 A.a6 A.a7 A.a8 A.a9 A.a10 A.a11 A.a12 A.a13 A.a14 A.a15 (ix2 j e) = Cert.Spec.mn2 A.inp j e := by
  have eb : idx_main_v77 (idx_main_v78 (ix2 j e)) = ix1 j := by idx1
  rw [val_main_v79_apply, val_main_v78_apply, val_main_v77_apply, eb, m2_at A, se_again, se_at A]
  rfl

theorem h2_at (i : Fin 10000) (e : Fin 64) :
    val_main_v84 (F := Ideal) A.a0 A.a1 A.a2 A.a3 A.a4 A.a5 A.a6 A.a7 A.a8 A.a9 A.a10 A.a11 A.a12 A.a13 A.a14 A.a15 (ix2 i e) = Cert.Spec.h2 A.inp i e := by
  have el : ∀ k : Fin 2048, lidx_main_v80 (ix2 i e) k = ix2 i k := fun k => by idx2
  have er : ∀ k : Fin 2048, ridx_main_v80 (ix2 i e) k = ix2 k e := fun k => by idx2
  have eb : idx_main_v81 (idx_main_v82 (ix2 i e)) = ix1 i := by idx1
  rw [val_main_v84_apply, val_main_v83_apply, val_main_v80_apply, val_main_v82_apply, val_main_v81_apply, eb, s_again,
    s_at A, val_main_call2_v0_apply, val_main_call2_cst_apply, Ideal.ofBits_def, Ideal.ofBits_zero_f32]
  simp only [el, er, mn2_at A]
  rfl

theorem logits_at (i : Fin 10000) (o : Fin 2) :
    val_main_v88 (F := Ideal) A.a0 A.a1 A.a2 A.a3 A.a4 A.a5 A.a6 A.a7 A.a8 A.a9 A.a10 A.a11 A.a12 A.a13 A.a14 A.a15 A.a16 A.a17 (ix2 i o) = Cert.Spec.logits A.inp i o := by
  have el : ∀ k : Fin 64, lidx_main_v85 (ix2 i o) k = ix2 i k := fun k => by idx2
  have er : ∀ k : Fin 64, ridx_main_v85 (ix2 i o) k = ix2 k o := fun k => by idx2
  have eb : idx_main_v86 (idx_main_v87 (ix2 i o)) = ix1 o := by idx1
  rw [val_main_v88_apply, val_main_v85_apply, val_main_v87_apply, val_main_v86_apply, eb]
  simp only [el, er, h2_at A]
  rfl

def argsOf (m : (ℓ : Loc nD τ sig) → Buf (Elt Ideal) ℓ) (c : Dev nD) : Cert.Spec.Inputs :=
  Cert.Spec.inputsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))

def recOf (m : (ℓ : Loc nD τ sig) → Buf (Elt Ideal) ℓ) (c : Dev nD) : Args :=
  ⟨(m ((c.tc : Thread nD τ).loc main_arg0)), (m ((c.tc : Thread nD τ).loc main_arg1)), (m ((c.tc : Thread nD τ).loc main_arg2)), (m ((c.tc : Thread nD τ).loc main_arg3)), (m ((c.tc : Thread nD τ).loc main_arg4)), (m ((c.tc : Thread nD τ).loc main_arg5)),
    (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)),
    (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17))⟩

theorem logits_eq (m : (ℓ : Loc nD τ sig) → Buf (Elt Ideal) ℓ) (c : Dev nD) :
    Cert.ReferenceIdeal.Value.res_out0 (F := Ideal) m c = Cert.Spec.logitsArr (argsOf m c) := by
  refine (val_main_v88_eq m c).trans ?_
  funext j
  obtain ⟨p, q, rfl⟩ : ∃ (p : Fin 10000) (q : Fin 2), j = ix2 p q := ⟨j 0, j 1, eq_ix2 j⟩
  exact logits_at (recOf m c) p q

section Term
variable {F : FTy → Type} [FloatOps F]

abbrev gateTerm (m : (ℓ : Loc nD τ sig) → Buf (Elt F) ℓ) (c : Dev nD) : Buf (Elt F) ((c.tc : Thread nD τ).loc main_v23) :=
  Host.divf (broadcastInDim S10000x32 ![] bcast_S_S10000x32 (constant S_ .f32 0x3F800000#32)) (addf (broadcastInDim S10000x32 ![] bcast_S_S10000x32 (constant S_ .f32 0x3F800000#32)) (Host.exp (Host.negf (addf (Host.dotGeneral dot_S10000x64_S64x32_S10000x32_1_0_0_1_n_n none (maximumf (addf (Host.dotGeneral dot_S10000x64_S64x64_S10000x64_1_0_0_1_n_n none (concatenate S10000x64 1 [⟨S10000x32, (addf (Host.dotGeneral dot_S10000x128_S128x32_S10000x32_1_0_0_1_n_n none (m ((c.tc : Thread nD τ).loc main_arg0)) (m ((c.tc : Thread nD τ).loc main_arg4))) (broadcastInDim S10000x32 ![0, 1] bcast_S1x32_S10000x32_0_1 (broadcastInDim S1x32 ![1] bcast_S32_S1x32_1 (m ((c.tc : Thread nD τ).loc main_arg5)))))⟩, ⟨S10000x32, (addf (Host.dotGeneral dot_S10000x16_S16x32_S10000x32_1_0_0_1_n_n none (m ((c.tc : Thread nD τ).loc main_arg1)) (m ((c.tc : Thread nD τ).loc main_arg6))) (broadcastInDim S10000x32 ![0, 1] bcast_S1x32_S10000x32_0_1 (broadcastInDim S1x32 ![1] bcast_S32_S1x32_1 (m ((c.tc : Thread nD τ).loc main_arg7)))))⟩] concatenates_S10000x32_S10000x32_S10000x64_d1) (m ((c.tc : Thread nD τ).loc main_arg8))) (broadcastInDim S10000x64 ![0, 1] bcast_S1x64_S10000x64_0_1 (broadcastInDim S1x64 ![1] bcast_S64_S1x64_1 (m ((c.tc : Thread nD τ).loc main_arg9))))) (broadcastInDim S10000x64 ![] bcast_S_S10000x64 (constant S_ .f32 0x00000000#32))) (m ((c.tc : Thread nD τ).loc main_arg10))) (broadcastInDim S10000x32 ![0, 1] bcast_S1x32_S10000x32_0_1 (broadcastInDim S1x32 ![1] bcast_S32_S1x32_1 (m ((c.tc : Thread nD τ).loc main_arg11))))))))

end Term

theorem gate_eq (m : (ℓ : Loc nD τ sig) → Buf (Elt Ideal) ℓ) (c : Dev nD) :
    gateTerm (F := Ideal) m c = Cert.Spec.gateArr (argsOf m c) := by
  refine (val_main_v23_eq (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))).trans ?_
  funext j
  obtain ⟨p, q, rfl⟩ : ∃ (p : Fin 10000) (q : Fin 32), j = ix2 p q := ⟨j 0, j 1, eq_ix2 j⟩
  exact gate_at (recOf m c) p q

/-- The reference ends with the same two functions of its arguments. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v88) = Cert.Spec.logitsArr (argsOf m c)
        ∧ r.2.mem ((c.tc : Thread nD τ).loc main_v23) = Cert.Spec.gateArr (argsOf m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17) :=
  (θ_run defs _ _).mono (fun _ h c => ⟨(h c).1.trans (logits_eq m c), (h c).2.1.trans (gate_eq m c), (h c).2.2⟩)
    (Cert.ReferenceIdeal.Value.run (F := Ideal) m ρ)

end Cert.ReferenceIdeal.RefValue

end
-- ==== Proof.lean ====
import proofs.«181959_g40587440947829_cont_sun_m_1101_20_alg».proof.Defs
import proofs.«181959_g40587440947829_cont_sun_m_1101_20_alg».proof.Proof.Gen.Kernel
import proofs.«181959_g40587440947829_cont_sun_m_1101_20_alg».proof.Proof.Gen.KernelIdeal
import proofs.«181959_g40587440947829_cont_sun_m_1101_20_alg».proof.Proof.Gen.ReferenceIdeal
import proofs.«181959_g40587440947829_cont_sun_m_1101_20_alg».proof.Proof.Gen.Pre_finite_inputs
import proofs.«181959_g40587440947829_cont_sun_m_1101_20_alg».proof.Proof.K.Frame
import proofs.«181959_g40587440947829_cont_sun_m_1101_20_alg».proof.Proof.KI.Final
import proofs.«181959_g40587440947829_cont_sun_m_1101_20_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  Cert.Kernel.Gen.frame_of m ρ (Cert.Kernel.Body.dats m) (Cert.Kernel.Body.A_eq m) (Cert.Kernel.Body.run_main (F := Bits) m ρ)

theorem frame_ki : Cert.frame_KernelIdeal (hKernelIdeal := Cert.KernelIdeal.Gen.facts) (hPre_finite_inputs := Cert.Pre_finite_inputs.Gen.facts) := fun m ρ _ =>
  Cert.KernelIdeal.Gen.frame_of m ρ (Cert.KernelIdeal.Body.dats m) (Cert.KernelIdeal.Body.A_eq m) (Cert.KernelIdeal.Body.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.logitsArr (Cert.KernelIdeal.Blocks.argsOf m c), fun c => Cert.Spec.gateArr (Cert.KernelIdeal.Blocks.argsOf m c),
    Cert.KernelIdeal.Final.run_spec m ρ, ?_⟩
  have hargs : ∀ c, Cert.ReferenceIdeal.RefValue.argsOf m' c = Cert.KernelIdeal.Blocks.argsOf m c := fun c => by
    obtain ⟨h0, h1, h2, h3, h4, h5, h6, h7, h8, h9, h10, h11, h12, h13, h14, h15, h16, h17⟩ := hagree c
    unfold Cert.ReferenceIdeal.RefValue.argsOf Cert.KernelIdeal.Blocks.argsOf
    rw [h0, h1, h2, h3, h4, h5, h6, h7, h8, h9, h10, h11, h12, h13, h14, h15, h16, h17]
  refine (θ_run Cert.ReferenceIdeal.defs _ _).mono (fun _ h c => ⟨(h c).1.trans (by rw [hargs c]), (h c).2.1.trans (by rw [hargs c]), (h c).2.2⟩)
    (Cert.ReferenceIdeal.RefValue.run_spec m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
